-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x224x224 : Shape := ⟨4, ![16, 128, 224, 224]⟩
abbrev S16x16 : Shape := ⟨2, ![16, 16]⟩
abbrev S_ : Shape := ⟨0, ![]⟩

class Facts : Prop where
  bcast_S_S16x128x224x224 : S_.BroadcastsInDim S16x128x224x224 (![] : Fin 0 → Fin S16x128x224x224.rank)
  reducesTo_S16x128x224x224_S_d0_1_2_3 : S16x128x224x224.ReducesTo [0, 1, 2, 3] S_
  h_S_ : 0 < S_.numel

variable [Facts]

def fn {F : FTy → Type} [FloatOps F] (main_arg0 : FVec F S16x128x224x224 .f32) (main_arg1 : IVec S16x16 32) : IVec S_ 1 :=
  let main_v0 : FVec F S16x128x224x224 .f32 := Host.absf main_arg0
  let main_cst : FVec F S_ .f32 := constant S_ .f32 0x7F800000#32
  let main_v1 : FVec F S16x128x224x224 .f32 := broadcastInDim S16x128x224x224 ![] bcast_S_S16x128x224x224 main_cst
  let main_v2 : IVec S16x128x224x224 1 := cmpf .olt main_v0 main_v1
  let main_c : IVec S_ 1 := constantI S_ 1 1#1
  let main_v3 : IVec S_ 1 := (fun x v => Host.reduce IntOp.andi x v reducesTo_S16x128x224x224_S_d0_1_2_3 h_S_) main_v2 main_c
  main_v3
-- ==== Kernel.lean ====
abbrev S16x128x224x224 : Shape := ⟨4, ![16, 128, 224, 224]⟩
abbrev S16x16 : Shape := ⟨2, ![16, 16]⟩
abbrev S1x32x224x224 : Shape := ⟨4, ![1, 32, 224, 224]⟩
abbrev S1x1 : Shape := ⟨2, ![1, 1]⟩
abbrev S1x32x56x56 : Shape := ⟨4, ![1, 32, 56, 56]⟩
abbrev S32x56x56 : Shape := ⟨3, ![32, 56, 56]⟩

abbrev nBuf : Space → Nat
  | .hbm => 5
  | .vmem => 4
  | .smem => 1
  | _ => 0

abbrev bufTy : (tb : Table) → Fin (tcTables nBuf tb) → BufTy
  | .hbm, ⟨0, _⟩ => ⟨S16x128x224x224, .f32⟩
  | .hbm, ⟨1, _⟩ => ⟨S16x16, .i32⟩
  | .hbm, ⟨2, _⟩ => ⟨S16x16, .i32⟩
  | .hbm, ⟨3, _⟩ => ⟨S16x16, .i32⟩
  | .hbm, ⟨4, _⟩ => ⟨S16x128x224x224, .f32⟩
  | .local _ .vmem, ⟨0, _⟩ => ⟨S1x32x224x224, .f32⟩
  | .local _ .vmem, ⟨1, _⟩ => ⟨S1x32x224x224, .f32⟩
  | .local _ .vmem, ⟨2, _⟩ => ⟨S1x32x224x224, .f32⟩
  | .local _ .vmem, ⟨3, _⟩ => ⟨S1x32x224x224, .f32⟩
  | .local _ .smem, ⟨0, _⟩ => ⟨S16x16, .i32⟩
  | _, _ => ⟨S16x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v5 : Index := Scalar.indexCast arg0
  let c0_1 : Index := 0#32
  ![v5.toNat, 0]
def k0_off3 (i : grid0.Coords) : Fin 2 → Nat :=
  let arg0 : BitVec 32 := BitVec.ofNat 32 (i 0).val
  let v10 : Index := Scalar.indexCast arg0
  let c0_3 : Index := 0#32
  ![v10.toNat, 0]
def k0_off4 (i : grid0.Coords) : Fin 2 → Nat :=
  let arg0 : BitVec 32 := BitVec.ofNat 32 (i 0).val
  let v15 : Index := Scalar.indexCast arg0
  let c0_5 : Index := 0#32
  ![v15.toNat, 0]
def k0_off5 (i : grid0.Coords) : Fin 2 → Nat :=
  let arg0 : BitVec 32 := BitVec.ofNat 32 (i 0).val
  let v20 : Index := Scalar.indexCast arg0
  let c0_7 : Index := 0#32
  ![v20.toNat, 0]
def k0_off6 (i : grid0.Coords) : Fin 2 → Nat :=
  let arg0 : BitVec 32 := BitVec.ofNat 32 (i 0).val
  let v25 : Index := Scalar.indexCast arg0
  let c0_9 : Index := 0#32
  ![v25.toNat, 0]
def k0_off7 (i : grid0.Coords) : Fin 2 → Nat :=
  let arg0 : BitVec 32 := BitVec.ofNat 32 (i 0).val
  let v30 : Index := Scalar.indexCast arg0
  let c0_11 : Index := 0#32
  ![v30.toNat, 0]
def k0_off8 (i : grid0.Coords) : Fin 2 → Nat :=
  let arg0 : BitVec 32 := BitVec.ofNat 32 (i 0).val
  let v35 : Index := Scalar.indexCast arg0
  let c0_13 : Index := 0#32
  ![v35.toNat, 0]
def k0_off9 (i : grid0.Coords) : Fin 2 → Nat :=
  let arg0 : BitVec 32 := BitVec.ofNat 32 (i 0).val
  let v40 : Index := Scalar.indexCast arg0
  let c0_15 : Index := 0#32
  ![v40.toNat, 0]
def k0_off10 (i : grid0.Coords) : Fin 2 → Nat :=
  let arg0 : BitVec 32 := BitVec.ofNat 32 (i 0).val
  let v45 : Index := Scalar.indexCast arg0
  let c0_17 : Index := 0#32
  ![v45.toNat, 0]
def k0_off11 (i : grid0.Coords) : Fin 2 → Nat :=
  let arg0 : BitVec 32 := BitVec.ofNat 32 (i 0).val
  let v50 : Index := Scalar.indexCast arg0
  let c0_19 : Index := 0#32
  ![v50.toNat, 0]
def k0_off12 (i : grid0.Coords) : Fin 2 → Nat :=
  let arg0 : BitVec 32 := BitVec.ofNat 32 (i 0).val
  let v55 : Index := Scalar.indexCast arg0
  let c0_21 : Index := 0#32
  ![v55.toNat, 0]
def k0_off13 (i : grid0.Coords) : Fin 2 → Nat :=
  let arg0 : BitVec 32 := BitVec.ofNat 32 (i 0).val
  let v60 : Index := Scalar.indexCast arg0
  let c0_23 : Index := 0#32
  ![v60.toNat, 0]
def k0_off14 (i : grid0.Coords) : Fin 2 → Nat :=
  let arg0 : BitVec 32 := BitVec.ofNat 32 (i 0).val
  let v65 : Index := Scalar.indexCast arg0
  let c0_25 : Index := 0#32
  ![v65.toNat, 0]
def k0_off15 (i : grid0.Coords) : Fin 2 → Nat :=
  let arg0 : BitVec 32 := BitVec.ofNat 32 (i 0).val
  let v70 : Index := Scalar.indexCast arg0
  let c0_27 : Index := 0#32
  ![v70.toNat, 0]
def k0_off16 (i : grid0.Coords) : Fin 2 → Nat :=
  let arg0 : BitVec 32 := BitVec.ofNat 32 (i 0).val
  let v75 : Index := Scalar.indexCast arg0
  let c0_29 : Index := 0#32
  ![v75.toNat, 0]
def k0_off17 (i : grid0.Coords) : Fin 2 → Nat :=
  let arg0 : BitVec 32 := BitVec.ofNat 32 (i 0).val
  let v80 : Index := Scalar.indexCast arg0
  let c1 : Index := 1#32
  ![v80.toNat, 1]
def k0_off18 (i : grid0.Coords) : Fin 2 → Nat :=
  let arg0 : BitVec 32 := BitVec.ofNat 32 (i 0).val
  let v85 : Index := Scalar.indexCast arg0
  let c1_33 : Index := 1#32
  ![v85.toNat, 1]
def k0_off19 (i : grid0.Coords) : Fin 2 → Nat :=
  let arg0 : BitVec 32 := BitVec.ofNat 32 (i 0).val
  let v90 : Index := Scalar.indexCast arg0
  let c1_36 : Index := 1#32
  ![v90.toNat, 1]
def k0_off20 (i : grid0.Coords) : Fin 2 → Nat :=
  let arg0 : BitVec 32 := BitVec.ofNat 32 (i 0).val
  let v95 : Index := Scalar.indexCast arg0
  let c1_39 : Index := 1#32
  ![v95.toNat, 1]
def k0_off21 (i : grid0.Coords) : Fin 2 → Nat :=
  let arg0 : BitVec 32 := BitVec.ofNat 32 (i 0).val
  let v100 : Index := Scalar.indexCast arg0
  let c1_42 : Index := 1#32
  ![v100.toNat, 1]
def k0_off22 (i : grid0.Coords) : Fin 2 → Nat :=
  let arg0 : BitVec 32 := BitVec.ofNat 32 (i 0).val
  let v105 : Index := Scalar.indexCast arg0
  let c1_45 : Index := 1#32
  ![v105.toNat, 1]
def k0_off23 (i : grid0.Coords) : Fin 2 → Nat :=
  let arg0 : BitVec 32 := BitVec.ofNat 32 (i 0).val
  let v110 : Index := Scalar.indexCast arg0
  let c1_48 : Index := 1#32
  ![v110.toNat, 1]
def k0_off24 (i : grid0.Coords) : Fin 2 → Nat :=
  let arg0 : BitVec 32 := BitVec.ofNat 32 (i 0).val
  let v115 : Index := Scalar.indexCast arg0
  let c1_51 : Index := 1#32
  ![v115.toNat, 1]
def k0_off25 (i : grid0.Coords) : Fin 2 → Nat :=
  let arg0 : BitVec 32 := BitVec.ofNat 32 (i 0).val
  let v120 : Index := Scalar.indexCast arg0
  let c1_54 : Index := 1#32
  ![v120.toNat, 1]
def k0_off26 (i : grid0.Coords) : Fin 2 → Nat :=
  let arg0 : BitVec 32 := BitVec.ofNat 32 (i 0).val
  let v125 : Index := Scalar.indexCast arg0
  let c1_57 : Index := 1#32
  ![v125.toNat, 1]
def k0_off27 (i : grid0.Coords) : Fin 2 → Nat :=
  let arg0 : BitVec 32 := BitVec.ofNat 32 (i 0).val
  let v130 : Index := Scalar.indexCast arg0
  let c1_60 : Index := 1#32
  ![v130.toNat, 1]
def k0_off28 (i : grid0.Coords) : Fin 2 → Nat :=
  let arg0 : BitVec 32 := BitVec.ofNat 32 (i 0).val
  let v135 : Index := Scalar.indexCast arg0
  let c1_63 : Index := 1#32
  ![v135.toNat, 1]
def k0_off29 (i : grid0.Coords) : Fin 2 → Nat :=
  let arg0 : BitVec 32 := BitVec.ofNat 32 (i 0).val
  let v140 : Index := Scalar.indexCast arg0
  let c1_66 : Index := 1#32
  ![v140.toNat, 1]
def k0_off30 (i : grid0.Coords) : Fin 2 → Nat :=
  let arg0 : BitVec 32 := BitVec.ofNat 32 (i 0).val
  let v145 : Index := Scalar.indexCast arg0
  let c1_69 : Index := 1#32
  ![v145.toNat, 1]
def k0_off31 (i : grid0.Coords) : Fin 2 → Nat :=
  let arg0 : BitVec 32 := BitVec.ofNat 32 (i 0).val
  let v150 : Index := Scalar.indexCast arg0
  let c1_72 : Index := 1#32
  ![v150.toNat, 1]
def k0_off32 (i : grid0.Coords) : Fin 2 → Nat :=
  let arg0 : BitVec 32 := BitVec.ofNat 32 (i 0).val
  let v155 : Index := Scalar.indexCast arg0
  let c1_75 : Index := 1#32
  ![v155.toNat, 1]
def k0_off33 (i : grid0.Coords) : Fin 2 → Nat :=
  let arg0 : BitVec 32 := BitVec.ofNat 32 (i 0).val
  let v160 : Index := Scalar.indexCast arg0
  let c2 : Index := 2#32
  ![v160.toNat, 2]
def k0_off34 (i : grid0.Coords) : Fin 2 → Nat :=
  let arg0 : BitVec 32 := BitVec.ofNat 32 (i 0).val
  let v165 : Index := Scalar.indexCast arg0
  let c2_80 : Index := 2#32
  ![v165.toNat, 2]
def k0_off35 (i : grid0.Coords) : Fin 2 → Nat :=
  let arg0 : BitVec 32 := BitVec.ofNat 32 (i 0).val
  let v170 : Index := Scalar.indexCast arg0
  let c2_83 : Index := 2#32
  ![v170.toNat, 2]
def k0_off36 (i : grid0.Coords) : Fin 2 → Nat :=
  let arg0 : BitVec 32 := BitVec.ofNat 32 (i 0).val
  let v175 : Index := Scalar.indexCast arg0
  let c2_86 : Index := 2#32
  ![v175.toNat, 2]
def k0_off37 (i : grid0.Coords) : Fin 2 → Nat :=
  let arg0 : BitVec 32 := BitVec.ofNat 32 (i 0).val
  let v180 : Index := Scalar.indexCast arg0
  let c2_89 : Index := 2#32
  ![v180.toNat, 2]
def k0_off38 (i : grid0.Coords) : Fin 2 → Nat :=
  let arg0 : BitVec 32 := BitVec.ofNat 32 (i 0).val
  let v185 : Index := Scalar.indexCast arg0
  let c2_92 : Index := 2#32
  ![v185.toNat, 2]
def k0_off39 (i : grid0.Coords) : Fin 2 → Nat :=
  let arg0 : BitVec 32 := BitVec.ofNat 32 (i 0).val
  let v190 : Index := Scalar.indexCast arg0
  let c2_95 : Index := 2#32
  ![v190.toNat, 2]
def k0_off40 (i : grid0.Coords) : Fin 2 → Nat :=
  let arg0 : BitVec 32 := BitVec.ofNat 32 (i 0).val
  let v195 : Index := Scalar.indexCast arg0
  let c2_98 : Index := 2#32
  ![v195.toNat, 2]
def k0_off41 (i : grid0.Coords) : Fin 2 → Nat :=
  let arg0 : BitVec 32 := BitVec.ofNat 32 (i 0).val
  let v200 : Index := Scalar.indexCast arg0
  let c2_101 : Index := 2#32
  ![v200.toNat, 2]
def k0_off42 (i : grid0.Coords) : Fin 2 → Nat :=
  let arg0 : BitVec 32 := BitVec.ofNat 32 (i 0).val
  let v205 : Index := Scalar.indexCast arg0
  let c2_104 : Index := 2#32
  ![v205.toNat, 2]
def k0_off43 (i : grid0.Coords) : Fin 2 → Nat :=
  let arg0 : BitVec 32 := BitVec.ofNat 32 (i 0).val
  let v210 : Index := Scalar.indexCast arg0
  let c2_107 : Index := 2#32
  ![v210.toNat, 2]
def k0_off44 (i : grid0.Coords) : Fin 2 → Nat :=
  let arg0 : BitVec 32 := BitVec.ofNat 32 (i 0).val
  let v215 : Index := Scalar.indexCast arg0
  let c2_110 : Index := 2#32
  ![v215.toNat, 2]
def k0_off45 (i : grid0.Coords) : Fin 2 → Nat :=
  let arg0 : BitVec 32 := BitVec.ofNat 32 (i 0).val
  let v220 : Index := Scalar.indexCast arg0
  let c2_113 : Index := 2#32
  ![v220.toNat, 2]
def k0_off46 (i : grid0.Coords) : Fin 2 → Nat :=
  let arg0 : BitVec 32 := BitVec.ofNat 32 (i 0).val
  let v225 : Index := Scalar.indexCast arg0
  let c2_116 : Index := 2#32
  ![v225.toNat, 2]
def k0_off47 (i : grid0.Coords) : Fin 2 → Nat :=
  let arg0 : BitVec 32 := BitVec.ofNat 32 (i 0).val
  let v230 : Index := Scalar.indexCast arg0
  let c2_119 : Index := 2#32
  ![v230.toNat, 2]
def k0_off48 (i : grid0.Coords) : Fin 2 → Nat :=
  let arg0 : BitVec 32 := BitVec.ofNat 32 (i 0).val
  let v235 : Index := Scalar.indexCast arg0
  let c2_122 : Index := 2#32
  ![v235.toNat, 2]
def k0_off49 (i : grid0.Coords) : Fin 2 → Nat :=
  let arg0 : BitVec 32 := BitVec.ofNat 32 (i 0).val
  let v240 : Index := Scalar.indexCast arg0
  let c3 : Index := 3#32
  ![v240.toNat, 3]
def k0_off50 (i : grid0.Coords) : Fin 2 → Nat :=
  let arg0 : BitVec 32 := BitVec.ofNat 32 (i 0).val
  let v245 : Index := Scalar.indexCast arg0
  let c3_127 : Index := 3#32
  ![v245.toNat, 3]
def k0_off51 (i : grid0.Coords) : Fin 2 → Nat :=
  let arg0 : BitVec 32 := BitVec.ofNat 32 (i 0).val
  let v250 : Index := Scalar.indexCast arg0
  let c3_130 : Index := 3#32
  ![v250.toNat, 3]
def k0_off52 (i : grid0.Coords) : Fin 2 → Nat :=
  let arg0 : BitVec 32 := BitVec.ofNat 32 (i 0).val
  let v255 : Index := Scalar.indexCast arg0
  let c3_133 : Index := 3#32
  ![v255.toNat, 3]
def k0_off53 (i : grid0.Coords) : Fin 2 → Nat :=
  let arg0 : BitVec 32 := BitVec.ofNat 32 (i 0).val
  let v260 : Index := Scalar.indexCast arg0
  let c3_136 : Index := 3#32
  ![v260.toNat, 3]
def k0_off54 (i : grid0.Coords) : Fin 2 → Nat :=
  let arg0 : BitVec 32 := BitVec.ofNat 32 (i 0).val
  let v265 : Index := Scalar.indexCast arg0
  let c3_139 : Index := 3#32
  ![v265.toNat, 3]
def k0_off55 (i : grid0.Coords) : Fin 2 → Nat :=
  let arg0 : BitVec 32 := BitVec.ofNat 32 (i 0).val
  let v270 : Index := Scalar.indexCast arg0
  let c3_142 : Index := 3#32
  ![v270.toNat, 3]
def k0_off56 (i : grid0.Coords) : Fin 2 → Nat :=
  let arg0 : BitVec 32 := BitVec.ofNat 32 (i 0).val
  let v275 : Index := Scalar.indexCast arg0
  let c3_145 : Index := 3#32
  ![v275.toNat, 3]
def k0_off57 (i : grid0.Coords) : Fin 2 → Nat :=
  let arg0 : BitVec 32 := BitVec.ofNat 32 (i 0).val
  let v280 : Index := Scalar.indexCast arg0
  let c3_148 : Index := 3#32
  ![v280.toNat, 3]
def k0_off58 (i : grid0.Coords) : Fin 2 → Nat :=
  let arg0 : BitVec 32 := BitVec.ofNat 32 (i 0).val
  let v285 : Index := Scalar.indexCast arg0
  let c3_151 : Index := 3#32
  ![v285.toNat, 3]
def k0_off59 (i : grid0.Coords) : Fin 2 → Nat :=
  let arg0 : BitVec 32 := BitVec.ofNat 32 (i 0).val
  let v290 : Index := Scalar.indexCast arg0
  let c3_154 : Index := 3#32
  ![v290.toNat, 3]
def k0_off60 (i : grid0.Coords) : Fin 2 → Nat :=
  let arg0 : BitVec 32 := BitVec.ofNat 32 (i 0).val
  let v295 : Index := Scalar.indexCast arg0
  let c3_157 : Index := 3#32
  ![v295.toNat, 3]
def k0_off61 (i : grid0.Coords) : Fin 2 → Nat :=
  let arg0 : BitVec 32 := BitVec.ofNat 32 (i 0).val
  let v300 : Index := Scalar.indexCast arg0
  let c3_160 : Index := 3#32
  ![v300.toNat, 3]
def k0_off62 (i : grid0.Coords) : Fin 2 → Nat :=
  let arg0 : BitVec 32 := BitVec.ofNat 32 (i 0).val
  let v305 : Index := Scalar.indexCast arg0
  let c3_163 : Index := 3#32
  ![v305.toNat, 3]
def k0_off63 (i : grid0.Coords) : Fin 2 → Nat :=
  let arg0 : BitVec 32 := BitVec.ofNat 32 (i 0).val
  let v310 : Index := Scalar.indexCast arg0
  let c3_166 : Index := 3#32
  ![v310.toNat, 3]
def k0_off64 (i : grid0.Coords) : Fin 2 → Nat :=
  let arg0 : BitVec 32 := BitVec.ofNat 32 (i 0).val
  let v315 : Index := Scalar.indexCast arg0
  let c3_169 : Index := 3#32
  ![v315.toNat, 3]
def k0_off65 (i : grid0.Coords) : Fin 2 → Nat :=
  let arg0 : BitVec 32 := BitVec.ofNat 32 (i 0).val
  let v320 : Index := Scalar.indexCast arg0
  let c4 : Index := 4#32
  ![v320.toNat, 4]
def k0_off66 (i : grid0.Coords) : Fin 2 → Nat :=
  let arg0 : BitVec 32 := BitVec.ofNat 32 (i 0).val
  let v325 : Index := Scalar.indexCast arg0
  let c4_174 : Index := 4#32
  ![v325.toNat, 4]
def k0_off67 (i : grid0.Coords) : Fin 2 → Nat :=
  let arg0 : BitVec 32 := BitVec.ofNat 32 (i 0).val
  let v330 : Index := Scalar.indexCast arg0
  let c4_177 : Index := 4#32
  ![v330.toNat, 4]
def k0_off68 (i : grid0.Coords) : Fin 2 → Nat :=
  let arg0 : BitVec 32 := BitVec.ofNat 32 (i 0).val
  let v335 : Index := Scalar.indexCast arg0
  let c4_180 : Index := 4#32
  ![v335.toNat, 4]
def k0_off69 (i : grid0.Coords) : Fin 2 → Nat :=
  let arg0 : BitVec 32 := BitVec.ofNat 32 (i 0).val
  let v340 : Index := Scalar.indexCast arg0
  let c4_183 : Index := 4#32
  ![v340.toNat, 4]
def k0_off70 (i : grid0.Coords) : Fin 2 → Nat :=
  let arg0 : BitVec 32 := BitVec.ofNat 32 (i 0).val
  let v345 : Index := Scalar.indexCast arg0
  let c4_186 : Index := 4#32
  ![v345.toNat, 4]
def k0_off71 (i : grid0.Coords) : Fin 2 → Nat :=
  let arg0 : BitVec 32 := BitVec.ofNat 32 (i 0).val
  let v350 : Index := Scalar.indexCast arg0
  let c4_189 : Index := 4#32
  ![v350.toNat, 4]
def k0_off72 (i : grid0.Coords) : Fin 2 → Nat :=
  let arg0 : BitVec 32 := BitVec.ofNat 32 (i 0).val
  let v355 : Index := Scalar.indexCast arg0
  let c4_192 : Index := 4#32
  ![v355.toNat, 4]
def k0_off73 (i : grid0.Coords) : Fin 2 → Nat :=
  let arg0 : BitVec 32 := BitVec.ofNat 32 (i 0).val
  let v360 : Index := Scalar.indexCast arg0
  let c4_195 : Index := 4#32
  ![v360.toNat, 4]
def k0_off74 (i : grid0.Coords) : Fin 2 → Nat :=
  let arg0 : BitVec 32 := BitVec.ofNat 32 (i 0).val
  let v365 : Index := Scalar.indexCast arg0
  let c4_198 : Index := 4#32
  ![v365.toNat, 4]
def k0_off75 (i : grid0.Coords) : Fin 2 → Nat :=
  let arg0 : BitVec 32 := BitVec.ofNat 32 (i 0).val
  let v370 : Index := Scalar.indexCast arg0
  let c4_201 : Index := 4#32
  ![v370.toNat, 4]
def k0_off76 (i : grid0.Coords) : Fin 2 → Nat :=
  let arg0 : BitVec 32 := BitVec.ofNat 32 (i 0).val
  let v375 : Index := Scalar.indexCast arg0
  let c4_204 : Index := 4#32
  ![v375.toNat, 4]
def k0_off77 (i : grid0.Coords) : Fin 2 → Nat :=
  let arg0 : BitVec 32 := BitVec.ofNat 32 (i 0).val
  let v380 : Index := Scalar.indexCast arg0
  let c4_207 : Index := 4#32
  ![v380.toNat, 4]
def k0_off78 (i : grid0.Coords) : Fin 2 → Nat :=
  let arg0 : BitVec 32 := BitVec.ofNat 32 (i 0).val
  let v385 : Index := Scalar.indexCast arg0
  let c4_210 : Index := 4#32
  ![v385.toNat, 4]
def k0_off79 (i : grid0.Coords) : Fin 2 → Nat :=
  let arg0 : BitVec 32 := BitVec.ofNat 32 (i 0).val
  let v390 : Index := Scalar.indexCast arg0
  let c4_213 : Index := 4#32
  ![v390.toNat, 4]
def k0_off80 (i : grid0.Coords) : Fin 2 → Nat :=
  let arg0 : BitVec 32 := BitVec.ofNat 32 (i 0).val
  let v395 : Index := Scalar.indexCast arg0
  let c4_216 : Index := 4#32
  ![v395.toNat, 4]
def k0_off81 (i : grid0.Coords) : Fin 2 → Nat :=
  let arg0 : BitVec 32 := BitVec.ofNat 32 (i 0).val
  let v400 : Index := Scalar.indexCast arg0
  let c5 : Index := 5#32
  ![v400.toNat, 5]
def k0_off82 (i : grid0.Coords) : Fin 2 → Nat :=
  let arg0 : BitVec 32 := BitVec.ofNat 32 (i 0).val
  let v405 : Index := Scalar.indexCast arg0
  let c5_221 : Index := 5#32
  ![v405.toNat, 5]
def k0_off83 (i : grid0.Coords) : Fin 2 → Nat :=
  let arg0 : BitVec 32 := BitVec.ofNat 32 (i 0).val
  let v410 : Index := Scalar.indexCast arg0
  let c5_224 : Index := 5#32
  ![v410.toNat, 5]
def k0_off84 (i : grid0.Coords) : Fin 2 → Nat :=
  let arg0 : BitVec 32 := BitVec.ofNat 32 (i 0).val
  let v415 : Index := Scalar.indexCast arg0
  let c5_227 : Index := 5#32
  ![v415.toNat, 5]
def k0_off85 (i : grid0.Coords) : Fin 2 → Nat :=
  let arg0 : BitVec 32 := BitVec.ofNat 32 (i 0).val
  let v420 : Index := Scalar.indexCast arg0
  let c5_230 : Index := 5#32
  ![v420.toNat, 5]
def k0_off86 (i : grid0.Coords) : Fin 2 → Nat :=
  let arg0 : BitVec 32 := BitVec.ofNat 32 (i 0).val
  let v425 : Index := Scalar.indexCast arg0
  let c5_233 : Index := 5#32
  ![v425.toNat, 5]
def k0_off87 (i : grid0.Coords) : Fin 2 → Nat :=
  let arg0 : BitVec 32 := BitVec.ofNat 32 (i 0).val
  let v430 : Index := Scalar.indexCast arg0
  let c5_236 : Index := 5#32
  ![v430.toNat, 5]
def k0_off88 (i : grid0.Coords) : Fin 2 → Nat :=
  let arg0 : BitVec 32 := BitVec.ofNat 32 (i 0).val
  let v435 : Index := Scalar.indexCast arg0
  let c5_239 : Index := 5#32
  ![v435.toNat, 5]
def k0_off89 (i : grid0.Coords) : Fin 2 → Nat :=
  let arg0 : BitVec 32 := BitVec.ofNat 32 (i 0).val
  let v440 : Index := Scalar.indexCast arg0
  let c5_242 : Index := 5#32
  ![v440.toNat, 5]
def k0_off90 (i : grid0.Coords) : Fin 2 → Nat :=
  let arg0 : BitVec 32 := BitVec.ofNat 32 (i 0).val
  let v445 : Index := Scalar.indexCast arg0
  let c5_245 : Index := 5#32
  ![v445.toNat, 5]
def k0_off91 (i : grid0.Coords) : Fin 2 → Nat :=
  let arg0 : BitVec 32 := BitVec.ofNat 32 (i 0).val
  let v450 : Index := Scalar.indexCast arg0
  let c5_248 : Index := 5#32
  ![v450.toNat, 5]
def k0_off92 (i : grid0.Coords) : Fin 2 → Nat :=
  let arg0 : BitVec 32 := BitVec.ofNat 32 (i 0).val
  let v455 : Index := Scalar.indexCast arg0
  let c5_251 : Index := 5#32
  ![v455.toNat, 5]
def k0_off93 (i : grid0.Coords) : Fin 2 → Nat :=
  let arg0 : BitVec 32 := BitVec.ofNat 32 (i 0).val
  let v460 : Index := Scalar.indexCast arg0
  let c5_254 : Index := 5#32
  ![v460.toNat, 5]
def k0_off94 (i : grid0.Coords) : Fin 2 → Nat :=
  let arg0 : BitVec 32 := BitVec.ofNat 32 (i 0).val
  let v465 : Index := Scalar.indexCast arg0
  let c5_257 : Index := 5#32
  ![v465.toNat, 5]
def k0_off95 (i : grid0.Coords) : Fin 2 → Nat :=
  let arg0 : BitVec 32 := BitVec.ofNat 32 (i 0).val
  let v470 : Index := Scalar.indexCast arg0
  let c5_260 : Index := 5#32
  ![v470.toNat, 5]
def k0_off96 (i : grid0.Coords) : Fin 2 → Nat :=
  let arg0 : BitVec 32 := BitVec.ofNat 32 (i 0).val
  let v475 : Index := Scalar.indexCast arg0
  let c5_263 : Index := 5#32
  ![v475.toNat, 5]
def k0_off97 (i : grid0.Coords) : Fin 2 → Nat :=
  let arg0 : BitVec 32 := BitVec.ofNat 32 (i 0).val
  let v480 : Index := Scalar.indexCast arg0
  let c6 : Index := 6#32
  ![v480.toNat, 6]
def k0_off98 (i : grid0.Coords) : Fin 2 → Nat :=
  let arg0 : BitVec 32 := BitVec.ofNat 32 (i 0).val
  let v485 : Index := Scalar.indexCast arg0
  let c6_268 : Index := 6#32
  ![v485.toNat, 6]
def k0_off99 (i : grid0.Coords) : Fin 2 → Nat :=
  let arg0 : BitVec 32 := BitVec.ofNat 32 (i 0).val
  let v490 : Index := Scalar.indexCast arg0
  let c6_271 : Index := 6#32
  ![v490.toNat, 6]
def k0_off100 (i : grid0.Coords) : Fin 2 → Nat :=
  let arg0 : BitVec 32 := BitVec.ofNat 32 (i 0).val
  let v495 : Index := Scalar.indexCast arg0
  let c6_274 : Index := 6#32
  ![v495.toNat, 6]
def k0_off101 (i : grid0.Coords) : Fin 2 → Nat :=
  let arg0 : BitVec 32 := BitVec.ofNat 32 (i 0).val
  let v500 : Index := Scalar.indexCast arg0
  let c6_277 : Index := 6#32
  ![v500.toNat, 6]
def k0_off102 (i : grid0.Coords) : Fin 2 → Nat :=
  let arg0 : BitVec 32 := BitVec.ofNat 32 (i 0).val
  let v505 : Index := Scalar.indexCast arg0
  let c6_280 : Index := 6#32
  ![v505.toNat, 6]
def k0_off103 (i : grid0.Coords) : Fin 2 → Nat :=
  let arg0 : BitVec 32 := BitVec.ofNat 32 (i 0).val
  let v510 : Index := Scalar.indexCast arg0
  let c6_283 : Index := 6#32
  ![v510.toNat, 6]
def k0_off104 (i : grid0.Coords) : Fin 2 → Nat :=
  let arg0 : BitVec 32 := BitVec.ofNat 32 (i 0).val
  let v515 : Index := Scalar.indexCast arg0
  let c6_286 : Index := 6#32
  ![v515.toNat, 6]
def k0_off105 (i : grid0.Coords) : Fin 2 → Nat :=
  let arg0 : BitVec 32 := BitVec.ofNat 32 (i 0).val
  let v520 : Index := Scalar.indexCast arg0
  let c6_289 : Index := 6#32
  ![v520.toNat, 6]
def k0_off106 (i : grid0.Coords) : Fin 2 → Nat :=
  let arg0 : BitVec 32 := BitVec.ofNat 32 (i 0).val
  let v525 : Index := Scalar.indexCast arg0
  let c6_292 : Index := 6#32
  ![v525.toNat, 6]
def k0_off107 (i : grid0.Coords) : Fin 2 → Nat :=
  let arg0 : BitVec 32 := BitVec.ofNat 32 (i 0).val
  let v530 : Index := Scalar.indexCast arg0
  let c6_295 : Index := 6#32
  ![v530.toNat, 6]
def k0_off108 (i : grid0.Coords) : Fin 2 → Nat :=
  let arg0 : BitVec 32 := BitVec.ofNat 32 (i 0).val
  let v535 : Index := Scalar.indexCast arg0
  let c6_298 : Index := 6#32
  ![v535.toNat, 6]
def k0_off109 (i : grid0.Coords) : Fin 2 → Nat :=
  let arg0 : BitVec 32 := BitVec.ofNat 32 (i 0).val
  let v540 : Index := Scalar.indexCast arg0
  let c6_301 : Index := 6#32
  ![v540.toNat, 6]
def k0_off110 (i : grid0.Coords) : Fin 2 → Nat :=
  let arg0 : BitVec 32 := BitVec.ofNat 32 (i 0).val
  let v545 : Index := Scalar.indexCast arg0
  let c6_304 : Index := 6#32
  ![v545.toNat, 6]
def k0_off111 (i : grid0.Coords) : Fin 2 → Nat :=
  let arg0 : BitVec 32 := BitVec.ofNat 32 (i 0).val
  let v550 : Index := Scalar.indexCast arg0
  let c6_307 : Index := 6#32
  ![v550.toNat, 6]
def k0_off112 (i : grid0.Coords) : Fin 2 → Nat :=
  let arg0 : BitVec 32 := BitVec.ofNat 32 (i 0).val
  let v555 : Index := Scalar.indexCast arg0
  let c6_310 : Index := 6#32
  ![v555.toNat, 6]
def k0_off113 (i : grid0.Coords) : Fin 2 → Nat :=
  let arg0 : BitVec 32 := BitVec.ofNat 32 (i 0).val
  let v560 : Index := Scalar.indexCast arg0
  let c7 : Index := 7#32
  ![v560.toNat, 7]
def k0_off114 (i : grid0.Coords) : Fin 2 → Nat :=
  let arg0 : BitVec 32 := BitVec.ofNat 32 (i 0).val
  let v565 : Index := Scalar.indexCast arg0
  let c7_315 : Index := 7#32
  ![v565.toNat, 7]
def k0_off115 (i : grid0.Coords) : Fin 2 → Nat :=
  let arg0 : BitVec 32 := BitVec.ofNat 32 (i 0).val
  let v570 : Index := Scalar.indexCast arg0
  let c7_318 : Index := 7#32
  ![v570.toNat, 7]
def k0_off116 (i : grid0.Coords) : Fin 2 → Nat :=
  let arg0 : BitVec 32 := BitVec.ofNat 32 (i 0).val
  let v575 : Index := Scalar.indexCast arg0
  let c7_321 : Index := 7#32
  ![v575.toNat, 7]
def k0_off117 (i : grid0.Coords) : Fin 2 → Nat :=
  let arg0 : BitVec 32 := BitVec.ofNat 32 (i 0).val
  let v580 : Index := Scalar.indexCast arg0
  let c7_324 : Index := 7#32
  ![v580.toNat, 7]
def k0_off118 (i : grid0.Coords) : Fin 2 → Nat :=
  let arg0 : BitVec 32 := BitVec.ofNat 32 (i 0).val
  let v585 : Index := Scalar.indexCast arg0
  let c7_327 : Index := 7#32
  ![v585.toNat, 7]
def k0_off119 (i : grid0.Coords) : Fin 2 → Nat :=
  let arg0 : BitVec 32 := BitVec.ofNat 32 (i 0).val
  let v590 : Index := Scalar.indexCast arg0
  let c7_330 : Index := 7#32
  ![v590.toNat, 7]
def k0_off120 (i : grid0.Coords) : Fin 2 → Nat :=
  let arg0 : BitVec 32 := BitVec.ofNat 32 (i 0).val
  let v595 : Index := Scalar.indexCast arg0
  let c7_333 : Index := 7#32
  ![v595.toNat, 7]
def k0_off121 (i : grid0.Coords) : Fin 2 → Nat :=
  let arg0 : BitVec 32 := BitVec.ofNat 32 (i 0).val
  let v600 : Index := Scalar.indexCast arg0
  let c7_336 : Index := 7#32
  ![v600.toNat, 7]
def k0_off122 (i : grid0.Coords) : Fin 2 → Nat :=
  let arg0 : BitVec 32 := BitVec.ofNat 32 (i 0).val
  let v605 : Index := Scalar.indexCast arg0
  let c7_339 : Index := 7#32
  ![v605.toNat, 7]
def k0_off123 (i : grid0.Coords) : Fin 2 → Nat :=
  let arg0 : BitVec 32 := BitVec.ofNat 32 (i 0).val
  let v610 : Index := Scalar.indexCast arg0
  let c7_342 : Index := 7#32
  ![v610.toNat, 7]
def k0_off124 (i : grid0.Coords) : Fin 2 → Nat :=
  let arg0 : BitVec 32 := BitVec.ofNat 32 (i 0).val
  let v615 : Index := Scalar.indexCast arg0
  let c7_345 : Index := 7#32
  ![v615.toNat, 7]
def k0_off125 (i : grid0.Coords) : Fin 2 → Nat :=
  let arg0 : BitVec 32 := BitVec.ofNat 32 (i 0).val
  let v620 : Index := Scalar.indexCast arg0
  let c7_348 : Index := 7#32
  ![v620.toNat, 7]
def k0_off126 (i : grid0.Coords) : Fin 2 → Nat :=
  let arg0 : BitVec 32 := BitVec.ofNat 32 (i 0).val
  let v625 : Index := Scalar.indexCast arg0
  let c7_351 : Index := 7#32
  ![v625.toNat, 7]
def k0_off127 (i : grid0.Coords) : Fin 2 → Nat :=
  let arg0 : BitVec 32 := BitVec.ofNat 32 (i 0).val
  let v630 : Index := Scalar.indexCast arg0
  let c7_354 : Index := 7#32
  ![v630.toNat, 7]
def k0_off128 (i : grid0.Coords) : Fin 2 → Nat :=
  let arg0 : BitVec 32 := BitVec.ofNat 32 (i 0).val
  let v635 : Index := Scalar.indexCast arg0
  let c7_357 : Index := 7#32
  ![v635.toNat, 7]
def k0_off129 (i : grid0.Coords) : Fin 2 → Nat :=
  let arg0 : BitVec 32 := BitVec.ofNat 32 (i 0).val
  let v640 : Index := Scalar.indexCast arg0
  let c8 : Index := 8#32
  ![v640.toNat, 8]
def k0_off130 (i : grid0.Coords) : Fin 2 → Nat :=
  let arg0 : BitVec 32 := BitVec.ofNat 32 (i 0).val
  let v645 : Index := Scalar.indexCast arg0
  let c8_362 : Index := 8#32
  ![v645.toNat, 8]
def k0_off131 (i : grid0.Coords) : Fin 2 → Nat :=
  let arg0 : BitVec 32 := BitVec.ofNat 32 (i 0).val
  let v650 : Index := Scalar.indexCast arg0
  let c8_365 : Index := 8#32
  ![v650.toNat, 8]
def k0_off132 (i : grid0.Coords) : Fin 2 → Nat :=
  let arg0 : BitVec 32 := BitVec.ofNat 32 (i 0).val
  let v655 : Index := Scalar.indexCast arg0
  let c8_368 : Index := 8#32
  ![v655.toNat, 8]
def k0_off133 (i : grid0.Coords) : Fin 2 → Nat :=
  let arg0 : BitVec 32 := BitVec.ofNat 32 (i 0).val
  let v660 : Index := Scalar.indexCast arg0
  let c8_371 : Index := 8#32
  ![v660.toNat, 8]
def k0_off134 (i : grid0.Coords) : Fin 2 → Nat :=
  let arg0 : BitVec 32 := BitVec.ofNat 32 (i 0).val
  let v665 : Index := Scalar.indexCast arg0
  let c8_374 : Index := 8#32
  ![v665.toNat, 8]
def k0_off135 (i : grid0.Coords) : Fin 2 → Nat :=
  let arg0 : BitVec 32 := BitVec.ofNat 32 (i 0).val
  let v670 : Index := Scalar.indexCast arg0
  let c8_377 : Index := 8#32
  ![v670.toNat, 8]
def k0_off136 (i : grid0.Coords) : Fin 2 → Nat :=
  let arg0 : BitVec 32 := BitVec.ofNat 32 (i 0).val
  let v675 : Index := Scalar.indexCast arg0
  let c8_380 : Index := 8#32
  ![v675.toNat, 8]
def k0_off137 (i : grid0.Coords) : Fin 2 → Nat :=
  let arg0 : BitVec 32 := BitVec.ofNat 32 (i 0).val
  let v680 : Index := Scalar.indexCast arg0
  let c8_383 : Index := 8#32
  ![v680.toNat, 8]
def k0_off138 (i : grid0.Coords) : Fin 2 → Nat :=
  let arg0 : BitVec 32 := BitVec.ofNat 32 (i 0).val
  let v685 : Index := Scalar.indexCast arg0
  let c8_386 : Index := 8#32
  ![v685.toNat, 8]
def k0_off139 (i : grid0.Coords) : Fin 2 → Nat :=
  let arg0 : BitVec 32 := BitVec.ofNat 32 (i 0).val
  let v690 : Index := Scalar.indexCast arg0
  let c8_389 : Index := 8#32
  ![v690.toNat, 8]
def k0_off140 (i : grid0.Coords) : Fin 2 → Nat :=
  let arg0 : BitVec 32 := BitVec.ofNat 32 (i 0).val
  let v695 : Index := Scalar.indexCast arg0
  let c8_392 : Index := 8#32
  ![v695.toNat, 8]
def k0_off141 (i : grid0.Coords) : Fin 2 → Nat :=
  let arg0 : BitVec 32 := BitVec.ofNat 32 (i 0).val
  let v700 : Index := Scalar.indexCast arg0
  let c8_395 : Index := 8#32
  ![v700.toNat, 8]
def k0_off142 (i : grid0.Coords) : Fin 2 → Nat :=
  let arg0 : BitVec 32 := BitVec.ofNat 32 (i 0).val
  let v705 : Index := Scalar.indexCast arg0
  let c8_398 : Index := 8#32
  ![v705.toNat, 8]
def k0_off143 (i : grid0.Coords) : Fin 2 → Nat :=
  let arg0 : BitVec 32 := BitVec.ofNat 32 (i 0).val
  let v710 : Index := Scalar.indexCast arg0
  let c8_401 : Index := 8#32
  ![v710.toNat, 8]
def k0_off144 (i : grid0.Coords) : Fin 2 → Nat :=
  let arg0 : BitVec 32 := BitVec.ofNat 32 (i 0).val
  let v715 : Index := Scalar.indexCast arg0
  let c8_404 : Index := 8#32
  ![v715.toNat, 8]
def k0_off145 (i : grid0.Coords) : Fin 2 → Nat :=
  let arg0 : BitVec 32 := BitVec.ofNat 32 (i 0).val
  let v720 : Index := Scalar.indexCast arg0
  let c9 : Index := 9#32
  ![v720.toNat, 9]
def k0_off146 (i : grid0.Coords) : Fin 2 → Nat :=
  let arg0 : BitVec 32 := BitVec.ofNat 32 (i 0).val
  let v725 : Index := Scalar.indexCast arg0
  let c9_409 : Index := 9#32
  ![v725.toNat, 9]
def k0_off147 (i : grid0.Coords) : Fin 2 → Nat :=
  let arg0 : BitVec 32 := BitVec.ofNat 32 (i 0).val
  let v730 : Index := Scalar.indexCast arg0
  let c9_412 : Index := 9#32
  ![v730.toNat, 9]
def k0_off148 (i : grid0.Coords) : Fin 2 → Nat :=
  let arg0 : BitVec 32 := BitVec.ofNat 32 (i 0).val
  let v735 : Index := Scalar.indexCast arg0
  let c9_415 : Index := 9#32
  ![v735.toNat, 9]
def k0_off149 (i : grid0.Coords) : Fin 2 → Nat :=
  let arg0 : BitVec 32 := BitVec.ofNat 32 (i 0).val
  let v740 : Index := Scalar.indexCast arg0
  let c9_418 : Index := 9#32
  ![v740.toNat, 9]
def k0_off150 (i : grid0.Coords) : Fin 2 → Nat :=
  let arg0 : BitVec 32 := BitVec.ofNat 32 (i 0).val
  let v745 : Index := Scalar.indexCast arg0
  let c9_421 : Index := 9#32
  ![v745.toNat, 9]
def k0_off151 (i : grid0.Coords) : Fin 2 → Nat :=
  let arg0 : BitVec 32 := BitVec.ofNat 32 (i 0).val
  let v750 : Index := Scalar.indexCast arg0
  let c9_424 : Index := 9#32
  ![v750.toNat, 9]
def k0_off152 (i : grid0.Coords) : Fin 2 → Nat :=
  let arg0 : BitVec 32 := BitVec.ofNat 32 (i 0).val
  let v755 : Index := Scalar.indexCast arg0
  let c9_427 : Index := 9#32
  ![v755.toNat, 9]
def k0_off153 (i : grid0.Coords) : Fin 2 → Nat :=
  let arg0 : BitVec 32 := BitVec.ofNat 32 (i 0).val
  let v760 : Index := Scalar.indexCast arg0
  let c9_430 : Index := 9#32
  ![v760.toNat, 9]
def k0_off154 (i : grid0.Coords) : Fin 2 → Nat :=
  let arg0 : BitVec 32 := BitVec.ofNat 32 (i 0).val
  let v765 : Index := Scalar.indexCast arg0
  let c9_433 : Index := 9#32
  ![v765.toNat, 9]
def k0_off155 (i : grid0.Coords) : Fin 2 → Nat :=
  let arg0 : BitVec 32 := BitVec.ofNat 32 (i 0).val
  let v770 : Index := Scalar.indexCast arg0
  let c9_436 : Index := 9#32
  ![v770.toNat, 9]
def k0_off156 (i : grid0.Coords) : Fin 2 → Nat :=
  let arg0 : BitVec 32 := BitVec.ofNat 32 (i 0).val
  let v775 : Index := Scalar.indexCast arg0
  let c9_439 : Index := 9#32
  ![v775.toNat, 9]
def k0_off157 (i : grid0.Coords) : Fin 2 → Nat :=
  let arg0 : BitVec 32 := BitVec.ofNat 32 (i 0).val
  let v780 : Index := Scalar.indexCast arg0
  let c9_442 : Index := 9#32
  ![v780.toNat, 9]
def k0_off158 (i : grid0.Coords) : Fin 2 → Nat :=
  let arg0 : BitVec 32 := BitVec.ofNat 32 (i 0).val
  let v785 : Index := Scalar.indexCast arg0
  let c9_445 : Index := 9#32
  ![v785.toNat, 9]
def k0_off159 (i : grid0.Coords) : Fin 2 → Nat :=
  let arg0 : BitVec 32 := BitVec.ofNat 32 (i 0).val
  let v790 : Index := Scalar.indexCast arg0
  let c9_448 : Index := 9#32
  ![v790.toNat, 9]
def k0_off160 (i : grid0.Coords) : Fin 2 → Nat :=
  let arg0 : BitVec 32 := BitVec.ofNat 32 (i 0).val
  let v795 : Index := Scalar.indexCast arg0
  let c9_451 : Index := 9#32
  ![v795.toNat, 9]
def k0_off161 (i : grid0.Coords) : Fin 2 → Nat :=
  let arg0 : BitVec 32 := BitVec.ofNat 32 (i 0).val
  let v800 : Index := Scalar.indexCast arg0
  let c10 : Index := 10#32
  ![v800.toNat, 10]
def k0_off162 (i : grid0.Coords) : Fin 2 → Nat :=
  let arg0 : BitVec 32 := BitVec.ofNat 32 (i 0).val
  let v805 : Index := Scalar.indexCast arg0
  let c10_456 : Index := 10#32
  ![v805.toNat, 10]
def k0_off163 (i : grid0.Coords) : Fin 2 → Nat :=
  let arg0 : BitVec 32 := BitVec.ofNat 32 (i 0).val
  let v810 : Index := Scalar.indexCast arg0
  let c10_459 : Index := 10#32
  ![v810.toNat, 10]
def k0_off164 (i : grid0.Coords) : Fin 2 → Nat :=
  let arg0 : BitVec 32 := BitVec.ofNat 32 (i 0).val
  let v815 : Index := Scalar.indexCast arg0
  let c10_462 : Index := 10#32
  ![v815.toNat, 10]
def k0_off165 (i : grid0.Coords) : Fin 2 → Nat :=
  let arg0 : BitVec 32 := BitVec.ofNat 32 (i 0).val
  let v820 : Index := Scalar.indexCast arg0
  let c10_465 : Index := 10#32
  ![v820.toNat, 10]
def k0_off166 (i : grid0.Coords) : Fin 2 → Nat :=
  let arg0 : BitVec 32 := BitVec.ofNat 32 (i 0).val
  let v825 : Index := Scalar.indexCast arg0
  let c10_468 : Index := 10#32
  ![v825.toNat, 10]
def k0_off167 (i : grid0.Coords) : Fin 2 → Nat :=
  let arg0 : BitVec 32 := BitVec.ofNat 32 (i 0).val
  let v830 : Index := Scalar.indexCast arg0
  let c10_471 : Index := 10#32
  ![v830.toNat, 10]
def k0_off168 (i : grid0.Coords) : Fin 2 → Nat :=
  let arg0 : BitVec 32 := BitVec.ofNat 32 (i 0).val
  let v835 : Index := Scalar.indexCast arg0
  let c10_474 : Index := 10#32
  ![v835.toNat, 10]
def k0_off169 (i : grid0.Coords) : Fin 2 → Nat :=
  let arg0 : BitVec 32 := BitVec.ofNat 32 (i 0).val
  let v840 : Index := Scalar.indexCast arg0
  let c10_477 : Index := 10#32
  ![v840.toNat, 10]
def k0_off170 (i : grid0.Coords) : Fin 2 → Nat :=
  let arg0 : BitVec 32 := BitVec.ofNat 32 (i 0).val
  let v845 : Index := Scalar.indexCast arg0
  let c10_480 : Index := 10#32
  ![v845.toNat, 10]
def k0_off171 (i : grid0.Coords) : Fin 2 → Nat :=
  let arg0 : BitVec 32 := BitVec.ofNat 32 (i 0).val
  let v850 : Index := Scalar.indexCast arg0
  let c10_483 : Index := 10#32
  ![v850.toNat, 10]
def k0_off172 (i : grid0.Coords) : Fin 2 → Nat :=
  let arg0 : BitVec 32 := BitVec.ofNat 32 (i 0).val
  let v855 : Index := Scalar.indexCast arg0
  let c10_486 : Index := 10#32
  ![v855.toNat, 10]
def k0_off173 (i : grid0.Coords) : Fin 2 → Nat :=
  let arg0 : BitVec 32 := BitVec.ofNat 32 (i 0).val
  let v860 : Index := Scalar.indexCast arg0
  let c10_489 : Index := 10#32
  ![v860.toNat, 10]
def k0_off174 (i : grid0.Coords) : Fin 2 → Nat :=
  let arg0 : BitVec 32 := BitVec.ofNat 32 (i 0).val
  let v865 : Index := Scalar.indexCast arg0
  let c10_492 : Index := 10#32
  ![v865.toNat, 10]
def k0_off175 (i : grid0.Coords) : Fin 2 → Nat :=
  let arg0 : BitVec 32 := BitVec.ofNat 32 (i 0).val
  let v870 : Index := Scalar.indexCast arg0
  let c10_495 : Index := 10#32
  ![v870.toNat, 10]
def k0_off176 (i : grid0.Coords) : Fin 2 → Nat :=
  let arg0 : BitVec 32 := BitVec.ofNat 32 (i 0).val
  let v875 : Index := Scalar.indexCast arg0
  let c10_498 : Index := 10#32
  ![v875.toNat, 10]
def k0_off177 (i : grid0.Coords) : Fin 2 → Nat :=
  let arg0 : BitVec 32 := BitVec.ofNat 32 (i 0).val
  let v880 : Index := Scalar.indexCast arg0
  let c11 : Index := 11#32
  ![v880.toNat, 11]
def k0_off178 (i : grid0.Coords) : Fin 2 → Nat :=
  let arg0 : BitVec 32 := BitVec.ofNat 32 (i 0).val
  let v885 : Index := Scalar.indexCast arg0
  let c11_503 : Index := 11#32
  ![v885.toNat, 11]
def k0_off179 (i : grid0.Coords) : Fin 2 → Nat :=
  let arg0 : BitVec 32 := BitVec.ofNat 32 (i 0).val
  let v890 : Index := Scalar.indexCast arg0
  let c11_506 : Index := 11#32
  ![v890.toNat, 11]
def k0_off180 (i : grid0.Coords) : Fin 2 → Nat :=
  let arg0 : BitVec 32 := BitVec.ofNat 32 (i 0).val
  let v895 : Index := Scalar.indexCast arg0
  let c11_509 : Index := 11#32
  ![v895.toNat, 11]
def k0_off181 (i : grid0.Coords) : Fin 2 → Nat :=
  let arg0 : BitVec 32 := BitVec.ofNat 32 (i 0).val
  let v900 : Index := Scalar.indexCast arg0
  let c11_512 : Index := 11#32
  ![v900.toNat, 11]
def k0_off182 (i : grid0.Coords) : Fin 2 → Nat :=
  let arg0 : BitVec 32 := BitVec.ofNat 32 (i 0).val
  let v905 : Index := Scalar.indexCast arg0
  let c11_515 : Index := 11#32
  ![v905.toNat, 11]
def k0_off183 (i : grid0.Coords) : Fin 2 → Nat :=
  let arg0 : BitVec 32 := BitVec.ofNat 32 (i 0).val
  let v910 : Index := Scalar.indexCast arg0
  let c11_518 : Index := 11#32
  ![v910.toNat, 11]
def k0_off184 (i : grid0.Coords) : Fin 2 → Nat :=
  let arg0 : BitVec 32 := BitVec.ofNat 32 (i 0).val
  let v915 : Index := Scalar.indexCast arg0
  let c11_521 : Index := 11#32
  ![v915.toNat, 11]
def k0_off185 (i : grid0.Coords) : Fin 2 → Nat :=
  let arg0 : BitVec 32 := BitVec.ofNat 32 (i 0).val
  let v920 : Index := Scalar.indexCast arg0
  let c11_524 : Index := 11#32
  ![v920.toNat, 11]
def k0_off186 (i : grid0.Coords) : Fin 2 → Nat :=
  let arg0 : BitVec 32 := BitVec.ofNat 32 (i 0).val
  let v925 : Index := Scalar.indexCast arg0
  let c11_527 : Index := 11#32
  ![v925.toNat, 11]
def k0_off187 (i : grid0.Coords) : Fin 2 → Nat :=
  let arg0 : BitVec 32 := BitVec.ofNat 32 (i 0).val
  let v930 : Index := Scalar.indexCast arg0
  let c11_530 : Index := 11#32
  ![v930.toNat, 11]
def k0_off188 (i : grid0.Coords) : Fin 2 → Nat :=
  let arg0 : BitVec 32 := BitVec.ofNat 32 (i 0).val
  let v935 : Index := Scalar.indexCast arg0
  let c11_533 : Index := 11#32
  ![v935.toNat, 11]
def k0_off189 (i : grid0.Coords) : Fin 2 → Nat :=
  let arg0 : BitVec 32 := BitVec.ofNat 32 (i 0).val
  let v940 : Index := Scalar.indexCast arg0
  let c11_536 : Index := 11#32
  ![v940.toNat, 11]
def k0_off190 (i : grid0.Coords) : Fin 2 → Nat :=
  let arg0 : BitVec 32 := BitVec.ofNat 32 (i 0).val
  let v945 : Index := Scalar.indexCast arg0
  let c11_539 : Index := 11#32
  ![v945.toNat, 11]
def k0_off191 (i : grid0.Coords) : Fin 2 → Nat :=
  let arg0 : BitVec 32 := BitVec.ofNat 32 (i 0).val
  let v950 : Index := Scalar.indexCast arg0
  let c11_542 : Index := 11#32
  ![v950.toNat, 11]
def k0_off192 (i : grid0.Coords) : Fin 2 → Nat :=
  let arg0 : BitVec 32 := BitVec.ofNat 32 (i 0).val
  let v955 : Index := Scalar.indexCast arg0
  let c11_545 : Index := 11#32
  ![v955.toNat, 11]
def k0_off193 (i : grid0.Coords) : Fin 2 → Nat :=
  let arg0 : BitVec 32 := BitVec.ofNat 32 (i 0).val
  let v960 : Index := Scalar.indexCast arg0
  let c12 : Index := 12#32
  ![v960.toNat, 12]
def k0_off194 (i : grid0.Coords) : Fin 2 → Nat :=
  let arg0 : BitVec 32 := BitVec.ofNat 32 (i 0).val
  let v965 : Index := Scalar.indexCast arg0
  let c12_550 : Index := 12#32
  ![v965.toNat, 12]
def k0_off195 (i : grid0.Coords) : Fin 2 → Nat :=
  let arg0 : BitVec 32 := BitVec.ofNat 32 (i 0).val
  let v970 : Index := Scalar.indexCast arg0
  let c12_553 : Index := 12#32
  ![v970.toNat, 12]
def k0_off196 (i : grid0.Coords) : Fin 2 → Nat :=
  let arg0 : BitVec 32 := BitVec.ofNat 32 (i 0).val
  let v975 : Index := Scalar.indexCast arg0
  let c12_556 : Index := 12#32
  ![v975.toNat, 12]
def k0_off197 (i : grid0.Coords) : Fin 2 → Nat :=
  let arg0 : BitVec 32 := BitVec.ofNat 32 (i 0).val
  let v980 : Index := Scalar.indexCast arg0
  let c12_559 : Index := 12#32
  ![v980.toNat, 12]
def k0_off198 (i : grid0.Coords) : Fin 2 → Nat :=
  let arg0 : BitVec 32 := BitVec.ofNat 32 (i 0).val
  let v985 : Index := Scalar.indexCast arg0
  let c12_562 : Index := 12#32
  ![v985.toNat, 12]
def k0_off199 (i : grid0.Coords) : Fin 2 → Nat :=
  let arg0 : BitVec 32 := BitVec.ofNat 32 (i 0).val
  let v990 : Index := Scalar.indexCast arg0
  let c12_565 : Index := 12#32
  ![v990.toNat, 12]
def k0_off200 (i : grid0.Coords) : Fin 2 → Nat :=
  let arg0 : BitVec 32 := BitVec.ofNat 32 (i 0).val
  let v995 : Index := Scalar.indexCast arg0
  let c12_568 : Index := 12#32
  ![v995.toNat, 12]
def k0_off201 (i : grid0.Coords) : Fin 2 → Nat :=
  let arg0 : BitVec 32 := BitVec.ofNat 32 (i 0).val
  let v1000 : Index := Scalar.indexCast arg0
  let c12_571 : Index := 12#32
  ![v1000.toNat, 12]
def k0_off202 (i : grid0.Coords) : Fin 2 → Nat :=
  let arg0 : BitVec 32 := BitVec.ofNat 32 (i 0).val
  let v1005 : Index := Scalar.indexCast arg0
  let c12_574 : Index := 12#32
  ![v1005.toNat, 12]
def k0_off203 (i : grid0.Coords) : Fin 2 → Nat :=
  let arg0 : BitVec 32 := BitVec.ofNat 32 (i 0).val
  let v1010 : Index := Scalar.indexCast arg0
  let c12_577 : Index := 12#32
  ![v1010.toNat, 12]
def k0_off204 (i : grid0.Coords) : Fin 2 → Nat :=
  let arg0 : BitVec 32 := BitVec.ofNat 32 (i 0).val
  let v1015 : Index := Scalar.indexCast arg0
  let c12_580 : Index := 12#32
  ![v1015.toNat, 12]
def k0_off205 (i : grid0.Coords) : Fin 2 → Nat :=
  let arg0 : BitVec 32 := BitVec.ofNat 32 (i 0).val
  let v1020 : Index := Scalar.indexCast arg0
  let c12_583 : Index := 12#32
  ![v1020.toNat, 12]
def k0_off206 (i : grid0.Coords) : Fin 2 → Nat :=
  let arg0 : BitVec 32 := BitVec.ofNat 32 (i 0).val
  let v1025 : Index := Scalar.indexCast arg0
  let c12_586 : Index := 12#32
  ![v1025.toNat, 12]
def k0_off207 (i : grid0.Coords) : Fin 2 → Nat :=
  let arg0 : BitVec 32 := BitVec.ofNat 32 (i 0).val
  let v1030 : Index := Scalar.indexCast arg0
  let c12_589 : Index := 12#32
  ![v1030.toNat, 12]
def k0_off208 (i : grid0.Coords) : Fin 2 → Nat :=
  let arg0 : BitVec 32 := BitVec.ofNat 32 (i 0).val
  let v1035 : Index := Scalar.indexCast arg0
  let c12_592 : Index := 12#32
  ![v1035.toNat, 12]
def k0_off209 (i : grid0.Coords) : Fin 2 → Nat :=
  let arg0 : BitVec 32 := BitVec.ofNat 32 (i 0).val
  let v1040 : Index := Scalar.indexCast arg0
  let c13 : Index := 13#32
  ![v1040.toNat, 13]
def k0_off210 (i : grid0.Coords) : Fin 2 → Nat :=
  let arg0 : BitVec 32 := BitVec.ofNat 32 (i 0).val
  let v1045 : Index := Scalar.indexCast arg0
  let c13_597 : Index := 13#32
  ![v1045.toNat, 13]
def k0_off211 (i : grid0.Coords) : Fin 2 → Nat :=
  let arg0 : BitVec 32 := BitVec.ofNat 32 (i 0).val
  let v1050 : Index := Scalar.indexCast arg0
  let c13_600 : Index := 13#32
  ![v1050.toNat, 13]
def k0_off212 (i : grid0.Coords) : Fin 2 → Nat :=
  let arg0 : BitVec 32 := BitVec.ofNat 32 (i 0).val
  let v1055 : Index := Scalar.indexCast arg0
  let c13_603 : Index := 13#32
  ![v1055.toNat, 13]
def k0_off213 (i : grid0.Coords) : Fin 2 → Nat :=
  let arg0 : BitVec 32 := BitVec.ofNat 32 (i 0).val
  let v1060 : Index := Scalar.indexCast arg0
  let c13_606 : Index := 13#32
  ![v1060.toNat, 13]
def k0_off214 (i : grid0.Coords) : Fin 2 → Nat :=
  let arg0 : BitVec 32 := BitVec.ofNat 32 (i 0).val
  let v1065 : Index := Scalar.indexCast arg0
  let c13_609 : Index := 13#32
  ![v1065.toNat, 13]
def k0_off215 (i : grid0.Coords) : Fin 2 → Nat :=
  let arg0 : BitVec 32 := BitVec.ofNat 32 (i 0).val
  let v1070 : Index := Scalar.indexCast arg0
  let c13_612 : Index := 13#32
  ![v1070.toNat, 13]
def k0_off216 (i : grid0.Coords) : Fin 2 → Nat :=
  let arg0 : BitVec 32 := BitVec.ofNat 32 (i 0).val
  let v1075 : Index := Scalar.indexCast arg0
  let c13_615 : Index := 13#32
  ![v1075.toNat, 13]
def k0_off217 (i : grid0.Coords) : Fin 2 → Nat :=
  let arg0 : BitVec 32 := BitVec.ofNat 32 (i 0).val
  let v1080 : Index := Scalar.indexCast arg0
  let c13_618 : Index := 13#32
  ![v1080.toNat, 13]
def k0_off218 (i : grid0.Coords) : Fin 2 → Nat :=
  let arg0 : BitVec 32 := BitVec.ofNat 32 (i 0).val
  let v1085 : Index := Scalar.indexCast arg0
  let c13_621 : Index := 13#32
  ![v1085.toNat, 13]
def k0_off219 (i : grid0.Coords) : Fin 2 → Nat :=
  let arg0 : BitVec 32 := BitVec.ofNat 32 (i 0).val
  let v1090 : Index := Scalar.indexCast arg0
  let c13_624 : Index := 13#32
  ![v1090.toNat, 13]
def k0_off220 (i : grid0.Coords) : Fin 2 → Nat :=
  let arg0 : BitVec 32 := BitVec.ofNat 32 (i 0).val
  let v1095 : Index := Scalar.indexCast arg0
  let c13_627 : Index := 13#32
  ![v1095.toNat, 13]
def k0_off221 (i : grid0.Coords) : Fin 2 → Nat :=
  let arg0 : BitVec 32 := BitVec.ofNat 32 (i 0).val
  let v1100 : Index := Scalar.indexCast arg0
  let c13_630 : Index := 13#32
  ![v1100.toNat, 13]
def k0_off222 (i : grid0.Coords) : Fin 2 → Nat :=
  let arg0 : BitVec 32 := BitVec.ofNat 32 (i 0).val
  let v1105 : Index := Scalar.indexCast arg0
  let c13_633 : Index := 13#32
  ![v1105.toNat, 13]
def k0_off223 (i : grid0.Coords) : Fin 2 → Nat :=
  let arg0 : BitVec 32 := BitVec.ofNat 32 (i 0).val
  let v1110 : Index := Scalar.indexCast arg0
  let c13_636 : Index := 13#32
  ![v1110.toNat, 13]
def k0_off224 (i : grid0.Coords) : Fin 2 → Nat :=
  let arg0 : BitVec 32 := BitVec.ofNat 32 (i 0).val
  let v1115 : Index := Scalar.indexCast arg0
  let c13_639 : Index := 13#32
  ![v1115.toNat, 13]
def k0_off225 (i : grid0.Coords) : Fin 2 → Nat :=
  let arg0 : BitVec 32 := BitVec.ofNat 32 (i 0).val
  let v1120 : Index := Scalar.indexCast arg0
  let c14 : Index := 14#32
  ![v1120.toNat, 14]
def k0_off226 (i : grid0.Coords) : Fin 2 → Nat :=
  let arg0 : BitVec 32 := BitVec.ofNat 32 (i 0).val
  let v1125 : Index := Scalar.indexCast arg0
  let c14_644 : Index := 14#32
  ![v1125.toNat, 14]
def k0_off227 (i : grid0.Coords) : Fin 2 → Nat :=
  let arg0 : BitVec 32 := BitVec.ofNat 32 (i 0).val
  let v1130 : Index := Scalar.indexCast arg0
  let c14_647 : Index := 14#32
  ![v1130.toNat, 14]
def k0_off228 (i : grid0.Coords) : Fin 2 → Nat :=
  let arg0 : BitVec 32 := BitVec.ofNat 32 (i 0).val
  let v1135 : Index := Scalar.indexCast arg0
  let c14_650 : Index := 14#32
  ![v1135.toNat, 14]
def k0_off229 (i : grid0.Coords) : Fin 2 → Nat :=
  let arg0 : BitVec 32 := BitVec.ofNat 32 (i 0).val
  let v1140 : Index := Scalar.indexCast arg0
  let c14_653 : Index := 14#32
  ![v1140.toNat, 14]
def k0_off230 (i : grid0.Coords) : Fin 2 → Nat :=
  let arg0 : BitVec 32 := BitVec.ofNat 32 (i 0).val
  let v1145 : Index := Scalar.indexCast arg0
  let c14_656 : Index := 14#32
  ![v1145.toNat, 14]
def k0_off231 (i : grid0.Coords) : Fin 2 → Nat :=
  let arg0 : BitVec 32 := BitVec.ofNat 32 (i 0).val
  let v1150 : Index := Scalar.indexCast arg0
  let c14_659 : Index := 14#32
  ![v1150.toNat, 14]
def k0_off232 (i : grid0.Coords) : Fin 2 → Nat :=
  let arg0 : BitVec 32 := BitVec.ofNat 32 (i 0).val
  let v1155 : Index := Scalar.indexCast arg0
  let c14_662 : Index := 14#32
  ![v1155.toNat, 14]
def k0_off233 (i : grid0.Coords) : Fin 2 → Nat :=
  let arg0 : BitVec 32 := BitVec.ofNat 32 (i 0).val
  let v1160 : Index := Scalar.indexCast arg0
  let c14_665 : Index := 14#32
  ![v1160.toNat, 14]
def k0_off234 (i : grid0.Coords) : Fin 2 → Nat :=
  let arg0 : BitVec 32 := BitVec.ofNat 32 (i 0).val
  let v1165 : Index := Scalar.indexCast arg0
  let c14_668 : Index := 14#32
  ![v1165.toNat, 14]
def k0_off235 (i : grid0.Coords) : Fin 2 → Nat :=
  let arg0 : BitVec 32 := BitVec.ofNat 32 (i 0).val
  let v1170 : Index := Scalar.indexCast arg0
  let c14_671 : Index := 14#32
  ![v1170.toNat, 14]
def k0_off236 (i : grid0.Coords) : Fin 2 → Nat :=
  let arg0 : BitVec 32 := BitVec.ofNat 32 (i 0).val
  let v1175 : Index := Scalar.indexCast arg0
  let c14_674 : Index := 14#32
  ![v1175.toNat, 14]
def k0_off237 (i : grid0.Coords) : Fin 2 → Nat :=
  let arg0 : BitVec 32 := BitVec.ofNat 32 (i 0).val
  let v1180 : Index := Scalar.indexCast arg0
  let c14_677 : Index := 14#32
  ![v1180.toNat, 14]
def k0_off238 (i : grid0.Coords) : Fin 2 → Nat :=
  let arg0 : BitVec 32 := BitVec.ofNat 32 (i 0).val
  let v1185 : Index := Scalar.indexCast arg0
  let c14_680 : Index := 14#32
  ![v1185.toNat, 14]
def k0_off239 (i : grid0.Coords) : Fin 2 → Nat :=
  let arg0 : BitVec 32 := BitVec.ofNat 32 (i 0).val
  let v1190 : Index := Scalar.indexCast arg0
  let c14_683 : Index := 14#32
  ![v1190.toNat, 14]
def k0_off240 (i : grid0.Coords) : Fin 2 → Nat :=
  let arg0 : BitVec 32 := BitVec.ofNat 32 (i 0).val
  let v1195 : Index := Scalar.indexCast arg0
  let c14_686 : Index := 14#32
  ![v1195.toNat, 14]
def k0_off241 (i : grid0.Coords) : Fin 2 → Nat :=
  let arg0 : BitVec 32 := BitVec.ofNat 32 (i 0).val
  let v1200 : Index := Scalar.indexCast arg0
  let c15 : Index := 15#32
  ![v1200.toNat, 15]
def k0_off242 (i : grid0.Coords) : Fin 2 → Nat :=
  let arg0 : BitVec 32 := BitVec.ofNat 32 (i 0).val
  let v1205 : Index := Scalar.indexCast arg0
  let c15_691 : Index := 15#32
  ![v1205.toNat, 15]
def k0_off243 (i : grid0.Coords) : Fin 2 → Nat :=
  let arg0 : BitVec 32 := BitVec.ofNat 32 (i 0).val
  let v1210 : Index := Scalar.indexCast arg0
  let c15_694 : Index := 15#32
  ![v1210.toNat, 15]
def k0_off244 (i : grid0.Coords) : Fin 2 → Nat :=
  let arg0 : BitVec 32 := BitVec.ofNat 32 (i 0).val
  let v1215 : Index := Scalar.indexCast arg0
  let c15_697 : Index := 15#32
  ![v1215.toNat, 15]
def k0_off245 (i : grid0.Coords) : Fin 2 → Nat :=
  let arg0 : BitVec 32 := BitVec.ofNat 32 (i 0).val
  let v1220 : Index := Scalar.indexCast arg0
  let c15_700 : Index := 15#32
  ![v1220.toNat, 15]
def k0_off246 (i : grid0.Coords) : Fin 2 → Nat :=
  let arg0 : BitVec 32 := BitVec.ofNat 32 (i 0).val
  let v1225 : Index := Scalar.indexCast arg0
  let c15_703 : Index := 15#32
  ![v1225.toNat, 15]
def k0_off247 (i : grid0.Coords) : Fin 2 → Nat :=
  let arg0 : BitVec 32 := BitVec.ofNat 32 (i 0).val
  let v1230 : Index := Scalar.indexCast arg0
  let c15_706 : Index := 15#32
  ![v1230.toNat, 15]
def k0_off248 (i : grid0.Coords) : Fin 2 → Nat :=
  let arg0 : BitVec 32 := BitVec.ofNat 32 (i 0).val
  let v1235 : Index := Scalar.indexCast arg0
  let c15_709 : Index := 15#32
  ![v1235.toNat, 15]
def k0_off249 (i : grid0.Coords) : Fin 2 → Nat :=
  let arg0 : BitVec 32 := BitVec.ofNat 32 (i 0).val
  let v1240 : Index := Scalar.indexCast arg0
  let c15_712 : Index := 15#32
  ![v1240.toNat, 15]
def k0_off250 (i : grid0.Coords) : Fin 2 → Nat :=
  let arg0 : BitVec 32 := BitVec.ofNat 32 (i 0).val
  let v1245 : Index := Scalar.indexCast arg0
  let c15_715 : Index := 15#32
  ![v1245.toNat, 15]
def k0_off251 (i : grid0.Coords) : Fin 2 → Nat :=
  let arg0 : BitVec 32 := BitVec.ofNat 32 (i 0).val
  let v1250 : Index := Scalar.indexCast arg0
  let c15_718 : Index := 15#32
  ![v1250.toNat, 15]
def k0_off252 (i : grid0.Coords) : Fin 2 → Nat :=
  let arg0 : BitVec 32 := BitVec.ofNat 32 (i 0).val
  let v1255 : Index := Scalar.indexCast arg0
  let c15_721 : Index := 15#32
  ![v1255.toNat, 15]
def k0_off253 (i : grid0.Coords) : Fin 2 → Nat :=
  let arg0 : BitVec 32 := BitVec.ofNat 32 (i 0).val
  let v1260 : Index := Scalar.indexCast arg0
  let c15_724 : Index := 15#32
  ![v1260.toNat, 15]
def k0_off254 (i : grid0.Coords) : Fin 2 → Nat :=
  let arg0 : BitVec 32 := BitVec.ofNat 32 (i 0).val
  let v1265 : Index := Scalar.indexCast arg0
  let c15_727 : Index := 15#32
  ![v1265.toNat, 15]
def k0_off255 (i : grid0.Coords) : Fin 2 → Nat :=
  let arg0 : BitVec 32 := BitVec.ofNat 32 (i 0).val
  let v1270 : Index := Scalar.indexCast arg0
  let c15_730 : Index := 15#32
  ![v1270.toNat, 15]
def k0_off256 (i : grid0.Coords) : Fin 2 → Nat :=
  let arg0 : BitVec 32 := BitVec.ofNat 32 (i 0).val
  let v1275 : Index := Scalar.indexCast arg0
  let c15_733 : Index := 15#32
  ![v1275.toNat, 15]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c1_i32 : BitVec 32 := 1#32
  let v7 : BitVec 1 := Scalar.cmpi .eq v6 c1_i32
  let v8 : BitVec 32 := Scalar.extui v7
  let c0_i32_2 : BitVec 32 := 0#32
  let v9 : BitVec 1 := Scalar.cmpi .ne v8 c0_i32_2
  v9

def k0_cond3 (v11 : BitVec 32) : BitVec 1 :=
  let c2_i32 : BitVec 32 := 2#32
  let v12 : BitVec 1 := Scalar.cmpi .eq v11 c2_i32
  let v13 : BitVec 32 := Scalar.extui v12
  let c0_i32_4 : BitVec 32 := 0#32
  let v14 : BitVec 1 := Scalar.cmpi .ne v13 c0_i32_4
  v14

def k0_cond4 (v16 : BitVec 32) : BitVec 1 :=
  let c3_i32 : BitVec 32 := 3#32
  let v17 : BitVec 1 := Scalar.cmpi .eq v16 c3_i32
  let v18 : BitVec 32 := Scalar.extui v17
  let c0_i32_6 : BitVec 32 := 0#32
  let v19 : BitVec 1 := Scalar.cmpi .ne v18 c0_i32_6
  v19

def k0_cond5 (v21 : BitVec 32) : BitVec 1 :=
  let c4_i32 : BitVec 32 := 4#32
  let v22 : BitVec 1 := Scalar.cmpi .eq v21 c4_i32
  let v23 : BitVec 32 := Scalar.extui v22
  let c0_i32_8 : BitVec 32 := 0#32
  let v24 : BitVec 1 := Scalar.cmpi .ne v23 c0_i32_8
  v24

def k0_cond6 (v26 : BitVec 32) : BitVec 1 :=
  let c5_i32 : BitVec 32 := 5#32
  let v27 : BitVec 1 := Scalar.cmpi .eq v26 c5_i32
  let v28 : BitVec 32 := Scalar.extui v27
  let c0_i32_10 : BitVec 32 := 0#32
  let v29 : BitVec 1 := Scalar.cmpi .ne v28 c0_i32_10
  v29

def k0_cond7 (v31 : BitVec 32) : BitVec 1 :=
  let c6_i32 : BitVec 32 := 6#32
  let v32 : BitVec 1 := Scalar.cmpi .eq v31 c6_i32
  let v33 : BitVec 32 := Scalar.extui v32
  let c0_i32_12 : BitVec 32 := 0#32
  let v34 : BitVec 1 := Scalar.cmpi .ne v33 c0_i32_12
  v34

def k0_cond8 (v36 : BitVec 32) : BitVec 1 :=
  let c7_i32 : BitVec 32 := 7#32
  let v37 : BitVec 1 := Scalar.cmpi .eq v36 c7_i32
  let v38 : BitVec 32 := Scalar.extui v37
  let c0_i32_14 : BitVec 32 := 0#32
  let v39 : BitVec 1 := Scalar.cmpi .ne v38 c0_i32_14
  v39

def k0_cond9 (v41 : BitVec 32) : BitVec 1 :=
  let c8_i32 : BitVec 32 := 8#32
  let v42 : BitVec 1 := Scalar.cmpi .eq v41 c8_i32
  let v43 : BitVec 32 := Scalar.extui v42
  let c0_i32_16 : BitVec 32 := 0#32
  let v44 : BitVec 1 := Scalar.cmpi .ne v43 c0_i32_16
  v44

def k0_cond10 (v46 : BitVec 32) : BitVec 1 :=
  let c9_i32 : BitVec 32 := 9#32
  let v47 : BitVec 1 := Scalar.cmpi .eq v46 c9_i32
  let v48 : BitVec 32 := Scalar.extui v47
  let c0_i32_18 : BitVec 32 := 0#32
  let v49 : BitVec 1 := Scalar.cmpi .ne v48 c0_i32_18
  v49

def k0_cond11 (v51 : BitVec 32) : BitVec 1 :=
  let c10_i32 : BitVec 32 := 10#32
  let v52 : BitVec 1 := Scalar.cmpi .eq v51 c10_i32
  let v53 : BitVec 32 := Scalar.extui v52
  let c0_i32_20 : BitVec 32 := 0#32
  let v54 : BitVec 1 := Scalar.cmpi .ne v53 c0_i32_20
  v54

def k0_cond12 (v56 : BitVec 32) : BitVec 1 :=
  let c11_i32 : BitVec 32 := 11#32
  let v57 : BitVec 1 := Scalar.cmpi .eq v56 c11_i32
  let v58 : BitVec 32 := Scalar.extui v57
  let c0_i32_22 : BitVec 32 := 0#32
  let v59 : BitVec 1 := Scalar.cmpi .ne v58 c0_i32_22
  v59

def k0_cond13 (v61 : BitVec 32) : BitVec 1 :=
  let c12_i32 : BitVec 32 := 12#32
  let v62 : BitVec 1 := Scalar.cmpi .eq v61 c12_i32
  let v63 : BitVec 32 := Scalar.extui v62
  let c0_i32_24 : BitVec 32 := 0#32
  let v64 : BitVec 1 := Scalar.cmpi .ne v63 c0_i32_24
  v64

def k0_cond14 (v66 : BitVec 32) : BitVec 1 :=
  let c13_i32 : BitVec 32 := 13#32
  let v67 : BitVec 1 := Scalar.cmpi .eq v66 c13_i32
  let v68 : BitVec 32 := Scalar.extui v67
  let c0_i32_26 : BitVec 32 := 0#32
  let v69 : BitVec 1 := Scalar.cmpi .ne v68 c0_i32_26
  v69

def k0_cond15 (v71 : BitVec 32) : BitVec 1 :=
  let c14_i32 : BitVec 32 := 14#32
  let v72 : BitVec 1 := Scalar.cmpi .eq v71 c14_i32
  let v73 : BitVec 32 := Scalar.extui v72
  let c0_i32_28 : BitVec 32 := 0#32
  let v74 : BitVec 1 := Scalar.cmpi .ne v73 c0_i32_28
  v74

def k0_cond16 (v76 : BitVec 32) : BitVec 1 :=
  let c15_i32 : BitVec 32 := 15#32
  let v77 : BitVec 1 := Scalar.cmpi .eq v76 c15_i32
  let v78 : BitVec 32 := Scalar.extui v77
  let c0_i32_30 : BitVec 32 := 0#32
  let v79 : BitVec 1 := Scalar.cmpi .ne v78 c0_i32_30
  v79

def k0_cond17 (v81 : BitVec 32) : BitVec 1 :=
  let c0_i32_31 : BitVec 32 := 0#32
  let v82 : BitVec 1 := Scalar.cmpi .eq v81 c0_i32_31
  let v83 : BitVec 32 := Scalar.extui v82
  let c0_i32_32 : BitVec 32 := 0#32
  let v84 : BitVec 1 := Scalar.cmpi .ne v83 c0_i32_32
  v84

def k0_cond18 (v86 : BitVec 32) : BitVec 1 :=
  let c1_i32_34 : BitVec 32 := 1#32
  let v87 : BitVec 1 := Scalar.cmpi .eq v86 c1_i32_34
  let v88 : BitVec 32 := Scalar.extui v87
  let c0_i32_35 : BitVec 32 := 0#32
  let v89 : BitVec 1 := Scalar.cmpi .ne v88 c0_i32_35
  v89

def k0_cond19 (v91 : BitVec 32) : BitVec 1 :=
  let c2_i32_37 : BitVec 32 := 2#32
  let v92 : BitVec 1 := Scalar.cmpi .eq v91 c2_i32_37
  let v93 : BitVec 32 := Scalar.extui v92
  let c0_i32_38 : BitVec 32 := 0#32
  let v94 : BitVec 1 := Scalar.cmpi .ne v93 c0_i32_38
  v94

def k0_cond20 (v96 : BitVec 32) : BitVec 1 :=
  let c3_i32_40 : BitVec 32 := 3#32
  let v97 : BitVec 1 := Scalar.cmpi .eq v96 c3_i32_40
  let v98 : BitVec 32 := Scalar.extui v97
  let c0_i32_41 : BitVec 32 := 0#32
  let v99 : BitVec 1 := Scalar.cmpi .ne v98 c0_i32_41
  v99

def k0_cond21 (v101 : BitVec 32) : BitVec 1 :=
  let c4_i32_43 : BitVec 32 := 4#32
  let v102 : BitVec 1 := Scalar.cmpi .eq v101 c4_i32_43
  let v103 : BitVec 32 := Scalar.extui v102
  let c0_i32_44 : BitVec 32 := 0#32
  let v104 : BitVec 1 := Scalar.cmpi .ne v103 c0_i32_44
  v104

def k0_cond22 (v106 : BitVec 32) : BitVec 1 :=
  let c5_i32_46 : BitVec 32 := 5#32
  let v107 : BitVec 1 := Scalar.cmpi .eq v106 c5_i32_46
  let v108 : BitVec 32 := Scalar.extui v107
  let c0_i32_47 : BitVec 32 := 0#32
  let v109 : BitVec 1 := Scalar.cmpi .ne v108 c0_i32_47
  v109

def k0_cond23 (v111 : BitVec 32) : BitVec 1 :=
  let c6_i32_49 : BitVec 32 := 6#32
  let v112 : BitVec 1 := Scalar.cmpi .eq v111 c6_i32_49
  let v113 : BitVec 32 := Scalar.extui v112
  let c0_i32_50 : BitVec 32 := 0#32
  let v114 : BitVec 1 := Scalar.cmpi .ne v113 c0_i32_50
  v114

def k0_cond24 (v116 : BitVec 32) : BitVec 1 :=
  let c7_i32_52 : BitVec 32 := 7#32
  let v117 : BitVec 1 := Scalar.cmpi .eq v116 c7_i32_52
  let v118 : BitVec 32 := Scalar.extui v117
  let c0_i32_53 : BitVec 32 := 0#32
  let v119 : BitVec 1 := Scalar.cmpi .ne v118 c0_i32_53
  v119

def k0_cond25 (v121 : BitVec 32) : BitVec 1 :=
  let c8_i32_55 : BitVec 32 := 8#32
  let v122 : BitVec 1 := Scalar.cmpi .eq v121 c8_i32_55
  let v123 : BitVec 32 := Scalar.extui v122
  let c0_i32_56 : BitVec 32 := 0#32
  let v124 : BitVec 1 := Scalar.cmpi .ne v123 c0_i32_56
  v124

def k0_cond26 (v126 : BitVec 32) : BitVec 1 :=
  let c9_i32_58 : BitVec 32 := 9#32
  let v127 : BitVec 1 := Scalar.cmpi .eq v126 c9_i32_58
  let v128 : BitVec 32 := Scalar.extui v127
  let c0_i32_59 : BitVec 32 := 0#32
  let v129 : BitVec 1 := Scalar.cmpi .ne v128 c0_i32_59
  v129

def k0_cond27 (v131 : BitVec 32) : BitVec 1 :=
  let c10_i32_61 : BitVec 32 := 10#32
  let v132 : BitVec 1 := Scalar.cmpi .eq v131 c10_i32_61
  let v133 : BitVec 32 := Scalar.extui v132
  let c0_i32_62 : BitVec 32 := 0#32
  let v134 : BitVec 1 := Scalar.cmpi .ne v133 c0_i32_62
  v134

def k0_cond28 (v136 : BitVec 32) : BitVec 1 :=
  let c11_i32_64 : BitVec 32 := 11#32
  let v137 : BitVec 1 := Scalar.cmpi .eq v136 c11_i32_64
  let v138 : BitVec 32 := Scalar.extui v137
  let c0_i32_65 : BitVec 32 := 0#32
  let v139 : BitVec 1 := Scalar.cmpi .ne v138 c0_i32_65
  v139

def k0_cond29 (v141 : BitVec 32) : BitVec 1 :=
  let c12_i32_67 : BitVec 32 := 12#32
  let v142 : BitVec 1 := Scalar.cmpi .eq v141 c12_i32_67
  let v143 : BitVec 32 := Scalar.extui v142
  let c0_i32_68 : BitVec 32 := 0#32
  let v144 : BitVec 1 := Scalar.cmpi .ne v143 c0_i32_68
  v144

def k0_cond30 (v146 : BitVec 32) : BitVec 1 :=
  let c13_i32_70 : BitVec 32 := 13#32
  let v147 : BitVec 1 := Scalar.cmpi .eq v146 c13_i32_70
  let v148 : BitVec 32 := Scalar.extui v147
  let c0_i32_71 : BitVec 32 := 0#32
  let v149 : BitVec 1 := Scalar.cmpi .ne v148 c0_i32_71
  v149

def k0_cond31 (v151 : BitVec 32) : BitVec 1 :=
  let c14_i32_73 : BitVec 32 := 14#32
  let v152 : BitVec 1 := Scalar.cmpi .eq v151 c14_i32_73
  let v153 : BitVec 32 := Scalar.extui v152
  let c0_i32_74 : BitVec 32 := 0#32
  let v154 : BitVec 1 := Scalar.cmpi .ne v153 c0_i32_74
  v154

def k0_cond32 (v156 : BitVec 32) : BitVec 1 :=
  let c15_i32_76 : BitVec 32 := 15#32
  let v157 : BitVec 1 := Scalar.cmpi .eq v156 c15_i32_76
  let v158 : BitVec 32 := Scalar.extui v157
  let c0_i32_77 : BitVec 32 := 0#32
  let v159 : BitVec 1 := Scalar.cmpi .ne v158 c0_i32_77
  v159

def k0_cond33 (v161 : BitVec 32) : BitVec 1 :=
  let c0_i32_78 : BitVec 32 := 0#32
  let v162 : BitVec 1 := Scalar.cmpi .eq v161 c0_i32_78
  let v163 : BitVec 32 := Scalar.extui v162
  let c0_i32_79 : BitVec 32 := 0#32
  let v164 : BitVec 1 := Scalar.cmpi .ne v163 c0_i32_79
  v164

def k0_cond34 (v166 : BitVec 32) : BitVec 1 :=
  let c1_i32_81 : BitVec 32 := 1#32
  let v167 : BitVec 1 := Scalar.cmpi .eq v166 c1_i32_81
  let v168 : BitVec 32 := Scalar.extui v167
  let c0_i32_82 : BitVec 32 := 0#32
  let v169 : BitVec 1 := Scalar.cmpi .ne v168 c0_i32_82
  v169

def k0_cond35 (v171 : BitVec 32) : BitVec 1 :=
  let c2_i32_84 : BitVec 32 := 2#32
  let v172 : BitVec 1 := Scalar.cmpi .eq v171 c2_i32_84
  let v173 : BitVec 32 := Scalar.extui v172
  let c0_i32_85 : BitVec 32 := 0#32
  let v174 : BitVec 1 := Scalar.cmpi .ne v173 c0_i32_85
  v174

def k0_cond36 (v176 : BitVec 32) : BitVec 1 :=
  let c3_i32_87 : BitVec 32 := 3#32
  let v177 : BitVec 1 := Scalar.cmpi .eq v176 c3_i32_87
  let v178 : BitVec 32 := Scalar.extui v177
  let c0_i32_88 : BitVec 32 := 0#32
  let v179 : BitVec 1 := Scalar.cmpi .ne v178 c0_i32_88
  v179

def k0_cond37 (v181 : BitVec 32) : BitVec 1 :=
  let c4_i32_90 : BitVec 32 := 4#32
  let v182 : BitVec 1 := Scalar.cmpi .eq v181 c4_i32_90
  let v183 : BitVec 32 := Scalar.extui v182
  let c0_i32_91 : BitVec 32 := 0#32
  let v184 : BitVec 1 := Scalar.cmpi .ne v183 c0_i32_91
  v184

def k0_cond38 (v186 : BitVec 32) : BitVec 1 :=
  let c5_i32_93 : BitVec 32 := 5#32
  let v187 : BitVec 1 := Scalar.cmpi .eq v186 c5_i32_93
  let v188 : BitVec 32 := Scalar.extui v187
  let c0_i32_94 : BitVec 32 := 0#32
  let v189 : BitVec 1 := Scalar.cmpi .ne v188 c0_i32_94
  v189

def k0_cond39 (v191 : BitVec 32) : BitVec 1 :=
  let c6_i32_96 : BitVec 32 := 6#32
  let v192 : BitVec 1 := Scalar.cmpi .eq v191 c6_i32_96
  let v193 : BitVec 32 := Scalar.extui v192
  let c0_i32_97 : BitVec 32 := 0#32
  let v194 : BitVec 1 := Scalar.cmpi .ne v193 c0_i32_97
  v194

def k0_cond40 (v196 : BitVec 32) : BitVec 1 :=
  let c7_i32_99 : BitVec 32 := 7#32
  let v197 : BitVec 1 := Scalar.cmpi .eq v196 c7_i32_99
  let v198 : BitVec 32 := Scalar.extui v197
  let c0_i32_100 : BitVec 32 := 0#32
  let v199 : BitVec 1 := Scalar.cmpi .ne v198 c0_i32_100
  v199

def k0_cond41 (v201 : BitVec 32) : BitVec 1 :=
  let c8_i32_102 : BitVec 32 := 8#32
  let v202 : BitVec 1 := Scalar.cmpi .eq v201 c8_i32_102
  let v203 : BitVec 32 := Scalar.extui v202
  let c0_i32_103 : BitVec 32 := 0#32
  let v204 : BitVec 1 := Scalar.cmpi .ne v203 c0_i32_103
  v204

def k0_cond42 (v206 : BitVec 32) : BitVec 1 :=
  let c9_i32_105 : BitVec 32 := 9#32
  let v207 : BitVec 1 := Scalar.cmpi .eq v206 c9_i32_105
  let v208 : BitVec 32 := Scalar.extui v207
  let c0_i32_106 : BitVec 32 := 0#32
  let v209 : BitVec 1 := Scalar.cmpi .ne v208 c0_i32_106
  v209

def k0_cond43 (v211 : BitVec 32) : BitVec 1 :=
  let c10_i32_108 : BitVec 32 := 10#32
  let v212 : BitVec 1 := Scalar.cmpi .eq v211 c10_i32_108
  let v213 : BitVec 32 := Scalar.extui v212
  let c0_i32_109 : BitVec 32 := 0#32
  let v214 : BitVec 1 := Scalar.cmpi .ne v213 c0_i32_109
  v214

def k0_cond44 (v216 : BitVec 32) : BitVec 1 :=
  let c11_i32_111 : BitVec 32 := 11#32
  let v217 : BitVec 1 := Scalar.cmpi .eq v216 c11_i32_111
  let v218 : BitVec 32 := Scalar.extui v217
  let c0_i32_112 : BitVec 32 := 0#32
  let v219 : BitVec 1 := Scalar.cmpi .ne v218 c0_i32_112
  v219

def k0_cond45 (v221 : BitVec 32) : BitVec 1 :=
  let c12_i32_114 : BitVec 32 := 12#32
  let v222 : BitVec 1 := Scalar.cmpi .eq v221 c12_i32_114
  let v223 : BitVec 32 := Scalar.extui v222
  let c0_i32_115 : BitVec 32 := 0#32
  let v224 : BitVec 1 := Scalar.cmpi .ne v223 c0_i32_115
  v224

def k0_cond46 (v226 : BitVec 32) : BitVec 1 :=
  let c13_i32_117 : BitVec 32 := 13#32
  let v227 : BitVec 1 := Scalar.cmpi .eq v226 c13_i32_117
  let v228 : BitVec 32 := Scalar.extui v227
  let c0_i32_118 : BitVec 32 := 0#32
  let v229 : BitVec 1 := Scalar.cmpi .ne v228 c0_i32_118
  v229

def k0_cond47 (v231 : BitVec 32) : BitVec 1 :=
  let c14_i32_120 : BitVec 32 := 14#32
  let v232 : BitVec 1 := Scalar.cmpi .eq v231 c14_i32_120
  let v233 : BitVec 32 := Scalar.extui v232
  let c0_i32_121 : BitVec 32 := 0#32
  let v234 : BitVec 1 := Scalar.cmpi .ne v233 c0_i32_121
  v234

def k0_cond48 (v236 : BitVec 32) : BitVec 1 :=
  let c15_i32_123 : BitVec 32 := 15#32
  let v237 : BitVec 1 := Scalar.cmpi .eq v236 c15_i32_123
  let v238 : BitVec 32 := Scalar.extui v237
  let c0_i32_124 : BitVec 32 := 0#32
  let v239 : BitVec 1 := Scalar.cmpi .ne v238 c0_i32_124
  v239

def k0_cond49 (v241 : BitVec 32) : BitVec 1 :=
  let c0_i32_125 : BitVec 32 := 0#32
  let v242 : BitVec 1 := Scalar.cmpi .eq v241 c0_i32_125
  let v243 : BitVec 32 := Scalar.extui v242
  let c0_i32_126 : BitVec 32 := 0#32
  let v244 : BitVec 1 := Scalar.cmpi .ne v243 c0_i32_126
  v244

def k0_cond50 (v246 : BitVec 32) : BitVec 1 :=
  let c1_i32_128 : BitVec 32 := 1#32
  let v247 : BitVec 1 := Scalar.cmpi .eq v246 c1_i32_128
  let v248 : BitVec 32 := Scalar.extui v247
  let c0_i32_129 : BitVec 32 := 0#32
  let v249 : BitVec 1 := Scalar.cmpi .ne v248 c0_i32_129
  v249

def k0_cond51 (v251 : BitVec 32) : BitVec 1 :=
  let c2_i32_131 : BitVec 32 := 2#32
  let v252 : BitVec 1 := Scalar.cmpi .eq v251 c2_i32_131
  let v253 : BitVec 32 := Scalar.extui v252
  let c0_i32_132 : BitVec 32 := 0#32
  let v254 : BitVec 1 := Scalar.cmpi .ne v253 c0_i32_132
  v254

def k0_cond52 (v256 : BitVec 32) : BitVec 1 :=
  let c3_i32_134 : BitVec 32 := 3#32
  let v257 : BitVec 1 := Scalar.cmpi .eq v256 c3_i32_134
  let v258 : BitVec 32 := Scalar.extui v257
  let c0_i32_135 : BitVec 32 := 0#32
  let v259 : BitVec 1 := Scalar.cmpi .ne v258 c0_i32_135
  v259

def k0_cond53 (v261 : BitVec 32) : BitVec 1 :=
  let c4_i32_137 : BitVec 32 := 4#32
  let v262 : BitVec 1 := Scalar.cmpi .eq v261 c4_i32_137
  let v263 : BitVec 32 := Scalar.extui v262
  let c0_i32_138 : BitVec 32 := 0#32
  let v264 : BitVec 1 := Scalar.cmpi .ne v263 c0_i32_138
  v264

def k0_cond54 (v266 : BitVec 32) : BitVec 1 :=
  let c5_i32_140 : BitVec 32 := 5#32
  let v267 : BitVec 1 := Scalar.cmpi .eq v266 c5_i32_140
  let v268 : BitVec 32 := Scalar.extui v267
  let c0_i32_141 : BitVec 32 := 0#32
  let v269 : BitVec 1 := Scalar.cmpi .ne v268 c0_i32_141
  v269

def k0_cond55 (v271 : BitVec 32) : BitVec 1 :=
  let c6_i32_143 : BitVec 32 := 6#32
  let v272 : BitVec 1 := Scalar.cmpi .eq v271 c6_i32_143
  let v273 : BitVec 32 := Scalar.extui v272
  let c0_i32_144 : BitVec 32 := 0#32
  let v274 : BitVec 1 := Scalar.cmpi .ne v273 c0_i32_144
  v274

def k0_cond56 (v276 : BitVec 32) : BitVec 1 :=
  let c7_i32_146 : BitVec 32 := 7#32
  let v277 : BitVec 1 := Scalar.cmpi .eq v276 c7_i32_146
  let v278 : BitVec 32 := Scalar.extui v277
  let c0_i32_147 : BitVec 32 := 0#32
  let v279 : BitVec 1 := Scalar.cmpi .ne v278 c0_i32_147
  v279

def k0_cond57 (v281 : BitVec 32) : BitVec 1 :=
  let c8_i32_149 : BitVec 32 := 8#32
  let v282 : BitVec 1 := Scalar.cmpi .eq v281 c8_i32_149
  let v283 : BitVec 32 := Scalar.extui v282
  let c0_i32_150 : BitVec 32 := 0#32
  let v284 : BitVec 1 := Scalar.cmpi .ne v283 c0_i32_150
  v284

def k0_cond58 (v286 : BitVec 32) : BitVec 1 :=
  let c9_i32_152 : BitVec 32 := 9#32
  let v287 : BitVec 1 := Scalar.cmpi .eq v286 c9_i32_152
  let v288 : BitVec 32 := Scalar.extui v287
  let c0_i32_153 : BitVec 32 := 0#32
  let v289 : BitVec 1 := Scalar.cmpi .ne v288 c0_i32_153
  v289

def k0_cond59 (v291 : BitVec 32) : BitVec 1 :=
  let c10_i32_155 : BitVec 32 := 10#32
  let v292 : BitVec 1 := Scalar.cmpi .eq v291 c10_i32_155
  let v293 : BitVec 32 := Scalar.extui v292
  let c0_i32_156 : BitVec 32 := 0#32
  let v294 : BitVec 1 := Scalar.cmpi .ne v293 c0_i32_156
  v294

def k0_cond60 (v296 : BitVec 32) : BitVec 1 :=
  let c11_i32_158 : BitVec 32 := 11#32
  let v297 : BitVec 1 := Scalar.cmpi .eq v296 c11_i32_158
  let v298 : BitVec 32 := Scalar.extui v297
  let c0_i32_159 : BitVec 32 := 0#32
  let v299 : BitVec 1 := Scalar.cmpi .ne v298 c0_i32_159
  v299

def k0_cond61 (v301 : BitVec 32) : BitVec 1 :=
  let c12_i32_161 : BitVec 32 := 12#32
  let v302 : BitVec 1 := Scalar.cmpi .eq v301 c12_i32_161
  let v303 : BitVec 32 := Scalar.extui v302
  let c0_i32_162 : BitVec 32 := 0#32
  let v304 : BitVec 1 := Scalar.cmpi .ne v303 c0_i32_162
  v304

def k0_cond62 (v306 : BitVec 32) : BitVec 1 :=
  let c13_i32_164 : BitVec 32 := 13#32
  let v307 : BitVec 1 := Scalar.cmpi .eq v306 c13_i32_164
  let v308 : BitVec 32 := Scalar.extui v307
  let c0_i32_165 : BitVec 32 := 0#32
  let v309 : BitVec 1 := Scalar.cmpi .ne v308 c0_i32_165
  v309

def k0_cond63 (v311 : BitVec 32) : BitVec 1 :=
  let c14_i32_167 : BitVec 32 := 14#32
  let v312 : BitVec 1 := Scalar.cmpi .eq v311 c14_i32_167
  let v313 : BitVec 32 := Scalar.extui v312
  let c0_i32_168 : BitVec 32 := 0#32
  let v314 : BitVec 1 := Scalar.cmpi .ne v313 c0_i32_168
  v314

def k0_cond64 (v316 : BitVec 32) : BitVec 1 :=
  let c15_i32_170 : BitVec 32 := 15#32
  let v317 : BitVec 1 := Scalar.cmpi .eq v316 c15_i32_170
  let v318 : BitVec 32 := Scalar.extui v317
  let c0_i32_171 : BitVec 32 := 0#32
  let v319 : BitVec 1 := Scalar.cmpi .ne v318 c0_i32_171
  v319

def k0_cond65 (v321 : BitVec 32) : BitVec 1 :=
  let c0_i32_172 : BitVec 32 := 0#32
  let v322 : BitVec 1 := Scalar.cmpi .eq v321 c0_i32_172
  let v323 : BitVec 32 := Scalar.extui v322
  let c0_i32_173 : BitVec 32 := 0#32
  let v324 : BitVec 1 := Scalar.cmpi .ne v323 c0_i32_173
  v324

def k0_cond66 (v326 : BitVec 32) : BitVec 1 :=
  let c1_i32_175 : BitVec 32 := 1#32
  let v327 : BitVec 1 := Scalar.cmpi .eq v326 c1_i32_175
  let v328 : BitVec 32 := Scalar.extui v327
  let c0_i32_176 : BitVec 32 := 0#32
  let v329 : BitVec 1 := Scalar.cmpi .ne v328 c0_i32_176
  v329

def k0_cond67 (v331 : BitVec 32) : BitVec 1 :=
  let c2_i32_178 : BitVec 32 := 2#32
  let v332 : BitVec 1 := Scalar.cmpi .eq v331 c2_i32_178
  let v333 : BitVec 32 := Scalar.extui v332
  let c0_i32_179 : BitVec 32 := 0#32
  let v334 : BitVec 1 := Scalar.cmpi .ne v333 c0_i32_179
  v334

def k0_cond68 (v336 : BitVec 32) : BitVec 1 :=
  let c3_i32_181 : BitVec 32 := 3#32
  let v337 : BitVec 1 := Scalar.cmpi .eq v336 c3_i32_181
  let v338 : BitVec 32 := Scalar.extui v337
  let c0_i32_182 : BitVec 32 := 0#32
  let v339 : BitVec 1 := Scalar.cmpi .ne v338 c0_i32_182
  v339

def k0_cond69 (v341 : BitVec 32) : BitVec 1 :=
  let c4_i32_184 : BitVec 32 := 4#32
  let v342 : BitVec 1 := Scalar.cmpi .eq v341 c4_i32_184
  let v343 : BitVec 32 := Scalar.extui v342
  let c0_i32_185 : BitVec 32 := 0#32
  let v344 : BitVec 1 := Scalar.cmpi .ne v343 c0_i32_185
  v344

def k0_cond70 (v346 : BitVec 32) : BitVec 1 :=
  let c5_i32_187 : BitVec 32 := 5#32
  let v347 : BitVec 1 := Scalar.cmpi .eq v346 c5_i32_187
  let v348 : BitVec 32 := Scalar.extui v347
  let c0_i32_188 : BitVec 32 := 0#32
  let v349 : BitVec 1 := Scalar.cmpi .ne v348 c0_i32_188
  v349

def k0_cond71 (v351 : BitVec 32) : BitVec 1 :=
  let c6_i32_190 : BitVec 32 := 6#32
  let v352 : BitVec 1 := Scalar.cmpi .eq v351 c6_i32_190
  let v353 : BitVec 32 := Scalar.extui v352
  let c0_i32_191 : BitVec 32 := 0#32
  let v354 : BitVec 1 := Scalar.cmpi .ne v353 c0_i32_191
  v354

def k0_cond72 (v356 : BitVec 32) : BitVec 1 :=
  let c7_i32_193 : BitVec 32 := 7#32
  let v357 : BitVec 1 := Scalar.cmpi .eq v356 c7_i32_193
  let v358 : BitVec 32 := Scalar.extui v357
  let c0_i32_194 : BitVec 32 := 0#32
  let v359 : BitVec 1 := Scalar.cmpi .ne v358 c0_i32_194
  v359

def k0_cond73 (v361 : BitVec 32) : BitVec 1 :=
  let c8_i32_196 : BitVec 32 := 8#32
  let v362 : BitVec 1 := Scalar.cmpi .eq v361 c8_i32_196
  let v363 : BitVec 32 := Scalar.extui v362
  let c0_i32_197 : BitVec 32 := 0#32
  let v364 : BitVec 1 := Scalar.cmpi .ne v363 c0_i32_197
  v364

def k0_cond74 (v366 : BitVec 32) : BitVec 1 :=
  let c9_i32_199 : BitVec 32 := 9#32
  let v367 : BitVec 1 := Scalar.cmpi .eq v366 c9_i32_199
  let v368 : BitVec 32 := Scalar.extui v367
  let c0_i32_200 : BitVec 32 := 0#32
  let v369 : BitVec 1 := Scalar.cmpi .ne v368 c0_i32_200
  v369

def k0_cond75 (v371 : BitVec 32) : BitVec 1 :=
  let c10_i32_202 : BitVec 32 := 10#32
  let v372 : BitVec 1 := Scalar.cmpi .eq v371 c10_i32_202
  let v373 : BitVec 32 := Scalar.extui v372
  let c0_i32_203 : BitVec 32 := 0#32
  let v374 : BitVec 1 := Scalar.cmpi .ne v373 c0_i32_203
  v374

def k0_cond76 (v376 : BitVec 32) : BitVec 1 :=
  let c11_i32_205 : BitVec 32 := 11#32
  let v377 : BitVec 1 := Scalar.cmpi .eq v376 c11_i32_205
  let v378 : BitVec 32 := Scalar.extui v377
  let c0_i32_206 : BitVec 32 := 0#32
  let v379 : BitVec 1 := Scalar.cmpi .ne v378 c0_i32_206
  v379

def k0_cond77 (v381 : BitVec 32) : BitVec 1 :=
  let c12_i32_208 : BitVec 32 := 12#32
  let v382 : BitVec 1 := Scalar.cmpi .eq v381 c12_i32_208
  let v383 : BitVec 32 := Scalar.extui v382
  let c0_i32_209 : BitVec 32 := 0#32
  let v384 : BitVec 1 := Scalar.cmpi .ne v383 c0_i32_209
  v384

def k0_cond78 (v386 : BitVec 32) : BitVec 1 :=
  let c13_i32_211 : BitVec 32 := 13#32
  let v387 : BitVec 1 := Scalar.cmpi .eq v386 c13_i32_211
  let v388 : BitVec 32 := Scalar.extui v387
  let c0_i32_212 : BitVec 32 := 0#32
  let v389 : BitVec 1 := Scalar.cmpi .ne v388 c0_i32_212
  v389

def k0_cond79 (v391 : BitVec 32) : BitVec 1 :=
  let c14_i32_214 : BitVec 32 := 14#32
  let v392 : BitVec 1 := Scalar.cmpi .eq v391 c14_i32_214
  let v393 : BitVec 32 := Scalar.extui v392
  let c0_i32_215 : BitVec 32 := 0#32
  let v394 : BitVec 1 := Scalar.cmpi .ne v393 c0_i32_215
  v394

def k0_cond80 (v396 : BitVec 32) : BitVec 1 :=
  let c15_i32_217 : BitVec 32 := 15#32
  let v397 : BitVec 1 := Scalar.cmpi .eq v396 c15_i32_217
  let v398 : BitVec 32 := Scalar.extui v397
  let c0_i32_218 : BitVec 32 := 0#32
  let v399 : BitVec 1 := Scalar.cmpi .ne v398 c0_i32_218
  v399

def k0_cond81 (v401 : BitVec 32) : BitVec 1 :=
  let c0_i32_219 : BitVec 32 := 0#32
  let v402 : BitVec 1 := Scalar.cmpi .eq v401 c0_i32_219
  let v403 : BitVec 32 := Scalar.extui v402
  let c0_i32_220 : BitVec 32 := 0#32
  let v404 : BitVec 1 := Scalar.cmpi .ne v403 c0_i32_220
  v404

def k0_cond82 (v406 : BitVec 32) : BitVec 1 :=
  let c1_i32_222 : BitVec 32 := 1#32
  let v407 : BitVec 1 := Scalar.cmpi .eq v406 c1_i32_222
  let v408 : BitVec 32 := Scalar.extui v407
  let c0_i32_223 : BitVec 32 := 0#32
  let v409 : BitVec 1 := Scalar.cmpi .ne v408 c0_i32_223
  v409

def k0_cond83 (v411 : BitVec 32) : BitVec 1 :=
  let c2_i32_225 : BitVec 32 := 2#32
  let v412 : BitVec 1 := Scalar.cmpi .eq v411 c2_i32_225
  let v413 : BitVec 32 := Scalar.extui v412
  let c0_i32_226 : BitVec 32 := 0#32
  let v414 : BitVec 1 := Scalar.cmpi .ne v413 c0_i32_226
  v414

def k0_cond84 (v416 : BitVec 32) : BitVec 1 :=
  let c3_i32_228 : BitVec 32 := 3#32
  let v417 : BitVec 1 := Scalar.cmpi .eq v416 c3_i32_228
  let v418 : BitVec 32 := Scalar.extui v417
  let c0_i32_229 : BitVec 32 := 0#32
  let v419 : BitVec 1 := Scalar.cmpi .ne v418 c0_i32_229
  v419

def k0_cond85 (v421 : BitVec 32) : BitVec 1 :=
  let c4_i32_231 : BitVec 32 := 4#32
  let v422 : BitVec 1 := Scalar.cmpi .eq v421 c4_i32_231
  let v423 : BitVec 32 := Scalar.extui v422
  let c0_i32_232 : BitVec 32 := 0#32
  let v424 : BitVec 1 := Scalar.cmpi .ne v423 c0_i32_232
  v424

def k0_cond86 (v426 : BitVec 32) : BitVec 1 :=
  let c5_i32_234 : BitVec 32 := 5#32
  let v427 : BitVec 1 := Scalar.cmpi .eq v426 c5_i32_234
  let v428 : BitVec 32 := Scalar.extui v427
  let c0_i32_235 : BitVec 32 := 0#32
  let v429 : BitVec 1 := Scalar.cmpi .ne v428 c0_i32_235
  v429

def k0_cond87 (v431 : BitVec 32) : BitVec 1 :=
  let c6_i32_237 : BitVec 32 := 6#32
  let v432 : BitVec 1 := Scalar.cmpi .eq v431 c6_i32_237
  let v433 : BitVec 32 := Scalar.extui v432
  let c0_i32_238 : BitVec 32 := 0#32
  let v434 : BitVec 1 := Scalar.cmpi .ne v433 c0_i32_238
  v434

def k0_cond88 (v436 : BitVec 32) : BitVec 1 :=
  let c7_i32_240 : BitVec 32 := 7#32
  let v437 : BitVec 1 := Scalar.cmpi .eq v436 c7_i32_240
  let v438 : BitVec 32 := Scalar.extui v437
  let c0_i32_241 : BitVec 32 := 0#32
  let v439 : BitVec 1 := Scalar.cmpi .ne v438 c0_i32_241
  v439

def k0_cond89 (v441 : BitVec 32) : BitVec 1 :=
  let c8_i32_243 : BitVec 32 := 8#32
  let v442 : BitVec 1 := Scalar.cmpi .eq v441 c8_i32_243
  let v443 : BitVec 32 := Scalar.extui v442
  let c0_i32_244 : BitVec 32 := 0#32
  let v444 : BitVec 1 := Scalar.cmpi .ne v443 c0_i32_244
  v444

def k0_cond90 (v446 : BitVec 32) : BitVec 1 :=
  let c9_i32_246 : BitVec 32 := 9#32
  let v447 : BitVec 1 := Scalar.cmpi .eq v446 c9_i32_246
  let v448 : BitVec 32 := Scalar.extui v447
  let c0_i32_247 : BitVec 32 := 0#32
  let v449 : BitVec 1 := Scalar.cmpi .ne v448 c0_i32_247
  v449

def k0_cond91 (v451 : BitVec 32) : BitVec 1 :=
  let c10_i32_249 : BitVec 32 := 10#32
  let v452 : BitVec 1 := Scalar.cmpi .eq v451 c10_i32_249
  let v453 : BitVec 32 := Scalar.extui v452
  let c0_i32_250 : BitVec 32 := 0#32
  let v454 : BitVec 1 := Scalar.cmpi .ne v453 c0_i32_250
  v454

def k0_cond92 (v456 : BitVec 32) : BitVec 1 :=
  let c11_i32_252 : BitVec 32 := 11#32
  let v457 : BitVec 1 := Scalar.cmpi .eq v456 c11_i32_252
  let v458 : BitVec 32 := Scalar.extui v457
  let c0_i32_253 : BitVec 32 := 0#32
  let v459 : BitVec 1 := Scalar.cmpi .ne v458 c0_i32_253
  v459

def k0_cond93 (v461 : BitVec 32) : BitVec 1 :=
  let c12_i32_255 : BitVec 32 := 12#32
  let v462 : BitVec 1 := Scalar.cmpi .eq v461 c12_i32_255
  let v463 : BitVec 32 := Scalar.extui v462
  let c0_i32_256 : BitVec 32 := 0#32
  let v464 : BitVec 1 := Scalar.cmpi .ne v463 c0_i32_256
  v464

def k0_cond94 (v466 : BitVec 32) : BitVec 1 :=
  let c13_i32_258 : BitVec 32 := 13#32
  let v467 : BitVec 1 := Scalar.cmpi .eq v466 c13_i32_258
  let v468 : BitVec 32 := Scalar.extui v467
  let c0_i32_259 : BitVec 32 := 0#32
  let v469 : BitVec 1 := Scalar.cmpi .ne v468 c0_i32_259
  v469

def k0_cond95 (v471 : BitVec 32) : BitVec 1 :=
  let c14_i32_261 : BitVec 32 := 14#32
  let v472 : BitVec 1 := Scalar.cmpi .eq v471 c14_i32_261
  let v473 : BitVec 32 := Scalar.extui v472
  let c0_i32_262 : BitVec 32 := 0#32
  let v474 : BitVec 1 := Scalar.cmpi .ne v473 c0_i32_262
  v474

def k0_cond96 (v476 : BitVec 32) : BitVec 1 :=
  let c15_i32_264 : BitVec 32 := 15#32
  let v477 : BitVec 1 := Scalar.cmpi .eq v476 c15_i32_264
  let v478 : BitVec 32 := Scalar.extui v477
  let c0_i32_265 : BitVec 32 := 0#32
  let v479 : BitVec 1 := Scalar.cmpi .ne v478 c0_i32_265
  v479

def k0_cond97 (v481 : BitVec 32) : BitVec 1 :=
  let c0_i32_266 : BitVec 32 := 0#32
  let v482 : BitVec 1 := Scalar.cmpi .eq v481 c0_i32_266
  let v483 : BitVec 32 := Scalar.extui v482
  let c0_i32_267 : BitVec 32 := 0#32
  let v484 : BitVec 1 := Scalar.cmpi .ne v483 c0_i32_267
  v484

def k0_cond98 (v486 : BitVec 32) : BitVec 1 :=
  let c1_i32_269 : BitVec 32 := 1#32
  let v487 : BitVec 1 := Scalar.cmpi .eq v486 c1_i32_269
  let v488 : BitVec 32 := Scalar.extui v487
  let c0_i32_270 : BitVec 32 := 0#32
  let v489 : BitVec 1 := Scalar.cmpi .ne v488 c0_i32_270
  v489

def k0_cond99 (v491 : BitVec 32) : BitVec 1 :=
  let c2_i32_272 : BitVec 32 := 2#32
  let v492 : BitVec 1 := Scalar.cmpi .eq v491 c2_i32_272
  let v493 : BitVec 32 := Scalar.extui v492
  let c0_i32_273 : BitVec 32 := 0#32
  let v494 : BitVec 1 := Scalar.cmpi .ne v493 c0_i32_273
  v494

def k0_cond100 (v496 : BitVec 32) : BitVec 1 :=
  let c3_i32_275 : BitVec 32 := 3#32
  let v497 : BitVec 1 := Scalar.cmpi .eq v496 c3_i32_275
  let v498 : BitVec 32 := Scalar.extui v497
  let c0_i32_276 : BitVec 32 := 0#32
  let v499 : BitVec 1 := Scalar.cmpi .ne v498 c0_i32_276
  v499

def k0_cond101 (v501 : BitVec 32) : BitVec 1 :=
  let c4_i32_278 : BitVec 32 := 4#32
  let v502 : BitVec 1 := Scalar.cmpi .eq v501 c4_i32_278
  let v503 : BitVec 32 := Scalar.extui v502
  let c0_i32_279 : BitVec 32 := 0#32
  let v504 : BitVec 1 := Scalar.cmpi .ne v503 c0_i32_279
  v504

def k0_cond102 (v506 : BitVec 32) : BitVec 1 :=
  let c5_i32_281 : BitVec 32 := 5#32
  let v507 : BitVec 1 := Scalar.cmpi .eq v506 c5_i32_281
  let v508 : BitVec 32 := Scalar.extui v507
  let c0_i32_282 : BitVec 32 := 0#32
  let v509 : BitVec 1 := Scalar.cmpi .ne v508 c0_i32_282
  v509

def k0_cond103 (v511 : BitVec 32) : BitVec 1 :=
  let c6_i32_284 : BitVec 32 := 6#32
  let v512 : BitVec 1 := Scalar.cmpi .eq v511 c6_i32_284
  let v513 : BitVec 32 := Scalar.extui v512
  let c0_i32_285 : BitVec 32 := 0#32
  let v514 : BitVec 1 := Scalar.cmpi .ne v513 c0_i32_285
  v514

def k0_cond104 (v516 : BitVec 32) : BitVec 1 :=
  let c7_i32_287 : BitVec 32 := 7#32
  let v517 : BitVec 1 := Scalar.cmpi .eq v516 c7_i32_287
  let v518 : BitVec 32 := Scalar.extui v517
  let c0_i32_288 : BitVec 32 := 0#32
  let v519 : BitVec 1 := Scalar.cmpi .ne v518 c0_i32_288
  v519

def k0_cond105 (v521 : BitVec 32) : BitVec 1 :=
  let c8_i32_290 : BitVec 32 := 8#32
  let v522 : BitVec 1 := Scalar.cmpi .eq v521 c8_i32_290
  let v523 : BitVec 32 := Scalar.extui v522
  let c0_i32_291 : BitVec 32 := 0#32
  let v524 : BitVec 1 := Scalar.cmpi .ne v523 c0_i32_291
  v524

def k0_cond106 (v526 : BitVec 32) : BitVec 1 :=
  let c9_i32_293 : BitVec 32 := 9#32
  let v527 : BitVec 1 := Scalar.cmpi .eq v526 c9_i32_293
  let v528 : BitVec 32 := Scalar.extui v527
  let c0_i32_294 : BitVec 32 := 0#32
  let v529 : BitVec 1 := Scalar.cmpi .ne v528 c0_i32_294
  v529

def k0_cond107 (v531 : BitVec 32) : BitVec 1 :=
  let c10_i32_296 : BitVec 32 := 10#32
  let v532 : BitVec 1 := Scalar.cmpi .eq v531 c10_i32_296
  let v533 : BitVec 32 := Scalar.extui v532
  let c0_i32_297 : BitVec 32 := 0#32
  let v534 : BitVec 1 := Scalar.cmpi .ne v533 c0_i32_297
  v534

def k0_cond108 (v536 : BitVec 32) : BitVec 1 :=
  let c11_i32_299 : BitVec 32 := 11#32
  let v537 : BitVec 1 := Scalar.cmpi .eq v536 c11_i32_299
  let v538 : BitVec 32 := Scalar.extui v537
  let c0_i32_300 : BitVec 32 := 0#32
  let v539 : BitVec 1 := Scalar.cmpi .ne v538 c0_i32_300
  v539

def k0_cond109 (v541 : BitVec 32) : BitVec 1 :=
  let c12_i32_302 : BitVec 32 := 12#32
  let v542 : BitVec 1 := Scalar.cmpi .eq v541 c12_i32_302
  let v543 : BitVec 32 := Scalar.extui v542
  let c0_i32_303 : BitVec 32 := 0#32
  let v544 : BitVec 1 := Scalar.cmpi .ne v543 c0_i32_303
  v544

def k0_cond110 (v546 : BitVec 32) : BitVec 1 :=
  let c13_i32_305 : BitVec 32 := 13#32
  let v547 : BitVec 1 := Scalar.cmpi .eq v546 c13_i32_305
  let v548 : BitVec 32 := Scalar.extui v547
  let c0_i32_306 : BitVec 32 := 0#32
  let v549 : BitVec 1 := Scalar.cmpi .ne v548 c0_i32_306
  v549

def k0_cond111 (v551 : BitVec 32) : BitVec 1 :=
  let c14_i32_308 : BitVec 32 := 14#32
  let v552 : BitVec 1 := Scalar.cmpi .eq v551 c14_i32_308
  let v553 : BitVec 32 := Scalar.extui v552
  let c0_i32_309 : BitVec 32 := 0#32
  let v554 : BitVec 1 := Scalar.cmpi .ne v553 c0_i32_309
  v554

def k0_cond112 (v556 : BitVec 32) : BitVec 1 :=
  let c15_i32_311 : BitVec 32 := 15#32
  let v557 : BitVec 1 := Scalar.cmpi .eq v556 c15_i32_311
  let v558 : BitVec 32 := Scalar.extui v557
  let c0_i32_312 : BitVec 32 := 0#32
  let v559 : BitVec 1 := Scalar.cmpi .ne v558 c0_i32_312
  v559

def k0_cond113 (v561 : BitVec 32) : BitVec 1 :=
  let c0_i32_313 : BitVec 32 := 0#32
  let v562 : BitVec 1 := Scalar.cmpi .eq v561 c0_i32_313
  let v563 : BitVec 32 := Scalar.extui v562
  let c0_i32_314 : BitVec 32 := 0#32
  let v564 : BitVec 1 := Scalar.cmpi .ne v563 c0_i32_314
  v564

def k0_cond114 (v566 : BitVec 32) : BitVec 1 :=
  let c1_i32_316 : BitVec 32 := 1#32
  let v567 : BitVec 1 := Scalar.cmpi .eq v566 c1_i32_316
  let v568 : BitVec 32 := Scalar.extui v567
  let c0_i32_317 : BitVec 32 := 0#32
  let v569 : BitVec 1 := Scalar.cmpi .ne v568 c0_i32_317
  v569

def k0_cond115 (v571 : BitVec 32) : BitVec 1 :=
  let c2_i32_319 : BitVec 32 := 2#32
  let v572 : BitVec 1 := Scalar.cmpi .eq v571 c2_i32_319
  let v573 : BitVec 32 := Scalar.extui v572
  let c0_i32_320 : BitVec 32 := 0#32
  let v574 : BitVec 1 := Scalar.cmpi .ne v573 c0_i32_320
  v574

def k0_cond116 (v576 : BitVec 32) : BitVec 1 :=
  let c3_i32_322 : BitVec 32 := 3#32
  let v577 : BitVec 1 := Scalar.cmpi .eq v576 c3_i32_322
  let v578 : BitVec 32 := Scalar.extui v577
  let c0_i32_323 : BitVec 32 := 0#32
  let v579 : BitVec 1 := Scalar.cmpi .ne v578 c0_i32_323
  v579

def k0_cond117 (v581 : BitVec 32) : BitVec 1 :=
  let c4_i32_325 : BitVec 32 := 4#32
  let v582 : BitVec 1 := Scalar.cmpi .eq v581 c4_i32_325
  let v583 : BitVec 32 := Scalar.extui v582
  let c0_i32_326 : BitVec 32 := 0#32
  let v584 : BitVec 1 := Scalar.cmpi .ne v583 c0_i32_326
  v584

def k0_cond118 (v586 : BitVec 32) : BitVec 1 :=
  let c5_i32_328 : BitVec 32 := 5#32
  let v587 : BitVec 1 := Scalar.cmpi .eq v586 c5_i32_328
  let v588 : BitVec 32 := Scalar.extui v587
  let c0_i32_329 : BitVec 32 := 0#32
  let v589 : BitVec 1 := Scalar.cmpi .ne v588 c0_i32_329
  v589

def k0_cond119 (v591 : BitVec 32) : BitVec 1 :=
  let c6_i32_331 : BitVec 32 := 6#32
  let v592 : BitVec 1 := Scalar.cmpi .eq v591 c6_i32_331
  let v593 : BitVec 32 := Scalar.extui v592
  let c0_i32_332 : BitVec 32 := 0#32
  let v594 : BitVec 1 := Scalar.cmpi .ne v593 c0_i32_332
  v594

def k0_cond120 (v596 : BitVec 32) : BitVec 1 :=
  let c7_i32_334 : BitVec 32 := 7#32
  let v597 : BitVec 1 := Scalar.cmpi .eq v596 c7_i32_334
  let v598 : BitVec 32 := Scalar.extui v597
  let c0_i32_335 : BitVec 32 := 0#32
  let v599 : BitVec 1 := Scalar.cmpi .ne v598 c0_i32_335
  v599

def k0_cond121 (v601 : BitVec 32) : BitVec 1 :=
  let c8_i32_337 : BitVec 32 := 8#32
  let v602 : BitVec 1 := Scalar.cmpi .eq v601 c8_i32_337
  let v603 : BitVec 32 := Scalar.extui v602
  let c0_i32_338 : BitVec 32 := 0#32
  let v604 : BitVec 1 := Scalar.cmpi .ne v603 c0_i32_338
  v604

def k0_cond122 (v606 : BitVec 32) : BitVec 1 :=
  let c9_i32_340 : BitVec 32 := 9#32
  let v607 : BitVec 1 := Scalar.cmpi .eq v606 c9_i32_340
  let v608 : BitVec 32 := Scalar.extui v607
  let c0_i32_341 : BitVec 32 := 0#32
  let v609 : BitVec 1 := Scalar.cmpi .ne v608 c0_i32_341
  v609

def k0_cond123 (v611 : BitVec 32) : BitVec 1 :=
  let c10_i32_343 : BitVec 32 := 10#32
  let v612 : BitVec 1 := Scalar.cmpi .eq v611 c10_i32_343
  let v613 : BitVec 32 := Scalar.extui v612
  let c0_i32_344 : BitVec 32 := 0#32
  let v614 : BitVec 1 := Scalar.cmpi .ne v613 c0_i32_344
  v614

def k0_cond124 (v616 : BitVec 32) : BitVec 1 :=
  let c11_i32_346 : BitVec 32 := 11#32
  let v617 : BitVec 1 := Scalar.cmpi .eq v616 c11_i32_346
  let v618 : BitVec 32 := Scalar.extui v617
  let c0_i32_347 : BitVec 32 := 0#32
  let v619 : BitVec 1 := Scalar.cmpi .ne v618 c0_i32_347
  v619

def k0_cond125 (v621 : BitVec 32) : BitVec 1 :=
  let c12_i32_349 : BitVec 32 := 12#32
  let v622 : BitVec 1 := Scalar.cmpi .eq v621 c12_i32_349
  let v623 : BitVec 32 := Scalar.extui v622
  let c0_i32_350 : BitVec 32 := 0#32
  let v624 : BitVec 1 := Scalar.cmpi .ne v623 c0_i32_350
  v624

def k0_cond126 (v626 : BitVec 32) : BitVec 1 :=
  let c13_i32_352 : BitVec 32 := 13#32
  let v627 : BitVec 1 := Scalar.cmpi .eq v626 c13_i32_352
  let v628 : BitVec 32 := Scalar.extui v627
  let c0_i32_353 : BitVec 32 := 0#32
  let v629 : BitVec 1 := Scalar.cmpi .ne v628 c0_i32_353
  v629

def k0_cond127 (v631 : BitVec 32) : BitVec 1 :=
  let c14_i32_355 : BitVec 32 := 14#32
  let v632 : BitVec 1 := Scalar.cmpi .eq v631 c14_i32_355
  let v633 : BitVec 32 := Scalar.extui v632
  let c0_i32_356 : BitVec 32 := 0#32
  let v634 : BitVec 1 := Scalar.cmpi .ne v633 c0_i32_356
  v634

def k0_cond128 (v636 : BitVec 32) : BitVec 1 :=
  let c15_i32_358 : BitVec 32 := 15#32
  let v637 : BitVec 1 := Scalar.cmpi .eq v636 c15_i32_358
  let v638 : BitVec 32 := Scalar.extui v637
  let c0_i32_359 : BitVec 32 := 0#32
  let v639 : BitVec 1 := Scalar.cmpi .ne v638 c0_i32_359
  v639

def k0_cond129 (v641 : BitVec 32) : BitVec 1 :=
  let c0_i32_360 : BitVec 32 := 0#32
  let v642 : BitVec 1 := Scalar.cmpi .eq v641 c0_i32_360
  let v643 : BitVec 32 := Scalar.extui v642
  let c0_i32_361 : BitVec 32 := 0#32
  let v644 : BitVec 1 := Scalar.cmpi .ne v643 c0_i32_361
  v644

def k0_cond130 (v646 : BitVec 32) : BitVec 1 :=
  let c1_i32_363 : BitVec 32 := 1#32
  let v647 : BitVec 1 := Scalar.cmpi .eq v646 c1_i32_363
  let v648 : BitVec 32 := Scalar.extui v647
  let c0_i32_364 : BitVec 32 := 0#32
  let v649 : BitVec 1 := Scalar.cmpi .ne v648 c0_i32_364
  v649

def k0_cond131 (v651 : BitVec 32) : BitVec 1 :=
  let c2_i32_366 : BitVec 32 := 2#32
  let v652 : BitVec 1 := Scalar.cmpi .eq v651 c2_i32_366
  let v653 : BitVec 32 := Scalar.extui v652
  let c0_i32_367 : BitVec 32 := 0#32
  let v654 : BitVec 1 := Scalar.cmpi .ne v653 c0_i32_367
  v654

def k0_cond132 (v656 : BitVec 32) : BitVec 1 :=
  let c3_i32_369 : BitVec 32 := 3#32
  let v657 : BitVec 1 := Scalar.cmpi .eq v656 c3_i32_369
  let v658 : BitVec 32 := Scalar.extui v657
  let c0_i32_370 : BitVec 32 := 0#32
  let v659 : BitVec 1 := Scalar.cmpi .ne v658 c0_i32_370
  v659

def k0_cond133 (v661 : BitVec 32) : BitVec 1 :=
  let c4_i32_372 : BitVec 32 := 4#32
  let v662 : BitVec 1 := Scalar.cmpi .eq v661 c4_i32_372
  let v663 : BitVec 32 := Scalar.extui v662
  let c0_i32_373 : BitVec 32 := 0#32
  let v664 : BitVec 1 := Scalar.cmpi .ne v663 c0_i32_373
  v664

def k0_cond134 (v666 : BitVec 32) : BitVec 1 :=
  let c5_i32_375 : BitVec 32 := 5#32
  let v667 : BitVec 1 := Scalar.cmpi .eq v666 c5_i32_375
  let v668 : BitVec 32 := Scalar.extui v667
  let c0_i32_376 : BitVec 32 := 0#32
  let v669 : BitVec 1 := Scalar.cmpi .ne v668 c0_i32_376
  v669

def k0_cond135 (v671 : BitVec 32) : BitVec 1 :=
  let c6_i32_378 : BitVec 32 := 6#32
  let v672 : BitVec 1 := Scalar.cmpi .eq v671 c6_i32_378
  let v673 : BitVec 32 := Scalar.extui v672
  let c0_i32_379 : BitVec 32 := 0#32
  let v674 : BitVec 1 := Scalar.cmpi .ne v673 c0_i32_379
  v674

def k0_cond136 (v676 : BitVec 32) : BitVec 1 :=
  let c7_i32_381 : BitVec 32 := 7#32
  let v677 : BitVec 1 := Scalar.cmpi .eq v676 c7_i32_381
  let v678 : BitVec 32 := Scalar.extui v677
  let c0_i32_382 : BitVec 32 := 0#32
  let v679 : BitVec 1 := Scalar.cmpi .ne v678 c0_i32_382
  v679

def k0_cond137 (v681 : BitVec 32) : BitVec 1 :=
  let c8_i32_384 : BitVec 32 := 8#32
  let v682 : BitVec 1 := Scalar.cmpi .eq v681 c8_i32_384
  let v683 : BitVec 32 := Scalar.extui v682
  let c0_i32_385 : BitVec 32 := 0#32
  let v684 : BitVec 1 := Scalar.cmpi .ne v683 c0_i32_385
  v684

def k0_cond138 (v686 : BitVec 32) : BitVec 1 :=
  let c9_i32_387 : BitVec 32 := 9#32
  let v687 : BitVec 1 := Scalar.cmpi .eq v686 c9_i32_387
  let v688 : BitVec 32 := Scalar.extui v687
  let c0_i32_388 : BitVec 32 := 0#32
  let v689 : BitVec 1 := Scalar.cmpi .ne v688 c0_i32_388
  v689

def k0_cond139 (v691 : BitVec 32) : BitVec 1 :=
  let c10_i32_390 : BitVec 32 := 10#32
  let v692 : BitVec 1 := Scalar.cmpi .eq v691 c10_i32_390
  let v693 : BitVec 32 := Scalar.extui v692
  let c0_i32_391 : BitVec 32 := 0#32
  let v694 : BitVec 1 := Scalar.cmpi .ne v693 c0_i32_391
  v694

def k0_cond140 (v696 : BitVec 32) : BitVec 1 :=
  let c11_i32_393 : BitVec 32 := 11#32
  let v697 : BitVec 1 := Scalar.cmpi .eq v696 c11_i32_393
  let v698 : BitVec 32 := Scalar.extui v697
  let c0_i32_394 : BitVec 32 := 0#32
  let v699 : BitVec 1 := Scalar.cmpi .ne v698 c0_i32_394
  v699

def k0_cond141 (v701 : BitVec 32) : BitVec 1 :=
  let c12_i32_396 : BitVec 32 := 12#32
  let v702 : BitVec 1 := Scalar.cmpi .eq v701 c12_i32_396
  let v703 : BitVec 32 := Scalar.extui v702
  let c0_i32_397 : BitVec 32 := 0#32
  let v704 : BitVec 1 := Scalar.cmpi .ne v703 c0_i32_397
  v704

def k0_cond142 (v706 : BitVec 32) : BitVec 1 :=
  let c13_i32_399 : BitVec 32 := 13#32
  let v707 : BitVec 1 := Scalar.cmpi .eq v706 c13_i32_399
  let v708 : BitVec 32 := Scalar.extui v707
  let c0_i32_400 : BitVec 32 := 0#32
  let v709 : BitVec 1 := Scalar.cmpi .ne v708 c0_i32_400
  v709

def k0_cond143 (v711 : BitVec 32) : BitVec 1 :=
  let c14_i32_402 : BitVec 32 := 14#32
  let v712 : BitVec 1 := Scalar.cmpi .eq v711 c14_i32_402
  let v713 : BitVec 32 := Scalar.extui v712
  let c0_i32_403 : BitVec 32 := 0#32
  let v714 : BitVec 1 := Scalar.cmpi .ne v713 c0_i32_403
  v714

def k0_cond144 (v716 : BitVec 32) : BitVec 1 :=
  let c15_i32_405 : BitVec 32 := 15#32
  let v717 : BitVec 1 := Scalar.cmpi .eq v716 c15_i32_405
  let v718 : BitVec 32 := Scalar.extui v717
  let c0_i32_406 : BitVec 32 := 0#32
  let v719 : BitVec 1 := Scalar.cmpi .ne v718 c0_i32_406
  v719

def k0_cond145 (v721 : BitVec 32) : BitVec 1 :=
  let c0_i32_407 : BitVec 32 := 0#32
  let v722 : BitVec 1 := Scalar.cmpi .eq v721 c0_i32_407
  let v723 : BitVec 32 := Scalar.extui v722
  let c0_i32_408 : BitVec 32 := 0#32
  let v724 : BitVec 1 := Scalar.cmpi .ne v723 c0_i32_408
  v724

def k0_cond146 (v726 : BitVec 32) : BitVec 1 :=
  let c1_i32_410 : BitVec 32 := 1#32
  let v727 : BitVec 1 := Scalar.cmpi .eq v726 c1_i32_410
  let v728 : BitVec 32 := Scalar.extui v727
  let c0_i32_411 : BitVec 32 := 0#32
  let v729 : BitVec 1 := Scalar.cmpi .ne v728 c0_i32_411
  v729

def k0_cond147 (v731 : BitVec 32) : BitVec 1 :=
  let c2_i32_413 : BitVec 32 := 2#32
  let v732 : BitVec 1 := Scalar.cmpi .eq v731 c2_i32_413
  let v733 : BitVec 32 := Scalar.extui v732
  let c0_i32_414 : BitVec 32 := 0#32
  let v734 : BitVec 1 := Scalar.cmpi .ne v733 c0_i32_414
  v734

def k0_cond148 (v736 : BitVec 32) : BitVec 1 :=
  let c3_i32_416 : BitVec 32 := 3#32
  let v737 : BitVec 1 := Scalar.cmpi .eq v736 c3_i32_416
  let v738 : BitVec 32 := Scalar.extui v737
  let c0_i32_417 : BitVec 32 := 0#32
  let v739 : BitVec 1 := Scalar.cmpi .ne v738 c0_i32_417
  v739

def k0_cond149 (v741 : BitVec 32) : BitVec 1 :=
  let c4_i32_419 : BitVec 32 := 4#32
  let v742 : BitVec 1 := Scalar.cmpi .eq v741 c4_i32_419
  let v743 : BitVec 32 := Scalar.extui v742
  let c0_i32_420 : BitVec 32 := 0#32
  let v744 : BitVec 1 := Scalar.cmpi .ne v743 c0_i32_420
  v744

def k0_cond150 (v746 : BitVec 32) : BitVec 1 :=
  let c5_i32_422 : BitVec 32 := 5#32
  let v747 : BitVec 1 := Scalar.cmpi .eq v746 c5_i32_422
  let v748 : BitVec 32 := Scalar.extui v747
  let c0_i32_423 : BitVec 32 := 0#32
  let v749 : BitVec 1 := Scalar.cmpi .ne v748 c0_i32_423
  v749

def k0_cond151 (v751 : BitVec 32) : BitVec 1 :=
  let c6_i32_425 : BitVec 32 := 6#32
  let v752 : BitVec 1 := Scalar.cmpi .eq v751 c6_i32_425
  let v753 : BitVec 32 := Scalar.extui v752
  let c0_i32_426 : BitVec 32 := 0#32
  let v754 : BitVec 1 := Scalar.cmpi .ne v753 c0_i32_426
  v754

def k0_cond152 (v756 : BitVec 32) : BitVec 1 :=
  let c7_i32_428 : BitVec 32 := 7#32
  let v757 : BitVec 1 := Scalar.cmpi .eq v756 c7_i32_428
  let v758 : BitVec 32 := Scalar.extui v757
  let c0_i32_429 : BitVec 32 := 0#32
  let v759 : BitVec 1 := Scalar.cmpi .ne v758 c0_i32_429
  v759

def k0_cond153 (v761 : BitVec 32) : BitVec 1 :=
  let c8_i32_431 : BitVec 32 := 8#32
  let v762 : BitVec 1 := Scalar.cmpi .eq v761 c8_i32_431
  let v763 : BitVec 32 := Scalar.extui v762
  let c0_i32_432 : BitVec 32 := 0#32
  let v764 : BitVec 1 := Scalar.cmpi .ne v763 c0_i32_432
  v764

def k0_cond154 (v766 : BitVec 32) : BitVec 1 :=
  let c9_i32_434 : BitVec 32 := 9#32
  let v767 : BitVec 1 := Scalar.cmpi .eq v766 c9_i32_434
  let v768 : BitVec 32 := Scalar.extui v767
  let c0_i32_435 : BitVec 32 := 0#32
  let v769 : BitVec 1 := Scalar.cmpi .ne v768 c0_i32_435
  v769

def k0_cond155 (v771 : BitVec 32) : BitVec 1 :=
  let c10_i32_437 : BitVec 32 := 10#32
  let v772 : BitVec 1 := Scalar.cmpi .eq v771 c10_i32_437
  let v773 : BitVec 32 := Scalar.extui v772
  let c0_i32_438 : BitVec 32 := 0#32
  let v774 : BitVec 1 := Scalar.cmpi .ne v773 c0_i32_438
  v774

def k0_cond156 (v776 : BitVec 32) : BitVec 1 :=
  let c11_i32_440 : BitVec 32 := 11#32
  let v777 : BitVec 1 := Scalar.cmpi .eq v776 c11_i32_440
  let v778 : BitVec 32 := Scalar.extui v777
  let c0_i32_441 : BitVec 32 := 0#32
  let v779 : BitVec 1 := Scalar.cmpi .ne v778 c0_i32_441
  v779

def k0_cond157 (v781 : BitVec 32) : BitVec 1 :=
  let c12_i32_443 : BitVec 32 := 12#32
  let v782 : BitVec 1 := Scalar.cmpi .eq v781 c12_i32_443
  let v783 : BitVec 32 := Scalar.extui v782
  let c0_i32_444 : BitVec 32 := 0#32
  let v784 : BitVec 1 := Scalar.cmpi .ne v783 c0_i32_444
  v784

def k0_cond158 (v786 : BitVec 32) : BitVec 1 :=
  let c13_i32_446 : BitVec 32 := 13#32
  let v787 : BitVec 1 := Scalar.cmpi .eq v786 c13_i32_446
  let v788 : BitVec 32 := Scalar.extui v787
  let c0_i32_447 : BitVec 32 := 0#32
  let v789 : BitVec 1 := Scalar.cmpi .ne v788 c0_i32_447
  v789

def k0_cond159 (v791 : BitVec 32) : BitVec 1 :=
  let c14_i32_449 : BitVec 32 := 14#32
  let v792 : BitVec 1 := Scalar.cmpi .eq v791 c14_i32_449
  let v793 : BitVec 32 := Scalar.extui v792
  let c0_i32_450 : BitVec 32 := 0#32
  let v794 : BitVec 1 := Scalar.cmpi .ne v793 c0_i32_450
  v794

def k0_cond160 (v796 : BitVec 32) : BitVec 1 :=
  let c15_i32_452 : BitVec 32 := 15#32
  let v797 : BitVec 1 := Scalar.cmpi .eq v796 c15_i32_452
  let v798 : BitVec 32 := Scalar.extui v797
  let c0_i32_453 : BitVec 32 := 0#32
  let v799 : BitVec 1 := Scalar.cmpi .ne v798 c0_i32_453
  v799

def k0_cond161 (v801 : BitVec 32) : BitVec 1 :=
  let c0_i32_454 : BitVec 32 := 0#32
  let v802 : BitVec 1 := Scalar.cmpi .eq v801 c0_i32_454
  let v803 : BitVec 32 := Scalar.extui v802
  let c0_i32_455 : BitVec 32 := 0#32
  let v804 : BitVec 1 := Scalar.cmpi .ne v803 c0_i32_455
  v804

def k0_cond162 (v806 : BitVec 32) : BitVec 1 :=
  let c1_i32_457 : BitVec 32 := 1#32
  let v807 : BitVec 1 := Scalar.cmpi .eq v806 c1_i32_457
  let v808 : BitVec 32 := Scalar.extui v807
  let c0_i32_458 : BitVec 32 := 0#32
  let v809 : BitVec 1 := Scalar.cmpi .ne v808 c0_i32_458
  v809

def k0_cond163 (v811 : BitVec 32) : BitVec 1 :=
  let c2_i32_460 : BitVec 32 := 2#32
  let v812 : BitVec 1 := Scalar.cmpi .eq v811 c2_i32_460
  let v813 : BitVec 32 := Scalar.extui v812
  let c0_i32_461 : BitVec 32 := 0#32
  let v814 : BitVec 1 := Scalar.cmpi .ne v813 c0_i32_461
  v814

def k0_cond164 (v816 : BitVec 32) : BitVec 1 :=
  let c3_i32_463 : BitVec 32 := 3#32
  let v817 : BitVec 1 := Scalar.cmpi .eq v816 c3_i32_463
  let v818 : BitVec 32 := Scalar.extui v817
  let c0_i32_464 : BitVec 32 := 0#32
  let v819 : BitVec 1 := Scalar.cmpi .ne v818 c0_i32_464
  v819

def k0_cond165 (v821 : BitVec 32) : BitVec 1 :=
  let c4_i32_466 : BitVec 32 := 4#32
  let v822 : BitVec 1 := Scalar.cmpi .eq v821 c4_i32_466
  let v823 : BitVec 32 := Scalar.extui v822
  let c0_i32_467 : BitVec 32 := 0#32
  let v824 : BitVec 1 := Scalar.cmpi .ne v823 c0_i32_467
  v824

def k0_cond166 (v826 : BitVec 32) : BitVec 1 :=
  let c5_i32_469 : BitVec 32 := 5#32
  let v827 : BitVec 1 := Scalar.cmpi .eq v826 c5_i32_469
  let v828 : BitVec 32 := Scalar.extui v827
  let c0_i32_470 : BitVec 32 := 0#32
  let v829 : BitVec 1 := Scalar.cmpi .ne v828 c0_i32_470
  v829

def k0_cond167 (v831 : BitVec 32) : BitVec 1 :=
  let c6_i32_472 : BitVec 32 := 6#32
  let v832 : BitVec 1 := Scalar.cmpi .eq v831 c6_i32_472
  let v833 : BitVec 32 := Scalar.extui v832
  let c0_i32_473 : BitVec 32 := 0#32
  let v834 : BitVec 1 := Scalar.cmpi .ne v833 c0_i32_473
  v834

def k0_cond168 (v836 : BitVec 32) : BitVec 1 :=
  let c7_i32_475 : BitVec 32 := 7#32
  let v837 : BitVec 1 := Scalar.cmpi .eq v836 c7_i32_475
  let v838 : BitVec 32 := Scalar.extui v837
  let c0_i32_476 : BitVec 32 := 0#32
  let v839 : BitVec 1 := Scalar.cmpi .ne v838 c0_i32_476
  v839

def k0_cond169 (v841 : BitVec 32) : BitVec 1 :=
  let c8_i32_478 : BitVec 32 := 8#32
  let v842 : BitVec 1 := Scalar.cmpi .eq v841 c8_i32_478
  let v843 : BitVec 32 := Scalar.extui v842
  let c0_i32_479 : BitVec 32 := 0#32
  let v844 : BitVec 1 := Scalar.cmpi .ne v843 c0_i32_479
  v844

def k0_cond170 (v846 : BitVec 32) : BitVec 1 :=
  let c9_i32_481 : BitVec 32 := 9#32
  let v847 : BitVec 1 := Scalar.cmpi .eq v846 c9_i32_481
  let v848 : BitVec 32 := Scalar.extui v847
  let c0_i32_482 : BitVec 32 := 0#32
  let v849 : BitVec 1 := Scalar.cmpi .ne v848 c0_i32_482
  v849

def k0_cond171 (v851 : BitVec 32) : BitVec 1 :=
  let c10_i32_484 : BitVec 32 := 10#32
  let v852 : BitVec 1 := Scalar.cmpi .eq v851 c10_i32_484
  let v853 : BitVec 32 := Scalar.extui v852
  let c0_i32_485 : BitVec 32 := 0#32
  let v854 : BitVec 1 := Scalar.cmpi .ne v853 c0_i32_485
  v854

def k0_cond172 (v856 : BitVec 32) : BitVec 1 :=
  let c11_i32_487 : BitVec 32 := 11#32
  let v857 : BitVec 1 := Scalar.cmpi .eq v856 c11_i32_487
  let v858 : BitVec 32 := Scalar.extui v857
  let c0_i32_488 : BitVec 32 := 0#32
  let v859 : BitVec 1 := Scalar.cmpi .ne v858 c0_i32_488
  v859

def k0_cond173 (v861 : BitVec 32) : BitVec 1 :=
  let c12_i32_490 : BitVec 32 := 12#32
  let v862 : BitVec 1 := Scalar.cmpi .eq v861 c12_i32_490
  let v863 : BitVec 32 := Scalar.extui v862
  let c0_i32_491 : BitVec 32 := 0#32
  let v864 : BitVec 1 := Scalar.cmpi .ne v863 c0_i32_491
  v864

def k0_cond174 (v866 : BitVec 32) : BitVec 1 :=
  let c13_i32_493 : BitVec 32 := 13#32
  let v867 : BitVec 1 := Scalar.cmpi .eq v866 c13_i32_493
  let v868 : BitVec 32 := Scalar.extui v867
  let c0_i32_494 : BitVec 32 := 0#32
  let v869 : BitVec 1 := Scalar.cmpi .ne v868 c0_i32_494
  v869

def k0_cond175 (v871 : BitVec 32) : BitVec 1 :=
  let c14_i32_496 : BitVec 32 := 14#32
  let v872 : BitVec 1 := Scalar.cmpi .eq v871 c14_i32_496
  let v873 : BitVec 32 := Scalar.extui v872
  let c0_i32_497 : BitVec 32 := 0#32
  let v874 : BitVec 1 := Scalar.cmpi .ne v873 c0_i32_497
  v874

def k0_cond176 (v876 : BitVec 32) : BitVec 1 :=
  let c15_i32_499 : BitVec 32 := 15#32
  let v877 : BitVec 1 := Scalar.cmpi .eq v876 c15_i32_499
  let v878 : BitVec 32 := Scalar.extui v877
  let c0_i32_500 : BitVec 32 := 0#32
  let v879 : BitVec 1 := Scalar.cmpi .ne v878 c0_i32_500
  v879

def k0_cond177 (v881 : BitVec 32) : BitVec 1 :=
  let c0_i32_501 : BitVec 32 := 0#32
  let v882 : BitVec 1 := Scalar.cmpi .eq v881 c0_i32_501
  let v883 : BitVec 32 := Scalar.extui v882
  let c0_i32_502 : BitVec 32 := 0#32
  let v884 : BitVec 1 := Scalar.cmpi .ne v883 c0_i32_502
  v884

def k0_cond178 (v886 : BitVec 32) : BitVec 1 :=
  let c1_i32_504 : BitVec 32 := 1#32
  let v887 : BitVec 1 := Scalar.cmpi .eq v886 c1_i32_504
  let v888 : BitVec 32 := Scalar.extui v887
  let c0_i32_505 : BitVec 32 := 0#32
  let v889 : BitVec 1 := Scalar.cmpi .ne v888 c0_i32_505
  v889

def k0_cond179 (v891 : BitVec 32) : BitVec 1 :=
  let c2_i32_507 : BitVec 32 := 2#32
  let v892 : BitVec 1 := Scalar.cmpi .eq v891 c2_i32_507
  let v893 : BitVec 32 := Scalar.extui v892
  let c0_i32_508 : BitVec 32 := 0#32
  let v894 : BitVec 1 := Scalar.cmpi .ne v893 c0_i32_508
  v894

def k0_cond180 (v896 : BitVec 32) : BitVec 1 :=
  let c3_i32_510 : BitVec 32 := 3#32
  let v897 : BitVec 1 := Scalar.cmpi .eq v896 c3_i32_510
  let v898 : BitVec 32 := Scalar.extui v897
  let c0_i32_511 : BitVec 32 := 0#32
  let v899 : BitVec 1 := Scalar.cmpi .ne v898 c0_i32_511
  v899

def k0_cond181 (v901 : BitVec 32) : BitVec 1 :=
  let c4_i32_513 : BitVec 32 := 4#32
  let v902 : BitVec 1 := Scalar.cmpi .eq v901 c4_i32_513
  let v903 : BitVec 32 := Scalar.extui v902
  let c0_i32_514 : BitVec 32 := 0#32
  let v904 : BitVec 1 := Scalar.cmpi .ne v903 c0_i32_514
  v904

def k0_cond182 (v906 : BitVec 32) : BitVec 1 :=
  let c5_i32_516 : BitVec 32 := 5#32
  let v907 : BitVec 1 := Scalar.cmpi .eq v906 c5_i32_516
  let v908 : BitVec 32 := Scalar.extui v907
  let c0_i32_517 : BitVec 32 := 0#32
  let v909 : BitVec 1 := Scalar.cmpi .ne v908 c0_i32_517
  v909

def k0_cond183 (v911 : BitVec 32) : BitVec 1 :=
  let c6_i32_519 : BitVec 32 := 6#32
  let v912 : BitVec 1 := Scalar.cmpi .eq v911 c6_i32_519
  let v913 : BitVec 32 := Scalar.extui v912
  let c0_i32_520 : BitVec 32 := 0#32
  let v914 : BitVec 1 := Scalar.cmpi .ne v913 c0_i32_520
  v914

def k0_cond184 (v916 : BitVec 32) : BitVec 1 :=
  let c7_i32_522 : BitVec 32 := 7#32
  let v917 : BitVec 1 := Scalar.cmpi .eq v916 c7_i32_522
  let v918 : BitVec 32 := Scalar.extui v917
  let c0_i32_523 : BitVec 32 := 0#32
  let v919 : BitVec 1 := Scalar.cmpi .ne v918 c0_i32_523
  v919

def k0_cond185 (v921 : BitVec 32) : BitVec 1 :=
  let c8_i32_525 : BitVec 32 := 8#32
  let v922 : BitVec 1 := Scalar.cmpi .eq v921 c8_i32_525
  let v923 : BitVec 32 := Scalar.extui v922
  let c0_i32_526 : BitVec 32 := 0#32
  let v924 : BitVec 1 := Scalar.cmpi .ne v923 c0_i32_526
  v924

def k0_cond186 (v926 : BitVec 32) : BitVec 1 :=
  let c9_i32_528 : BitVec 32 := 9#32
  let v927 : BitVec 1 := Scalar.cmpi .eq v926 c9_i32_528
  let v928 : BitVec 32 := Scalar.extui v927
  let c0_i32_529 : BitVec 32 := 0#32
  let v929 : BitVec 1 := Scalar.cmpi .ne v928 c0_i32_529
  v929

def k0_cond187 (v931 : BitVec 32) : BitVec 1 :=
  let c10_i32_531 : BitVec 32 := 10#32
  let v932 : BitVec 1 := Scalar.cmpi .eq v931 c10_i32_531
  let v933 : BitVec 32 := Scalar.extui v932
  let c0_i32_532 : BitVec 32 := 0#32
  let v934 : BitVec 1 := Scalar.cmpi .ne v933 c0_i32_532
  v934

def k0_cond188 (v936 : BitVec 32) : BitVec 1 :=
  let c11_i32_534 : BitVec 32 := 11#32
  let v937 : BitVec 1 := Scalar.cmpi .eq v936 c11_i32_534
  let v938 : BitVec 32 := Scalar.extui v937
  let c0_i32_535 : BitVec 32 := 0#32
  let v939 : BitVec 1 := Scalar.cmpi .ne v938 c0_i32_535
  v939

def k0_cond189 (v941 : BitVec 32) : BitVec 1 :=
  let c12_i32_537 : BitVec 32 := 12#32
  let v942 : BitVec 1 := Scalar.cmpi .eq v941 c12_i32_537
  let v943 : BitVec 32 := Scalar.extui v942
  let c0_i32_538 : BitVec 32 := 0#32
  let v944 : BitVec 1 := Scalar.cmpi .ne v943 c0_i32_538
  v944

def k0_cond190 (v946 : BitVec 32) : BitVec 1 :=
  let c13_i32_540 : BitVec 32 := 13#32
  let v947 : BitVec 1 := Scalar.cmpi .eq v946 c13_i32_540
  let v948 : BitVec 32 := Scalar.extui v947
  let c0_i32_541 : BitVec 32 := 0#32
  let v949 : BitVec 1 := Scalar.cmpi .ne v948 c0_i32_541
  v949

def k0_cond191 (v951 : BitVec 32) : BitVec 1 :=
  let c14_i32_543 : BitVec 32 := 14#32
  let v952 : BitVec 1 := Scalar.cmpi .eq v951 c14_i32_543
  let v953 : BitVec 32 := Scalar.extui v952
  let c0_i32_544 : BitVec 32 := 0#32
  let v954 : BitVec 1 := Scalar.cmpi .ne v953 c0_i32_544
  v954

def k0_cond192 (v956 : BitVec 32) : BitVec 1 :=
  let c15_i32_546 : BitVec 32 := 15#32
  let v957 : BitVec 1 := Scalar.cmpi .eq v956 c15_i32_546
  let v958 : BitVec 32 := Scalar.extui v957
  let c0_i32_547 : BitVec 32 := 0#32
  let v959 : BitVec 1 := Scalar.cmpi .ne v958 c0_i32_547
  v959

def k0_cond193 (v961 : BitVec 32) : BitVec 1 :=
  let c0_i32_548 : BitVec 32 := 0#32
  let v962 : BitVec 1 := Scalar.cmpi .eq v961 c0_i32_548
  let v963 : BitVec 32 := Scalar.extui v962
  let c0_i32_549 : BitVec 32 := 0#32
  let v964 : BitVec 1 := Scalar.cmpi .ne v963 c0_i32_549
  v964

def k0_cond194 (v966 : BitVec 32) : BitVec 1 :=
  let c1_i32_551 : BitVec 32 := 1#32
  let v967 : BitVec 1 := Scalar.cmpi .eq v966 c1_i32_551
  let v968 : BitVec 32 := Scalar.extui v967
  let c0_i32_552 : BitVec 32 := 0#32
  let v969 : BitVec 1 := Scalar.cmpi .ne v968 c0_i32_552
  v969

def k0_cond195 (v971 : BitVec 32) : BitVec 1 :=
  let c2_i32_554 : BitVec 32 := 2#32
  let v972 : BitVec 1 := Scalar.cmpi .eq v971 c2_i32_554
  let v973 : BitVec 32 := Scalar.extui v972
  let c0_i32_555 : BitVec 32 := 0#32
  let v974 : BitVec 1 := Scalar.cmpi .ne v973 c0_i32_555
  v974

def k0_cond196 (v976 : BitVec 32) : BitVec 1 :=
  let c3_i32_557 : BitVec 32 := 3#32
  let v977 : BitVec 1 := Scalar.cmpi .eq v976 c3_i32_557
  let v978 : BitVec 32 := Scalar.extui v977
  let c0_i32_558 : BitVec 32 := 0#32
  let v979 : BitVec 1 := Scalar.cmpi .ne v978 c0_i32_558
  v979

def k0_cond197 (v981 : BitVec 32) : BitVec 1 :=
  let c4_i32_560 : BitVec 32 := 4#32
  let v982 : BitVec 1 := Scalar.cmpi .eq v981 c4_i32_560
  let v983 : BitVec 32 := Scalar.extui v982
  let c0_i32_561 : BitVec 32 := 0#32
  let v984 : BitVec 1 := Scalar.cmpi .ne v983 c0_i32_561
  v984

def k0_cond198 (v986 : BitVec 32) : BitVec 1 :=
  let c5_i32_563 : BitVec 32 := 5#32
  let v987 : BitVec 1 := Scalar.cmpi .eq v986 c5_i32_563
  let v988 : BitVec 32 := Scalar.extui v987
  let c0_i32_564 : BitVec 32 := 0#32
  let v989 : BitVec 1 := Scalar.cmpi .ne v988 c0_i32_564
  v989

def k0_cond199 (v991 : BitVec 32) : BitVec 1 :=
  let c6_i32_566 : BitVec 32 := 6#32
  let v992 : BitVec 1 := Scalar.cmpi .eq v991 c6_i32_566
  let v993 : BitVec 32 := Scalar.extui v992
  let c0_i32_567 : BitVec 32 := 0#32
  let v994 : BitVec 1 := Scalar.cmpi .ne v993 c0_i32_567
  v994

def k0_cond200 (v996 : BitVec 32) : BitVec 1 :=
  let c7_i32_569 : BitVec 32 := 7#32
  let v997 : BitVec 1 := Scalar.cmpi .eq v996 c7_i32_569
  let v998 : BitVec 32 := Scalar.extui v997
  let c0_i32_570 : BitVec 32 := 0#32
  let v999 : BitVec 1 := Scalar.cmpi .ne v998 c0_i32_570
  v999

def k0_cond201 (v1001 : BitVec 32) : BitVec 1 :=
  let c8_i32_572 : BitVec 32 := 8#32
  let v1002 : BitVec 1 := Scalar.cmpi .eq v1001 c8_i32_572
  let v1003 : BitVec 32 := Scalar.extui v1002
  let c0_i32_573 : BitVec 32 := 0#32
  let v1004 : BitVec 1 := Scalar.cmpi .ne v1003 c0_i32_573
  v1004

def k0_cond202 (v1006 : BitVec 32) : BitVec 1 :=
  let c9_i32_575 : BitVec 32 := 9#32
  let v1007 : BitVec 1 := Scalar.cmpi .eq v1006 c9_i32_575
  let v1008 : BitVec 32 := Scalar.extui v1007
  let c0_i32_576 : BitVec 32 := 0#32
  let v1009 : BitVec 1 := Scalar.cmpi .ne v1008 c0_i32_576
  v1009

def k0_cond203 (v1011 : BitVec 32) : BitVec 1 :=
  let c10_i32_578 : BitVec 32 := 10#32
  let v1012 : BitVec 1 := Scalar.cmpi .eq v1011 c10_i32_578
  let v1013 : BitVec 32 := Scalar.extui v1012
  let c0_i32_579 : BitVec 32 := 0#32
  let v1014 : BitVec 1 := Scalar.cmpi .ne v1013 c0_i32_579
  v1014

def k0_cond204 (v1016 : BitVec 32) : BitVec 1 :=
  let c11_i32_581 : BitVec 32 := 11#32
  let v1017 : BitVec 1 := Scalar.cmpi .eq v1016 c11_i32_581
  let v1018 : BitVec 32 := Scalar.extui v1017
  let c0_i32_582 : BitVec 32 := 0#32
  let v1019 : BitVec 1 := Scalar.cmpi .ne v1018 c0_i32_582
  v1019

def k0_cond205 (v1021 : BitVec 32) : BitVec 1 :=
  let c12_i32_584 : BitVec 32 := 12#32
  let v1022 : BitVec 1 := Scalar.cmpi .eq v1021 c12_i32_584
  let v1023 : BitVec 32 := Scalar.extui v1022
  let c0_i32_585 : BitVec 32 := 0#32
  let v1024 : BitVec 1 := Scalar.cmpi .ne v1023 c0_i32_585
  v1024

def k0_cond206 (v1026 : BitVec 32) : BitVec 1 :=
  let c13_i32_587 : BitVec 32 := 13#32
  let v1027 : BitVec 1 := Scalar.cmpi .eq v1026 c13_i32_587
  let v1028 : BitVec 32 := Scalar.extui v1027
  let c0_i32_588 : BitVec 32 := 0#32
  let v1029 : BitVec 1 := Scalar.cmpi .ne v1028 c0_i32_588
  v1029

def k0_cond207 (v1031 : BitVec 32) : BitVec 1 :=
  let c14_i32_590 : BitVec 32 := 14#32
  let v1032 : BitVec 1 := Scalar.cmpi .eq v1031 c14_i32_590
  let v1033 : BitVec 32 := Scalar.extui v1032
  let c0_i32_591 : BitVec 32 := 0#32
  let v1034 : BitVec 1 := Scalar.cmpi .ne v1033 c0_i32_591
  v1034

def k0_cond208 (v1036 : BitVec 32) : BitVec 1 :=
  let c15_i32_593 : BitVec 32 := 15#32
  let v1037 : BitVec 1 := Scalar.cmpi .eq v1036 c15_i32_593
  let v1038 : BitVec 32 := Scalar.extui v1037
  let c0_i32_594 : BitVec 32 := 0#32
  let v1039 : BitVec 1 := Scalar.cmpi .ne v1038 c0_i32_594
  v1039

def k0_cond209 (v1041 : BitVec 32) : BitVec 1 :=
  let c0_i32_595 : BitVec 32 := 0#32
  let v1042 : BitVec 1 := Scalar.cmpi .eq v1041 c0_i32_595
  let v1043 : BitVec 32 := Scalar.extui v1042
  let c0_i32_596 : BitVec 32 := 0#32
  let v1044 : BitVec 1 := Scalar.cmpi .ne v1043 c0_i32_596
  v1044

def k0_cond210 (v1046 : BitVec 32) : BitVec 1 :=
  let c1_i32_598 : BitVec 32 := 1#32
  let v1047 : BitVec 1 := Scalar.cmpi .eq v1046 c1_i32_598
  let v1048 : BitVec 32 := Scalar.extui v1047
  let c0_i32_599 : BitVec 32 := 0#32
  let v1049 : BitVec 1 := Scalar.cmpi .ne v1048 c0_i32_599
  v1049

def k0_cond211 (v1051 : BitVec 32) : BitVec 1 :=
  let c2_i32_601 : BitVec 32 := 2#32
  let v1052 : BitVec 1 := Scalar.cmpi .eq v1051 c2_i32_601
  let v1053 : BitVec 32 := Scalar.extui v1052
  let c0_i32_602 : BitVec 32 := 0#32
  let v1054 : BitVec 1 := Scalar.cmpi .ne v1053 c0_i32_602
  v1054

def k0_cond212 (v1056 : BitVec 32) : BitVec 1 :=
  let c3_i32_604 : BitVec 32 := 3#32
  let v1057 : BitVec 1 := Scalar.cmpi .eq v1056 c3_i32_604
  let v1058 : BitVec 32 := Scalar.extui v1057
  let c0_i32_605 : BitVec 32 := 0#32
  let v1059 : BitVec 1 := Scalar.cmpi .ne v1058 c0_i32_605
  v1059

def k0_cond213 (v1061 : BitVec 32) : BitVec 1 :=
  let c4_i32_607 : BitVec 32 := 4#32
  let v1062 : BitVec 1 := Scalar.cmpi .eq v1061 c4_i32_607
  let v1063 : BitVec 32 := Scalar.extui v1062
  let c0_i32_608 : BitVec 32 := 0#32
  let v1064 : BitVec 1 := Scalar.cmpi .ne v1063 c0_i32_608
  v1064

def k0_cond214 (v1066 : BitVec 32) : BitVec 1 :=
  let c5_i32_610 : BitVec 32 := 5#32
  let v1067 : BitVec 1 := Scalar.cmpi .eq v1066 c5_i32_610
  let v1068 : BitVec 32 := Scalar.extui v1067
  let c0_i32_611 : BitVec 32 := 0#32
  let v1069 : BitVec 1 := Scalar.cmpi .ne v1068 c0_i32_611
  v1069

def k0_cond215 (v1071 : BitVec 32) : BitVec 1 :=
  let c6_i32_613 : BitVec 32 := 6#32
  let v1072 : BitVec 1 := Scalar.cmpi .eq v1071 c6_i32_613
  let v1073 : BitVec 32 := Scalar.extui v1072
  let c0_i32_614 : BitVec 32 := 0#32
  let v1074 : BitVec 1 := Scalar.cmpi .ne v1073 c0_i32_614
  v1074

def k0_cond216 (v1076 : BitVec 32) : BitVec 1 :=
  let c7_i32_616 : BitVec 32 := 7#32
  let v1077 : BitVec 1 := Scalar.cmpi .eq v1076 c7_i32_616
  let v1078 : BitVec 32 := Scalar.extui v1077
  let c0_i32_617 : BitVec 32 := 0#32
  let v1079 : BitVec 1 := Scalar.cmpi .ne v1078 c0_i32_617
  v1079

def k0_cond217 (v1081 : BitVec 32) : BitVec 1 :=
  let c8_i32_619 : BitVec 32 := 8#32
  let v1082 : BitVec 1 := Scalar.cmpi .eq v1081 c8_i32_619
  let v1083 : BitVec 32 := Scalar.extui v1082
  let c0_i32_620 : BitVec 32 := 0#32
  let v1084 : BitVec 1 := Scalar.cmpi .ne v1083 c0_i32_620
  v1084

def k0_cond218 (v1086 : BitVec 32) : BitVec 1 :=
  let c9_i32_622 : BitVec 32 := 9#32
  let v1087 : BitVec 1 := Scalar.cmpi .eq v1086 c9_i32_622
  let v1088 : BitVec 32 := Scalar.extui v1087
  let c0_i32_623 : BitVec 32 := 0#32
  let v1089 : BitVec 1 := Scalar.cmpi .ne v1088 c0_i32_623
  v1089

def k0_cond219 (v1091 : BitVec 32) : BitVec 1 :=
  let c10_i32_625 : BitVec 32 := 10#32
  let v1092 : BitVec 1 := Scalar.cmpi .eq v1091 c10_i32_625
  let v1093 : BitVec 32 := Scalar.extui v1092
  let c0_i32_626 : BitVec 32 := 0#32
  let v1094 : BitVec 1 := Scalar.cmpi .ne v1093 c0_i32_626
  v1094

def k0_cond220 (v1096 : BitVec 32) : BitVec 1 :=
  let c11_i32_628 : BitVec 32 := 11#32
  let v1097 : BitVec 1 := Scalar.cmpi .eq v1096 c11_i32_628
  let v1098 : BitVec 32 := Scalar.extui v1097
  let c0_i32_629 : BitVec 32 := 0#32
  let v1099 : BitVec 1 := Scalar.cmpi .ne v1098 c0_i32_629
  v1099

def k0_cond221 (v1101 : BitVec 32) : BitVec 1 :=
  let c12_i32_631 : BitVec 32 := 12#32
  let v1102 : BitVec 1 := Scalar.cmpi .eq v1101 c12_i32_631
  let v1103 : BitVec 32 := Scalar.extui v1102
  let c0_i32_632 : BitVec 32 := 0#32
  let v1104 : BitVec 1 := Scalar.cmpi .ne v1103 c0_i32_632
  v1104

def k0_cond222 (v1106 : BitVec 32) : BitVec 1 :=
  let c13_i32_634 : BitVec 32 := 13#32
  let v1107 : BitVec 1 := Scalar.cmpi .eq v1106 c13_i32_634
  let v1108 : BitVec 32 := Scalar.extui v1107
  let c0_i32_635 : BitVec 32 := 0#32
  let v1109 : BitVec 1 := Scalar.cmpi .ne v1108 c0_i32_635
  v1109

def k0_cond223 (v1111 : BitVec 32) : BitVec 1 :=
  let c14_i32_637 : BitVec 32 := 14#32
  let v1112 : BitVec 1 := Scalar.cmpi .eq v1111 c14_i32_637
  let v1113 : BitVec 32 := Scalar.extui v1112
  let c0_i32_638 : BitVec 32 := 0#32
  let v1114 : BitVec 1 := Scalar.cmpi .ne v1113 c0_i32_638
  v1114

def k0_cond224 (v1116 : BitVec 32) : BitVec 1 :=
  let c15_i32_640 : BitVec 32 := 15#32
  let v1117 : BitVec 1 := Scalar.cmpi .eq v1116 c15_i32_640
  let v1118 : BitVec 32 := Scalar.extui v1117
  let c0_i32_641 : BitVec 32 := 0#32
  let v1119 : BitVec 1 := Scalar.cmpi .ne v1118 c0_i32_641
  v1119

def k0_cond225 (v1121 : BitVec 32) : BitVec 1 :=
  let c0_i32_642 : BitVec 32 := 0#32
  let v1122 : BitVec 1 := Scalar.cmpi .eq v1121 c0_i32_642
  let v1123 : BitVec 32 := Scalar.extui v1122
  let c0_i32_643 : BitVec 32 := 0#32
  let v1124 : BitVec 1 := Scalar.cmpi .ne v1123 c0_i32_643
  v1124

def k0_cond226 (v1126 : BitVec 32) : BitVec 1 :=
  let c1_i32_645 : BitVec 32 := 1#32
  let v1127 : BitVec 1 := Scalar.cmpi .eq v1126 c1_i32_645
  let v1128 : BitVec 32 := Scalar.extui v1127
  let c0_i32_646 : BitVec 32 := 0#32
  let v1129 : BitVec 1 := Scalar.cmpi .ne v1128 c0_i32_646
  v1129

def k0_cond227 (v1131 : BitVec 32) : BitVec 1 :=
  let c2_i32_648 : BitVec 32 := 2#32
  let v1132 : BitVec 1 := Scalar.cmpi .eq v1131 c2_i32_648
  let v1133 : BitVec 32 := Scalar.extui v1132
  let c0_i32_649 : BitVec 32 := 0#32
  let v1134 : BitVec 1 := Scalar.cmpi .ne v1133 c0_i32_649
  v1134

def k0_cond228 (v1136 : BitVec 32) : BitVec 1 :=
  let c3_i32_651 : BitVec 32 := 3#32
  let v1137 : BitVec 1 := Scalar.cmpi .eq v1136 c3_i32_651
  let v1138 : BitVec 32 := Scalar.extui v1137
  let c0_i32_652 : BitVec 32 := 0#32
  let v1139 : BitVec 1 := Scalar.cmpi .ne v1138 c0_i32_652
  v1139

def k0_cond229 (v1141 : BitVec 32) : BitVec 1 :=
  let c4_i32_654 : BitVec 32 := 4#32
  let v1142 : BitVec 1 := Scalar.cmpi .eq v1141 c4_i32_654
  let v1143 : BitVec 32 := Scalar.extui v1142
  let c0_i32_655 : BitVec 32 := 0#32
  let v1144 : BitVec 1 := Scalar.cmpi .ne v1143 c0_i32_655
  v1144

def k0_cond230 (v1146 : BitVec 32) : BitVec 1 :=
  let c5_i32_657 : BitVec 32 := 5#32
  let v1147 : BitVec 1 := Scalar.cmpi .eq v1146 c5_i32_657
  let v1148 : BitVec 32 := Scalar.extui v1147
  let c0_i32_658 : BitVec 32 := 0#32
  let v1149 : BitVec 1 := Scalar.cmpi .ne v1148 c0_i32_658
  v1149

def k0_cond231 (v1151 : BitVec 32) : BitVec 1 :=
  let c6_i32_660 : BitVec 32 := 6#32
  let v1152 : BitVec 1 := Scalar.cmpi .eq v1151 c6_i32_660
  let v1153 : BitVec 32 := Scalar.extui v1152
  let c0_i32_661 : BitVec 32 := 0#32
  let v1154 : BitVec 1 := Scalar.cmpi .ne v1153 c0_i32_661
  v1154

def k0_cond232 (v1156 : BitVec 32) : BitVec 1 :=
  let c7_i32_663 : BitVec 32 := 7#32
  let v1157 : BitVec 1 := Scalar.cmpi .eq v1156 c7_i32_663
  let v1158 : BitVec 32 := Scalar.extui v1157
  let c0_i32_664 : BitVec 32 := 0#32
  let v1159 : BitVec 1 := Scalar.cmpi .ne v1158 c0_i32_664
  v1159

def k0_cond233 (v1161 : BitVec 32) : BitVec 1 :=
  let c8_i32_666 : BitVec 32 := 8#32
  let v1162 : BitVec 1 := Scalar.cmpi .eq v1161 c8_i32_666
  let v1163 : BitVec 32 := Scalar.extui v1162
  let c0_i32_667 : BitVec 32 := 0#32
  let v1164 : BitVec 1 := Scalar.cmpi .ne v1163 c0_i32_667
  v1164

def k0_cond234 (v1166 : BitVec 32) : BitVec 1 :=
  let c9_i32_669 : BitVec 32 := 9#32
  let v1167 : BitVec 1 := Scalar.cmpi .eq v1166 c9_i32_669
  let v1168 : BitVec 32 := Scalar.extui v1167
  let c0_i32_670 : BitVec 32 := 0#32
  let v1169 : BitVec 1 := Scalar.cmpi .ne v1168 c0_i32_670
  v1169

def k0_cond235 (v1171 : BitVec 32) : BitVec 1 :=
  let c10_i32_672 : BitVec 32 := 10#32
  let v1172 : BitVec 1 := Scalar.cmpi .eq v1171 c10_i32_672
  let v1173 : BitVec 32 := Scalar.extui v1172
  let c0_i32_673 : BitVec 32 := 0#32
  let v1174 : BitVec 1 := Scalar.cmpi .ne v1173 c0_i32_673
  v1174

def k0_cond236 (v1176 : BitVec 32) : BitVec 1 :=
  let c11_i32_675 : BitVec 32 := 11#32
  let v1177 : BitVec 1 := Scalar.cmpi .eq v1176 c11_i32_675
  let v1178 : BitVec 32 := Scalar.extui v1177
  let c0_i32_676 : BitVec 32 := 0#32
  let v1179 : BitVec 1 := Scalar.cmpi .ne v1178 c0_i32_676
  v1179

def k0_cond237 (v1181 : BitVec 32) : BitVec 1 :=
  let c12_i32_678 : BitVec 32 := 12#32
  let v1182 : BitVec 1 := Scalar.cmpi .eq v1181 c12_i32_678
  let v1183 : BitVec 32 := Scalar.extui v1182
  let c0_i32_679 : BitVec 32 := 0#32
  let v1184 : BitVec 1 := Scalar.cmpi .ne v1183 c0_i32_679
  v1184

def k0_cond238 (v1186 : BitVec 32) : BitVec 1 :=
  let c13_i32_681 : BitVec 32 := 13#32
  let v1187 : BitVec 1 := Scalar.cmpi .eq v1186 c13_i32_681
  let v1188 : BitVec 32 := Scalar.extui v1187
  let c0_i32_682 : BitVec 32 := 0#32
  let v1189 : BitVec 1 := Scalar.cmpi .ne v1188 c0_i32_682
  v1189

def k0_cond239 (v1191 : BitVec 32) : BitVec 1 :=
  let c14_i32_684 : BitVec 32 := 14#32
  let v1192 : BitVec 1 := Scalar.cmpi .eq v1191 c14_i32_684
  let v1193 : BitVec 32 := Scalar.extui v1192
  let c0_i32_685 : BitVec 32 := 0#32
  let v1194 : BitVec 1 := Scalar.cmpi .ne v1193 c0_i32_685
  v1194

def k0_cond240 (v1196 : BitVec 32) : BitVec 1 :=
  let c15_i32_687 : BitVec 32 := 15#32
  let v1197 : BitVec 1 := Scalar.cmpi .eq v1196 c15_i32_687
  let v1198 : BitVec 32 := Scalar.extui v1197
  let c0_i32_688 : BitVec 32 := 0#32
  let v1199 : BitVec 1 := Scalar.cmpi .ne v1198 c0_i32_688
  v1199

def k0_cond241 (v1201 : BitVec 32) : BitVec 1 :=
  let c0_i32_689 : BitVec 32 := 0#32
  let v1202 : BitVec 1 := Scalar.cmpi .eq v1201 c0_i32_689
  let v1203 : BitVec 32 := Scalar.extui v1202
  let c0_i32_690 : BitVec 32 := 0#32
  let v1204 : BitVec 1 := Scalar.cmpi .ne v1203 c0_i32_690
  v1204

def k0_cond242 (v1206 : BitVec 32) : BitVec 1 :=
  let c1_i32_692 : BitVec 32 := 1#32
  let v1207 : BitVec 1 := Scalar.cmpi .eq v1206 c1_i32_692
  let v1208 : BitVec 32 := Scalar.extui v1207
  let c0_i32_693 : BitVec 32 := 0#32
  let v1209 : BitVec 1 := Scalar.cmpi .ne v1208 c0_i32_693
  v1209

def k0_cond243 (v1211 : BitVec 32) : BitVec 1 :=
  let c2_i32_695 : BitVec 32 := 2#32
  let v1212 : BitVec 1 := Scalar.cmpi .eq v1211 c2_i32_695
  let v1213 : BitVec 32 := Scalar.extui v1212
  let c0_i32_696 : BitVec 32 := 0#32
  let v1214 : BitVec 1 := Scalar.cmpi .ne v1213 c0_i32_696
  v1214

def k0_cond244 (v1216 : BitVec 32) : BitVec 1 :=
  let c3_i32_698 : BitVec 32 := 3#32
  let v1217 : BitVec 1 := Scalar.cmpi .eq v1216 c3_i32_698
  let v1218 : BitVec 32 := Scalar.extui v1217
  let c0_i32_699 : BitVec 32 := 0#32
  let v1219 : BitVec 1 := Scalar.cmpi .ne v1218 c0_i32_699
  v1219

def k0_cond245 (v1221 : BitVec 32) : BitVec 1 :=
  let c4_i32_701 : BitVec 32 := 4#32
  let v1222 : BitVec 1 := Scalar.cmpi .eq v1221 c4_i32_701
  let v1223 : BitVec 32 := Scalar.extui v1222
  let c0_i32_702 : BitVec 32 := 0#32
  let v1224 : BitVec 1 := Scalar.cmpi .ne v1223 c0_i32_702
  v1224

def k0_cond246 (v1226 : BitVec 32) : BitVec 1 :=
  let c5_i32_704 : BitVec 32 := 5#32
  let v1227 : BitVec 1 := Scalar.cmpi .eq v1226 c5_i32_704
  let v1228 : BitVec 32 := Scalar.extui v1227
  let c0_i32_705 : BitVec 32 := 0#32
  let v1229 : BitVec 1 := Scalar.cmpi .ne v1228 c0_i32_705
  v1229

def k0_cond247 (v1231 : BitVec 32) : BitVec 1 :=
  let c6_i32_707 : BitVec 32 := 6#32
  let v1232 : BitVec 1 := Scalar.cmpi .eq v1231 c6_i32_707
  let v1233 : BitVec 32 := Scalar.extui v1232
  let c0_i32_708 : BitVec 32 := 0#32
  let v1234 : BitVec 1 := Scalar.cmpi .ne v1233 c0_i32_708
  v1234

def k0_cond248 (v1236 : BitVec 32) : BitVec 1 :=
  let c7_i32_710 : BitVec 32 := 7#32
  let v1237 : BitVec 1 := Scalar.cmpi .eq v1236 c7_i32_710
  let v1238 : BitVec 32 := Scalar.extui v1237
  let c0_i32_711 : BitVec 32 := 0#32
  let v1239 : BitVec 1 := Scalar.cmpi .ne v1238 c0_i32_711
  v1239

def k0_cond249 (v1241 : BitVec 32) : BitVec 1 :=
  let c8_i32_713 : BitVec 32 := 8#32
  let v1242 : BitVec 1 := Scalar.cmpi .eq v1241 c8_i32_713
  let v1243 : BitVec 32 := Scalar.extui v1242
  let c0_i32_714 : BitVec 32 := 0#32
  let v1244 : BitVec 1 := Scalar.cmpi .ne v1243 c0_i32_714
  v1244

def k0_cond250 (v1246 : BitVec 32) : BitVec 1 :=
  let c9_i32_716 : BitVec 32 := 9#32
  let v1247 : BitVec 1 := Scalar.cmpi .eq v1246 c9_i32_716
  let v1248 : BitVec 32 := Scalar.extui v1247
  let c0_i32_717 : BitVec 32 := 0#32
  let v1249 : BitVec 1 := Scalar.cmpi .ne v1248 c0_i32_717
  v1249

def k0_cond251 (v1251 : BitVec 32) : BitVec 1 :=
  let c10_i32_719 : BitVec 32 := 10#32
  let v1252 : BitVec 1 := Scalar.cmpi .eq v1251 c10_i32_719
  let v1253 : BitVec 32 := Scalar.extui v1252
  let c0_i32_720 : BitVec 32 := 0#32
  let v1254 : BitVec 1 := Scalar.cmpi .ne v1253 c0_i32_720
  v1254

def k0_cond252 (v1256 : BitVec 32) : BitVec 1 :=
  let c11_i32_722 : BitVec 32 := 11#32
  let v1257 : BitVec 1 := Scalar.cmpi .eq v1256 c11_i32_722
  let v1258 : BitVec 32 := Scalar.extui v1257
  let c0_i32_723 : BitVec 32 := 0#32
  let v1259 : BitVec 1 := Scalar.cmpi .ne v1258 c0_i32_723
  v1259

def k0_cond253 (v1261 : BitVec 32) : BitVec 1 :=
  let c12_i32_725 : BitVec 32 := 12#32
  let v1262 : BitVec 1 := Scalar.cmpi .eq v1261 c12_i32_725
  let v1263 : BitVec 32 := Scalar.extui v1262
  let c0_i32_726 : BitVec 32 := 0#32
  let v1264 : BitVec 1 := Scalar.cmpi .ne v1263 c0_i32_726
  v1264

def k0_cond254 (v1266 : BitVec 32) : BitVec 1 :=
  let c13_i32_728 : BitVec 32 := 13#32
  let v1267 : BitVec 1 := Scalar.cmpi .eq v1266 c13_i32_728
  let v1268 : BitVec 32 := Scalar.extui v1267
  let c0_i32_729 : BitVec 32 := 0#32
  let v1269 : BitVec 1 := Scalar.cmpi .ne v1268 c0_i32_729
  v1269

def k0_cond255 (v1271 : BitVec 32) : BitVec 1 :=
  let c14_i32_731 : BitVec 32 := 14#32
  let v1272 : BitVec 1 := Scalar.cmpi .eq v1271 c14_i32_731
  let v1273 : BitVec 32 := Scalar.extui v1272
  let c0_i32_732 : BitVec 32 := 0#32
  let v1274 : BitVec 1 := Scalar.cmpi .ne v1273 c0_i32_732
  v1274

def k0_cond256 (v1276 : BitVec 32) : BitVec 1 :=
  let c15_i32_734 : BitVec 32 := 15#32
  let v1277 : BitVec 1 := Scalar.cmpi .eq v1276 c15_i32_734
  let v1278 : BitVec 32 := Scalar.extui v1277
  let c0_i32_735 : BitVec 32 := 0#32
  let v1279 : BitVec 1 := Scalar.cmpi .ne v1278 c0_i32_735
  v1279

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1x1 : S1x1.numel = 1
  inb_S1x32x224x224_S1x32x56x56_0_0_0_0 : ∀ a, (![0, 0, 0, 0] : Fin 4 → Nat) a + S1x32x56x56.size a ≤ S1x32x224x224.size a
  h_S1x32x56x56 : 0 < S1x32x56x56.numel
  shapeCasts_S1x32x56x56_S32x56x56 : S1x32x56x56.ShapeCasts S32x56x56
  shapeCasts_S32x56x56_S1x32x56x56 : S32x56x56.ShapeCasts S1x32x56x56
  inb_S1x32x224x224_S1x32x56x56_0_0_0_56 : ∀ a, (![0, 0, 0, 56] : Fin 4 → Nat) a + S1x32x56x56.size a ≤ S1x32x224x224.size a
  inb_S1x32x224x224_S1x32x56x56_0_0_0_112 : ∀ a, (![0, 0, 0, 112] : Fin 4 → Nat) a + S1x32x56x56.size a ≤ S1x32x224x224.size a
  inb_S1x32x224x224_S1x32x56x56_0_0_0_168 : ∀ a, (![0, 0, 0, 168] : Fin 4 → Nat) a + S1x32x56x56.size a ≤ S1x32x224x224.size a
  inb_S1x32x224x224_S1x32x56x56_0_0_56_0 : ∀ a, (![0, 0, 56, 0] : Fin 4 → Nat) a + S1x32x56x56.size a ≤ S1x32x224x224.size a
  inb_S1x32x224x224_S1x32x56x56_0_0_56_56 : ∀ a, (![0, 0, 56, 56] : Fin 4 → Nat) a + S1x32x56x56.size a ≤ S1x32x224x224.size a
  inb_S1x32x224x224_S1x32x56x56_0_0_56_112 : ∀ a, (![0, 0, 56, 112] : Fin 4 → Nat) a + S1x32x56x56.size a ≤ S1x32x224x224.size a
  inb_S1x32x224x224_S1x32x56x56_0_0_56_168 : ∀ a, (![0, 0, 56, 168] : Fin 4 → Nat) a + S1x32x56x56.size a ≤ S1x32x224x224.size a
  inb_S1x32x224x224_S1x32x56x56_0_0_112_0 : ∀ a, (![0, 0, 112, 0] : Fin 4 → Nat) a + S1x32x56x56.size a ≤ S1x32x224x224.size a
  inb_S1x32x224x224_S1x32x56x56_0_0_112_56 : ∀ a, (![0, 0, 112, 56] : Fin 4 → Nat) a + S1x32x56x56.size a ≤ S1x32x224x224.size a
  inb_S1x32x224x224_S1x32x56x56_0_0_112_112 : ∀ a, (![0, 0, 112, 112] : Fin 4 → Nat) a + S1x32x56x56.size a ≤ S1x32x224x224.size a
  inb_S1x32x224x224_S1x32x56x56_0_0_112_168 : ∀ a, (![0, 0, 112, 168] : Fin 4 → Nat) a + S1x32x56x56.size a ≤ S1x32x224x224.size a
  inb_S1x32x224x224_S1x32x56x56_0_0_168_0 : ∀ a, (![0, 0, 168, 0] : Fin 4 → Nat) a + S1x32x56x56.size a ≤ S1x32x224x224.size a
  inb_S1x32x224x224_S1x32x56x56_0_0_168_56 : ∀ a, (![0, 0, 168, 56] : Fin 4 → Nat) a + S1x32x56x56.size a ≤ S1x32x224x224.size a
  inb_S1x32x224x224_S1x32x56x56_0_0_168_112 : ∀ a, (![0, 0, 168, 112] : Fin 4 → Nat) a + S1x32x56x56.size a ≤ S1x32x224x224.size a
  inb_S1x32x224x224_S1x32x56x56_0_0_168_168 : ∀ a, (![0, 0, 168, 168] : Fin 4 → Nat) a + S1x32x56x56.size a ≤ S1x32x224x224.size a
  hrank0 : 0 < grid0.rank
  k0_off1_inb : ∀ i : grid0.Coords, ∀ a, (k0_off1 i) a + S1x1.size a ≤ S16x16.size a
  k0_off2_inb : ∀ i : grid0.Coords, ∀ a, (k0_off2 i) a + S1x1.size a ≤ S16x16.size a
  k0_off3_inb : ∀ i : grid0.Coords, ∀ a, (k0_off3 i) a + S1x1.size a ≤ S16x16.size a
  k0_off4_inb : ∀ i : grid0.Coords, ∀ a, (k0_off4 i) a + S1x1.size a ≤ S16x16.size a
  k0_off5_inb : ∀ i : grid0.Coords, ∀ a, (k0_off5 i) a + S1x1.size a ≤ S16x16.size a
  k0_off6_inb : ∀ i : grid0.Coords, ∀ a, (k0_off6 i) a + S1x1.size a ≤ S16x16.size a
  k0_off7_inb : ∀ i : grid0.Coords, ∀ a, (k0_off7 i) a + S1x1.size a ≤ S16x16.size a
  k0_off8_inb : ∀ i : grid0.Coords, ∀ a, (k0_off8 i) a + S1x1.size a ≤ S16x16.size a
  k0_off9_inb : ∀ i : grid0.Coords, ∀ a, (k0_off9 i) a + S1x1.size a ≤ S16x16.size a
  k0_off10_inb : ∀ i : grid0.Coords, ∀ a, (k0_off10 i) a + S1x1.size a ≤ S16x16.size a
  k0_off11_inb : ∀ i : grid0.Coords, ∀ a, (k0_off11 i) a + S1x1.size a ≤ S16x16.size a
  k0_off12_inb : ∀ i : grid0.Coords, ∀ a, (k0_off12 i) a + S1x1.size a ≤ S16x16.size a
  k0_off13_inb : ∀ i : grid0.Coords, ∀ a, (k0_off13 i) a + S1x1.size a ≤ S16x16.size a
  k0_off14_inb : ∀ i : grid0.Coords, ∀ a, (k0_off14 i) a + S1x1.size a ≤ S16x16.size a
  k0_off15_inb : ∀ i : grid0.Coords, ∀ a, (k0_off15 i) a + S1x1.size a ≤ S16x16.size a
  k0_off16_inb : ∀ i : grid0.Coords, ∀ a, (k0_off16 i) a + S1x1.size a ≤ S16x16.size a
  k0_off17_inb : ∀ i : grid0.Coords, ∀ a, (k0_off17 i) a + S1x1.size a ≤ S16x16.size a
  k0_off18_inb : ∀ i : grid0.Coords, ∀ a, (k0_off18 i) a + S1x1.size a ≤ S16x16.size a
  k0_off19_inb : ∀ i : grid0.Coords, ∀ a, (k0_off19 i) a + S1x1.size a ≤ S16x16.size a
  k0_off20_inb : ∀ i : grid0.Coords, ∀ a, (k0_off20 i) a + S1x1.size a ≤ S16x16.size a
  k0_off21_inb : ∀ i : grid0.Coords, ∀ a, (k0_off21 i) a + S1x1.size a ≤ S16x16.size a
  k0_off22_inb : ∀ i : grid0.Coords, ∀ a, (k0_off22 i) a + S1x1.size a ≤ S16x16.size a
  k0_off23_inb : ∀ i : grid0.Coords, ∀ a, (k0_off23 i) a + S1x1.size a ≤ S16x16.size a
  k0_off24_inb : ∀ i : grid0.Coords, ∀ a, (k0_off24 i) a + S1x1.size a ≤ S16x16.size a
  k0_off25_inb : ∀ i : grid0.Coords, ∀ a, (k0_off25 i) a + S1x1.size a ≤ S16x16.size a
  k0_off26_inb : ∀ i : grid0.Coords, ∀ a, (k0_off26 i) a + S1x1.size a ≤ S16x16.size a
  k0_off27_inb : ∀ i : grid0.Coords, ∀ a, (k0_off27 i) a + S1x1.size a ≤ S16x16.size a
  k0_off28_inb : ∀ i : grid0.Coords, ∀ a, (k0_off28 i) a + S1x1.size a ≤ S16x16.size a
  k0_off29_inb : ∀ i : grid0.Coords, ∀ a, (k0_off29 i) a + S1x1.size a ≤ S16x16.size a
  k0_off30_inb : ∀ i : grid0.Coords, ∀ a, (k0_off30 i) a + S1x1.size a ≤ S16x16.size a
  k0_off31_inb : ∀ i : grid0.Coords, ∀ a, (k0_off31 i) a + S1x1.size a ≤ S16x16.size a
  k0_off32_inb : ∀ i : grid0.Coords, ∀ a, (k0_off32 i) a + S1x1.size a ≤ S16x16.size a
  k0_off33_inb : ∀ i : grid0.Coords, ∀ a, (k0_off33 i) a + S1x1.size a ≤ S16x16.size a
  k0_off34_inb : ∀ i : grid0.Coords, ∀ a, (k0_off34 i) a + S1x1.size a ≤ S16x16.size a
  k0_off35_inb : ∀ i : grid0.Coords, ∀ a, (k0_off35 i) a + S1x1.size a ≤ S16x16.size a
  k0_off36_inb : ∀ i : grid0.Coords, ∀ a, (k0_off36 i) a + S1x1.size a ≤ S16x16.size a
  k0_off37_inb : ∀ i : grid0.Coords, ∀ a, (k0_off37 i) a + S1x1.size a ≤ S16x16.size a
  k0_off38_inb : ∀ i : grid0.Coords, ∀ a, (k0_off38 i) a + S1x1.size a ≤ S16x16.size a
  k0_off39_inb : ∀ i : grid0.Coords, ∀ a, (k0_off39 i) a + S1x1.size a ≤ S16x16.size a
  k0_off40_inb : ∀ i : grid0.Coords, ∀ a, (k0_off40 i) a + S1x1.size a ≤ S16x16.size a
  k0_off41_inb : ∀ i : grid0.Coords, ∀ a, (k0_off41 i) a + S1x1.size a ≤ S16x16.size a
  k0_off42_inb : ∀ i : grid0.Coords, ∀ a, (k0_off42 i) a + S1x1.size a ≤ S16x16.size a
  k0_off43_inb : ∀ i : grid0.Coords, ∀ a, (k0_off43 i) a + S1x1.size a ≤ S16x16.size a
  k0_off44_inb : ∀ i : grid0.Coords, ∀ a, (k0_off44 i) a + S1x1.size a ≤ S16x16.size a
  k0_off45_inb : ∀ i : grid0.Coords, ∀ a, (k0_off45 i) a + S1x1.size a ≤ S16x16.size a
  k0_off46_inb : ∀ i : grid0.Coords, ∀ a, (k0_off46 i) a + S1x1.size a ≤ S16x16.size a
  k0_off47_inb : ∀ i : grid0.Coords, ∀ a, (k0_off47 i) a + S1x1.size a ≤ S16x16.size a
  k0_off48_inb : ∀ i : grid0.Coords, ∀ a, (k0_off48 i) a + S1x1.size a ≤ S16x16.size a
  k0_off49_inb : ∀ i : grid0.Coords, ∀ a, (k0_off49 i) a + S1x1.size a ≤ S16x16.size a
  k0_off50_inb : ∀ i : grid0.Coords, ∀ a, (k0_off50 i) a + S1x1.size a ≤ S16x16.size a
  k0_off51_inb : ∀ i : grid0.Coords, ∀ a, (k0_off51 i) a + S1x1.size a ≤ S16x16.size a
  k0_off52_inb : ∀ i : grid0.Coords, ∀ a, (k0_off52 i) a + S1x1.size a ≤ S16x16.size a
  k0_off53_inb : ∀ i : grid0.Coords, ∀ a, (k0_off53 i) a + S1x1.size a ≤ S16x16.size a
  k0_off54_inb : ∀ i : grid0.Coords, ∀ a, (k0_off54 i) a + S1x1.size a ≤ S16x16.size a
  k0_off55_inb : ∀ i : grid0.Coords, ∀ a, (k0_off55 i) a + S1x1.size a ≤ S16x16.size a
  k0_off56_inb : ∀ i : grid0.Coords, ∀ a, (k0_off56 i) a + S1x1.size a ≤ S16x16.size a
  k0_off57_inb : ∀ i : grid0.Coords, ∀ a, (k0_off57 i) a + S1x1.size a ≤ S16x16.size a
  k0_off58_inb : ∀ i : grid0.Coords, ∀ a, (k0_off58 i) a + S1x1.size a ≤ S16x16.size a
  k0_off59_inb : ∀ i : grid0.Coords, ∀ a, (k0_off59 i) a + S1x1.size a ≤ S16x16.size a
  k0_off60_inb : ∀ i : grid0.Coords, ∀ a, (k0_off60 i) a + S1x1.size a ≤ S16x16.size a
  k0_off61_inb : ∀ i : grid0.Coords, ∀ a, (k0_off61 i) a + S1x1.size a ≤ S16x16.size a
  k0_off62_inb : ∀ i : grid0.Coords, ∀ a, (k0_off62 i) a + S1x1.size a ≤ S16x16.size a
  k0_off63_inb : ∀ i : grid0.Coords, ∀ a, (k0_off63 i) a + S1x1.size a ≤ S16x16.size a
  k0_off64_inb : ∀ i : grid0.Coords, ∀ a, (k0_off64 i) a + S1x1.size a ≤ S16x16.size a
  k0_off65_inb : ∀ i : grid0.Coords, ∀ a, (k0_off65 i) a + S1x1.size a ≤ S16x16.size a
  k0_off66_inb : ∀ i : grid0.Coords, ∀ a, (k0_off66 i) a + S1x1.size a ≤ S16x16.size a
  k0_off67_inb : ∀ i : grid0.Coords, ∀ a, (k0_off67 i) a + S1x1.size a ≤ S16x16.size a
  k0_off68_inb : ∀ i : grid0.Coords, ∀ a, (k0_off68 i) a + S1x1.size a ≤ S16x16.size a
  k0_off69_inb : ∀ i : grid0.Coords, ∀ a, (k0_off69 i) a + S1x1.size a ≤ S16x16.size a
  k0_off70_inb : ∀ i : grid0.Coords, ∀ a, (k0_off70 i) a + S1x1.size a ≤ S16x16.size a
  k0_off71_inb : ∀ i : grid0.Coords, ∀ a, (k0_off71 i) a + S1x1.size a ≤ S16x16.size a
  k0_off72_inb : ∀ i : grid0.Coords, ∀ a, (k0_off72 i) a + S1x1.size a ≤ S16x16.size a
  k0_off73_inb : ∀ i : grid0.Coords, ∀ a, (k0_off73 i) a + S1x1.size a ≤ S16x16.size a
  k0_off74_inb : ∀ i : grid0.Coords, ∀ a, (k0_off74 i) a + S1x1.size a ≤ S16x16.size a
  k0_off75_inb : ∀ i : grid0.Coords, ∀ a, (k0_off75 i) a + S1x1.size a ≤ S16x16.size a
  k0_off76_inb : ∀ i : grid0.Coords, ∀ a, (k0_off76 i) a + S1x1.size a ≤ S16x16.size a
  k0_off77_inb : ∀ i : grid0.Coords, ∀ a, (k0_off77 i) a + S1x1.size a ≤ S16x16.size a
  k0_off78_inb : ∀ i : grid0.Coords, ∀ a, (k0_off78 i) a + S1x1.size a ≤ S16x16.size a
  k0_off79_inb : ∀ i : grid0.Coords, ∀ a, (k0_off79 i) a + S1x1.size a ≤ S16x16.size a
  k0_off80_inb : ∀ i : grid0.Coords, ∀ a, (k0_off80 i) a + S1x1.size a ≤ S16x16.size a
  k0_off81_inb : ∀ i : grid0.Coords, ∀ a, (k0_off81 i) a + S1x1.size a ≤ S16x16.size a
  k0_off82_inb : ∀ i : grid0.Coords, ∀ a, (k0_off82 i) a + S1x1.size a ≤ S16x16.size a
  k0_off83_inb : ∀ i : grid0.Coords, ∀ a, (k0_off83 i) a + S1x1.size a ≤ S16x16.size a
  k0_off84_inb : ∀ i : grid0.Coords, ∀ a, (k0_off84 i) a + S1x1.size a ≤ S16x16.size a
  k0_off85_inb : ∀ i : grid0.Coords, ∀ a, (k0_off85 i) a + S1x1.size a ≤ S16x16.size a
  k0_off86_inb : ∀ i : grid0.Coords, ∀ a, (k0_off86 i) a + S1x1.size a ≤ S16x16.size a
  k0_off87_inb : ∀ i : grid0.Coords, ∀ a, (k0_off87 i) a + S1x1.size a ≤ S16x16.size a
  k0_off88_inb : ∀ i : grid0.Coords, ∀ a, (k0_off88 i) a + S1x1.size a ≤ S16x16.size a
  k0_off89_inb : ∀ i : grid0.Coords, ∀ a, (k0_off89 i) a + S1x1.size a ≤ S16x16.size a
  k0_off90_inb : ∀ i : grid0.Coords, ∀ a, (k0_off90 i) a + S1x1.size a ≤ S16x16.size a
  k0_off91_inb : ∀ i : grid0.Coords, ∀ a, (k0_off91 i) a + S1x1.size a ≤ S16x16.size a
  k0_off92_inb : ∀ i : grid0.Coords, ∀ a, (k0_off92 i) a + S1x1.size a ≤ S16x16.size a
  k0_off93_inb : ∀ i : grid0.Coords, ∀ a, (k0_off93 i) a + S1x1.size a ≤ S16x16.size a
  k0_off94_inb : ∀ i : grid0.Coords, ∀ a, (k0_off94 i) a + S1x1.size a ≤ S16x16.size a
  k0_off95_inb : ∀ i : grid0.Coords, ∀ a, (k0_off95 i) a + S1x1.size a ≤ S16x16.size a
  k0_off96_inb : ∀ i : grid0.Coords, ∀ a, (k0_off96 i) a + S1x1.size a ≤ S16x16.size a
  k0_off97_inb : ∀ i : grid0.Coords, ∀ a, (k0_off97 i) a + S1x1.size a ≤ S16x16.size a
  k0_off98_inb : ∀ i : grid0.Coords, ∀ a, (k0_off98 i) a + S1x1.size a ≤ S16x16.size a
  k0_off99_inb : ∀ i : grid0.Coords, ∀ a, (k0_off99 i) a + S1x1.size a ≤ S16x16.size a
  k0_off100_inb : ∀ i : grid0.Coords, ∀ a, (k0_off100 i) a + S1x1.size a ≤ S16x16.size a
  k0_off101_inb : ∀ i : grid0.Coords, ∀ a, (k0_off101 i) a + S1x1.size a ≤ S16x16.size a
  k0_off102_inb : ∀ i : grid0.Coords, ∀ a, (k0_off102 i) a + S1x1.size a ≤ S16x16.size a
  k0_off103_inb : ∀ i : grid0.Coords, ∀ a, (k0_off103 i) a + S1x1.size a ≤ S16x16.size a
  k0_off104_inb : ∀ i : grid0.Coords, ∀ a, (k0_off104 i) a + S1x1.size a ≤ S16x16.size a
  k0_off105_inb : ∀ i : grid0.Coords, ∀ a, (k0_off105 i) a + S1x1.size a ≤ S16x16.size a
  k0_off106_inb : ∀ i : grid0.Coords, ∀ a, (k0_off106 i) a + S1x1.size a ≤ S16x16.size a
  k0_off107_inb : ∀ i : grid0.Coords, ∀ a, (k0_off107 i) a + S1x1.size a ≤ S16x16.size a
  k0_off108_inb : ∀ i : grid0.Coords, ∀ a, (k0_off108 i) a + S1x1.size a ≤ S16x16.size a
  k0_off109_inb : ∀ i : grid0.Coords, ∀ a, (k0_off109 i) a + S1x1.size a ≤ S16x16.size a
  k0_off110_inb : ∀ i : grid0.Coords, ∀ a, (k0_off110 i) a + S1x1.size a ≤ S16x16.size a
  k0_off111_inb : ∀ i : grid0.Coords, ∀ a, (k0_off111 i) a + S1x1.size a ≤ S16x16.size a
  k0_off112_inb : ∀ i : grid0.Coords, ∀ a, (k0_off112 i) a + S1x1.size a ≤ S16x16.size a
  k0_off113_inb : ∀ i : grid0.Coords, ∀ a, (k0_off113 i) a + S1x1.size a ≤ S16x16.size a
  k0_off114_inb : ∀ i : grid0.Coords, ∀ a, (k0_off114 i) a + S1x1.size a ≤ S16x16.size a
  k0_off115_inb : ∀ i : grid0.Coords, ∀ a, (k0_off115 i) a + S1x1.size a ≤ S16x16.size a
  k0_off116_inb : ∀ i : grid0.Coords, ∀ a, (k0_off116 i) a + S1x1.size a ≤ S16x16.size a
  k0_off117_inb : ∀ i : grid0.Coords, ∀ a, (k0_off117 i) a + S1x1.size a ≤ S16x16.size a
  k0_off118_inb : ∀ i : grid0.Coords, ∀ a, (k0_off118 i) a + S1x1.size a ≤ S16x16.size a
  k0_off119_inb : ∀ i : grid0.Coords, ∀ a, (k0_off119 i) a + S1x1.size a ≤ S16x16.size a
  k0_off120_inb : ∀ i : grid0.Coords, ∀ a, (k0_off120 i) a + S1x1.size a ≤ S16x16.size a
  k0_off121_inb : ∀ i : grid0.Coords, ∀ a, (k0_off121 i) a + S1x1.size a ≤ S16x16.size a
  k0_off122_inb : ∀ i : grid0.Coords, ∀ a, (k0_off122 i) a + S1x1.size a ≤ S16x16.size a
  k0_off123_inb : ∀ i : grid0.Coords, ∀ a, (k0_off123 i) a + S1x1.size a ≤ S16x16.size a
  k0_off124_inb : ∀ i : grid0.Coords, ∀ a, (k0_off124 i) a + S1x1.size a ≤ S16x16.size a
  k0_off125_inb : ∀ i : grid0.Coords, ∀ a, (k0_off125 i) a + S1x1.size a ≤ S16x16.size a
  k0_off126_inb : ∀ i : grid0.Coords, ∀ a, (k0_off126 i) a + S1x1.size a ≤ S16x16.size a
  k0_off127_inb : ∀ i : grid0.Coords, ∀ a, (k0_off127 i) a + S1x1.size a ≤ S16x16.size a
  k0_off128_inb : ∀ i : grid0.Coords, ∀ a, (k0_off128 i) a + S1x1.size a ≤ S16x16.size a
  k0_off129_inb : ∀ i : grid0.Coords, ∀ a, (k0_off129 i) a + S1x1.size a ≤ S16x16.size a
  k0_off130_inb : ∀ i : grid0.Coords, ∀ a, (k0_off130 i) a + S1x1.size a ≤ S16x16.size a
  k0_off131_inb : ∀ i : grid0.Coords, ∀ a, (k0_off131 i) a + S1x1.size a ≤ S16x16.size a
  k0_off132_inb : ∀ i : grid0.Coords, ∀ a, (k0_off132 i) a + S1x1.size a ≤ S16x16.size a
  k0_off133_inb : ∀ i : grid0.Coords, ∀ a, (k0_off133 i) a + S1x1.size a ≤ S16x16.size a
  k0_off134_inb : ∀ i : grid0.Coords, ∀ a, (k0_off134 i) a + S1x1.size a ≤ S16x16.size a
  k0_off135_inb : ∀ i : grid0.Coords, ∀ a, (k0_off135 i) a + S1x1.size a ≤ S16x16.size a
  k0_off136_inb : ∀ i : grid0.Coords, ∀ a, (k0_off136 i) a + S1x1.size a ≤ S16x16.size a
  k0_off137_inb : ∀ i : grid0.Coords, ∀ a, (k0_off137 i) a + S1x1.size a ≤ S16x16.size a
  k0_off138_inb : ∀ i : grid0.Coords, ∀ a, (k0_off138 i) a + S1x1.size a ≤ S16x16.size a
  k0_off139_inb : ∀ i : grid0.Coords, ∀ a, (k0_off139 i) a + S1x1.size a ≤ S16x16.size a
  k0_off140_inb : ∀ i : grid0.Coords, ∀ a, (k0_off140 i) a + S1x1.size a ≤ S16x16.size a
  k0_off141_inb : ∀ i : grid0.Coords, ∀ a, (k0_off141 i) a + S1x1.size a ≤ S16x16.size a
  k0_off142_inb : ∀ i : grid0.Coords, ∀ a, (k0_off142 i) a + S1x1.size a ≤ S16x16.size a
  k0_off143_inb : ∀ i : grid0.Coords, ∀ a, (k0_off143 i) a + S1x1.size a ≤ S16x16.size a
  k0_off144_inb : ∀ i : grid0.Coords, ∀ a, (k0_off144 i) a + S1x1.size a ≤ S16x16.size a
  k0_off145_inb : ∀ i : grid0.Coords, ∀ a, (k0_off145 i) a + S1x1.size a ≤ S16x16.size a
  k0_off146_inb : ∀ i : grid0.Coords, ∀ a, (k0_off146 i) a + S1x1.size a ≤ S16x16.size a
  k0_off147_inb : ∀ i : grid0.Coords, ∀ a, (k0_off147 i) a + S1x1.size a ≤ S16x16.size a
  k0_off148_inb : ∀ i : grid0.Coords, ∀ a, (k0_off148 i) a + S1x1.size a ≤ S16x16.size a
  k0_off149_inb : ∀ i : grid0.Coords, ∀ a, (k0_off149 i) a + S1x1.size a ≤ S16x16.size a
  k0_off150_inb : ∀ i : grid0.Coords, ∀ a, (k0_off150 i) a + S1x1.size a ≤ S16x16.size a
  k0_off151_inb : ∀ i : grid0.Coords, ∀ a, (k0_off151 i) a + S1x1.size a ≤ S16x16.size a
  k0_off152_inb : ∀ i : grid0.Coords, ∀ a, (k0_off152 i) a + S1x1.size a ≤ S16x16.size a
  k0_off153_inb : ∀ i : grid0.Coords, ∀ a, (k0_off153 i) a + S1x1.size a ≤ S16x16.size a
  k0_off154_inb : ∀ i : grid0.Coords, ∀ a, (k0_off154 i) a + S1x1.size a ≤ S16x16.size a
  k0_off155_inb : ∀ i : grid0.Coords, ∀ a, (k0_off155 i) a + S1x1.size a ≤ S16x16.size a
  k0_off156_inb : ∀ i : grid0.Coords, ∀ a, (k0_off156 i) a + S1x1.size a ≤ S16x16.size a
  k0_off157_inb : ∀ i : grid0.Coords, ∀ a, (k0_off157 i) a + S1x1.size a ≤ S16x16.size a
  k0_off158_inb : ∀ i : grid0.Coords, ∀ a, (k0_off158 i) a + S1x1.size a ≤ S16x16.size a
  k0_off159_inb : ∀ i : grid0.Coords, ∀ a, (k0_off159 i) a + S1x1.size a ≤ S16x16.size a
  k0_off160_inb : ∀ i : grid0.Coords, ∀ a, (k0_off160 i) a + S1x1.size a ≤ S16x16.size a
  k0_off161_inb : ∀ i : grid0.Coords, ∀ a, (k0_off161 i) a + S1x1.size a ≤ S16x16.size a
  k0_off162_inb : ∀ i : grid0.Coords, ∀ a, (k0_off162 i) a + S1x1.size a ≤ S16x16.size a
  k0_off163_inb : ∀ i : grid0.Coords, ∀ a, (k0_off163 i) a + S1x1.size a ≤ S16x16.size a
  k0_off164_inb : ∀ i : grid0.Coords, ∀ a, (k0_off164 i) a + S1x1.size a ≤ S16x16.size a
  k0_off165_inb : ∀ i : grid0.Coords, ∀ a, (k0_off165 i) a + S1x1.size a ≤ S16x16.size a
  k0_off166_inb : ∀ i : grid0.Coords, ∀ a, (k0_off166 i) a + S1x1.size a ≤ S16x16.size a
  k0_off167_inb : ∀ i : grid0.Coords, ∀ a, (k0_off167 i) a + S1x1.size a ≤ S16x16.size a
  k0_off168_inb : ∀ i : grid0.Coords, ∀ a, (k0_off168 i) a + S1x1.size a ≤ S16x16.size a
  k0_off169_inb : ∀ i : grid0.Coords, ∀ a, (k0_off169 i) a + S1x1.size a ≤ S16x16.size a
  k0_off170_inb : ∀ i : grid0.Coords, ∀ a, (k0_off170 i) a + S1x1.size a ≤ S16x16.size a
  k0_off171_inb : ∀ i : grid0.Coords, ∀ a, (k0_off171 i) a + S1x1.size a ≤ S16x16.size a
  k0_off172_inb : ∀ i : grid0.Coords, ∀ a, (k0_off172 i) a + S1x1.size a ≤ S16x16.size a
  k0_off173_inb : ∀ i : grid0.Coords, ∀ a, (k0_off173 i) a + S1x1.size a ≤ S16x16.size a
  k0_off174_inb : ∀ i : grid0.Coords, ∀ a, (k0_off174 i) a + S1x1.size a ≤ S16x16.size a
  k0_off175_inb : ∀ i : grid0.Coords, ∀ a, (k0_off175 i) a + S1x1.size a ≤ S16x16.size a
  k0_off176_inb : ∀ i : grid0.Coords, ∀ a, (k0_off176 i) a + S1x1.size a ≤ S16x16.size a
  k0_off177_inb : ∀ i : grid0.Coords, ∀ a, (k0_off177 i) a + S1x1.size a ≤ S16x16.size a
  k0_off178_inb : ∀ i : grid0.Coords, ∀ a, (k0_off178 i) a + S1x1.size a ≤ S16x16.size a
  k0_off179_inb : ∀ i : grid0.Coords, ∀ a, (k0_off179 i) a + S1x1.size a ≤ S16x16.size a
  k0_off180_inb : ∀ i : grid0.Coords, ∀ a, (k0_off180 i) a + S1x1.size a ≤ S16x16.size a
  k0_off181_inb : ∀ i : grid0.Coords, ∀ a, (k0_off181 i) a + S1x1.size a ≤ S16x16.size a
  k0_off182_inb : ∀ i : grid0.Coords, ∀ a, (k0_off182 i) a + S1x1.size a ≤ S16x16.size a
  k0_off183_inb : ∀ i : grid0.Coords, ∀ a, (k0_off183 i) a + S1x1.size a ≤ S16x16.size a
  k0_off184_inb : ∀ i : grid0.Coords, ∀ a, (k0_off184 i) a + S1x1.size a ≤ S16x16.size a
  k0_off185_inb : ∀ i : grid0.Coords, ∀ a, (k0_off185 i) a + S1x1.size a ≤ S16x16.size a
  k0_off186_inb : ∀ i : grid0.Coords, ∀ a, (k0_off186 i) a + S1x1.size a ≤ S16x16.size a
  k0_off187_inb : ∀ i : grid0.Coords, ∀ a, (k0_off187 i) a + S1x1.size a ≤ S16x16.size a
  k0_off188_inb : ∀ i : grid0.Coords, ∀ a, (k0_off188 i) a + S1x1.size a ≤ S16x16.size a
  k0_off189_inb : ∀ i : grid0.Coords, ∀ a, (k0_off189 i) a + S1x1.size a ≤ S16x16.size a
  k0_off190_inb : ∀ i : grid0.Coords, ∀ a, (k0_off190 i) a + S1x1.size a ≤ S16x16.size a
  k0_off191_inb : ∀ i : grid0.Coords, ∀ a, (k0_off191 i) a + S1x1.size a ≤ S16x16.size a
  k0_off192_inb : ∀ i : grid0.Coords, ∀ a, (k0_off192 i) a + S1x1.size a ≤ S16x16.size a
  k0_off193_inb : ∀ i : grid0.Coords, ∀ a, (k0_off193 i) a + S1x1.size a ≤ S16x16.size a
  k0_off194_inb : ∀ i : grid0.Coords, ∀ a, (k0_off194 i) a + S1x1.size a ≤ S16x16.size a
  k0_off195_inb : ∀ i : grid0.Coords, ∀ a, (k0_off195 i) a + S1x1.size a ≤ S16x16.size a
  k0_off196_inb : ∀ i : grid0.Coords, ∀ a, (k0_off196 i) a + S1x1.size a ≤ S16x16.size a
  k0_off197_inb : ∀ i : grid0.Coords, ∀ a, (k0_off197 i) a + S1x1.size a ≤ S16x16.size a
  k0_off198_inb : ∀ i : grid0.Coords, ∀ a, (k0_off198 i) a + S1x1.size a ≤ S16x16.size a
  k0_off199_inb : ∀ i : grid0.Coords, ∀ a, (k0_off199 i) a + S1x1.size a ≤ S16x16.size a
  k0_off200_inb : ∀ i : grid0.Coords, ∀ a, (k0_off200 i) a + S1x1.size a ≤ S16x16.size a
  k0_off201_inb : ∀ i : grid0.Coords, ∀ a, (k0_off201 i) a + S1x1.size a ≤ S16x16.size a
  k0_off202_inb : ∀ i : grid0.Coords, ∀ a, (k0_off202 i) a + S1x1.size a ≤ S16x16.size a
  k0_off203_inb : ∀ i : grid0.Coords, ∀ a, (k0_off203 i) a + S1x1.size a ≤ S16x16.size a
  k0_off204_inb : ∀ i : grid0.Coords, ∀ a, (k0_off204 i) a + S1x1.size a ≤ S16x16.size a
  k0_off205_inb : ∀ i : grid0.Coords, ∀ a, (k0_off205 i) a + S1x1.size a ≤ S16x16.size a
  k0_off206_inb : ∀ i : grid0.Coords, ∀ a, (k0_off206 i) a + S1x1.size a ≤ S16x16.size a
  k0_off207_inb : ∀ i : grid0.Coords, ∀ a, (k0_off207 i) a + S1x1.size a ≤ S16x16.size a
  k0_off208_inb : ∀ i : grid0.Coords, ∀ a, (k0_off208 i) a + S1x1.size a ≤ S16x16.size a
  k0_off209_inb : ∀ i : grid0.Coords, ∀ a, (k0_off209 i) a + S1x1.size a ≤ S16x16.size a
  k0_off210_inb : ∀ i : grid0.Coords, ∀ a, (k0_off210 i) a + S1x1.size a ≤ S16x16.size a
  k0_off211_inb : ∀ i : grid0.Coords, ∀ a, (k0_off211 i) a + S1x1.size a ≤ S16x16.size a
  k0_off212_inb : ∀ i : grid0.Coords, ∀ a, (k0_off212 i) a + S1x1.size a ≤ S16x16.size a
  k0_off213_inb : ∀ i : grid0.Coords, ∀ a, (k0_off213 i) a + S1x1.size a ≤ S16x16.size a
  k0_off214_inb : ∀ i : grid0.Coords, ∀ a, (k0_off214 i) a + S1x1.size a ≤ S16x16.size a
  k0_off215_inb : ∀ i : grid0.Coords, ∀ a, (k0_off215 i) a + S1x1.size a ≤ S16x16.size a
  k0_off216_inb : ∀ i : grid0.Coords, ∀ a, (k0_off216 i) a + S1x1.size a ≤ S16x16.size a
  k0_off217_inb : ∀ i : grid0.Coords, ∀ a, (k0_off217 i) a + S1x1.size a ≤ S16x16.size a
  k0_off218_inb : ∀ i : grid0.Coords, ∀ a, (k0_off218 i) a + S1x1.size a ≤ S16x16.size a
  k0_off219_inb : ∀ i : grid0.Coords, ∀ a, (k0_off219 i) a + S1x1.size a ≤ S16x16.size a
  k0_off220_inb : ∀ i : grid0.Coords, ∀ a, (k0_off220 i) a + S1x1.size a ≤ S16x16.size a
  k0_off221_inb : ∀ i : grid0.Coords, ∀ a, (k0_off221 i) a + S1x1.size a ≤ S16x16.size a
  k0_off222_inb : ∀ i : grid0.Coords, ∀ a, (k0_off222 i) a + S1x1.size a ≤ S16x16.size a
  k0_off223_inb : ∀ i : grid0.Coords, ∀ a, (k0_off223 i) a + S1x1.size a ≤ S16x16.size a
  k0_off224_inb : ∀ i : grid0.Coords, ∀ a, (k0_off224 i) a + S1x1.size a ≤ S16x16.size a
  k0_off225_inb : ∀ i : grid0.Coords, ∀ a, (k0_off225 i) a + S1x1.size a ≤ S16x16.size a
  k0_off226_inb : ∀ i : grid0.Coords, ∀ a, (k0_off226 i) a + S1x1.size a ≤ S16x16.size a
  k0_off227_inb : ∀ i : grid0.Coords, ∀ a, (k0_off227 i) a + S1x1.size a ≤ S16x16.size a
  k0_off228_inb : ∀ i : grid0.Coords, ∀ a, (k0_off228 i) a + S1x1.size a ≤ S16x16.size a
  k0_off229_inb : ∀ i : grid0.Coords, ∀ a, (k0_off229 i) a + S1x1.size a ≤ S16x16.size a
  k0_off230_inb : ∀ i : grid0.Coords, ∀ a, (k0_off230 i) a + S1x1.size a ≤ S16x16.size a
  k0_off231_inb : ∀ i : grid0.Coords, ∀ a, (k0_off231 i) a + S1x1.size a ≤ S16x16.size a
  k0_off232_inb : ∀ i : grid0.Coords, ∀ a, (k0_off232 i) a + S1x1.size a ≤ S16x16.size a
  k0_off233_inb : ∀ i : grid0.Coords, ∀ a, (k0_off233 i) a + S1x1.size a ≤ S16x16.size a
  k0_off234_inb : ∀ i : grid0.Coords, ∀ a, (k0_off234 i) a + S1x1.size a ≤ S16x16.size a
  k0_off235_inb : ∀ i : grid0.Coords, ∀ a, (k0_off235 i) a + S1x1.size a ≤ S16x16.size a
  k0_off236_inb : ∀ i : grid0.Coords, ∀ a, (k0_off236 i) a + S1x1.size a ≤ S16x16.size a
  k0_off237_inb : ∀ i : grid0.Coords, ∀ a, (k0_off237 i) a + S1x1.size a ≤ S16x16.size a
  k0_off238_inb : ∀ i : grid0.Coords, ∀ a, (k0_off238 i) a + S1x1.size a ≤ S16x16.size a
  k0_off239_inb : ∀ i : grid0.Coords, ∀ a, (k0_off239 i) a + S1x1.size a ≤ S16x16.size a
  k0_off240_inb : ∀ i : grid0.Coords, ∀ a, (k0_off240 i) a + S1x1.size a ≤ S16x16.size a
  k0_off241_inb : ∀ i : grid0.Coords, ∀ a, (k0_off241 i) a + S1x1.size a ≤ S16x16.size a
  k0_off242_inb : ∀ i : grid0.Coords, ∀ a, (k0_off242 i) a + S1x1.size a ≤ S16x16.size a
  k0_off243_inb : ∀ i : grid0.Coords, ∀ a, (k0_off243 i) a + S1x1.size a ≤ S16x16.size a
  k0_off244_inb : ∀ i : grid0.Coords, ∀ a, (k0_off244 i) a + S1x1.size a ≤ S16x16.size a
  k0_off245_inb : ∀ i : grid0.Coords, ∀ a, (k0_off245 i) a + S1x1.size a ≤ S16x16.size a
  k0_off246_inb : ∀ i : grid0.Coords, ∀ a, (k0_off246 i) a + S1x1.size a ≤ S16x16.size a
  k0_off247_inb : ∀ i : grid0.Coords, ∀ a, (k0_off247 i) a + S1x1.size a ≤ S16x16.size a
  k0_off248_inb : ∀ i : grid0.Coords, ∀ a, (k0_off248 i) a + S1x1.size a ≤ S16x16.size a
  k0_off249_inb : ∀ i : grid0.Coords, ∀ a, (k0_off249 i) a + S1x1.size a ≤ S16x16.size a
  k0_off250_inb : ∀ i : grid0.Coords, ∀ a, (k0_off250 i) a + S1x1.size a ≤ S16x16.size a
  k0_off251_inb : ∀ i : grid0.Coords, ∀ a, (k0_off251 i) a + S1x1.size a ≤ S16x16.size a
  k0_off252_inb : ∀ i : grid0.Coords, ∀ a, (k0_off252 i) a + S1x1.size a ≤ S16x16.size a
  k0_off253_inb : ∀ i : grid0.Coords, ∀ a, (k0_off253 i) a + S1x1.size a ≤ S16x16.size a
  k0_off254_inb : ∀ i : grid0.Coords, ∀ a, (k0_off254 i) a + S1x1.size a ≤ S16x16.size a
  k0_off255_inb : ∀ i : grid0.Coords, ∀ a, (k0_off255 i) a + S1x1.size a ≤ S16x16.size a
  k0_off256_inb : ∀ i : grid0.Coords, ∀ a, (k0_off256 i) a + S1x1.size a ≤ S16x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x224x224.size a ≤ S16x128x224x224.size a
  hwx0_0 : ∀ i : grid0.Coords, EltTy.bits .f32 = 32 ∨ (Rect.block (s := S16x128x224x224) S1x32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x224x224.size a ≤ S16x128x224x224.size a
  hwx0_1 : ∀ i : grid0.Coords, EltTy.bits .f32 = 32 ∨ (Rect.block (s := S16x128x224x224) S1x32x224x224.size (cc0_transform_1 i) (hinb0_1 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2

abbrev spec0_0 : Pipeline.WinSpec sig grid0.rank :=
  Pipeline.WinSpec.ofSpec (Memref.whole main_arg0) S1x32x224x224.size reads0_0 false false 2 stage0_0 sem0_0 nbuf0_0 hstage0_0

abbrev spec0_1 : Pipeline.WinSpec sig grid0.rank :=
  Pipeline.WinSpec.ofSpec (Memref.whole main_v1) S1x32x224x224.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev idle0 (pf : pre0.Contents (Elt F)) : Fin 2 → grid0.Coords → Bool := fun | 0 => fun _ => false | 1 => fun i => !(k0_cond1 (pf.atD 0 (k0_off1 i)) == 1#1) && !(k0_cond2 (pf.atD 0 (k0_off2 i)) == 1#1) && !(k0_cond3 (pf.atD 0 (k0_off3 i)) == 1#1) && !(k0_cond4 (pf.atD 0 (k0_off4 i)) == 1#1) && !(k0_cond5 (pf.atD 0 (k0_off5 i)) == 1#1) && !(k0_cond6 (pf.atD 0 (k0_off6 i)) == 1#1) && !(k0_cond7 (pf.atD 0 (k0_off7 i)) == 1#1) && !(k0_cond8 (pf.atD 0 (k0_off8 i)) == 1#1) && !(k0_cond9 (pf.atD 0 (k0_off9 i)) == 1#1) && !(k0_cond10 (pf.atD 0 (k0_off10 i)) == 1#1) && !(k0_cond11 (pf.atD 0 (k0_off11 i)) == 1#1) && !(k0_cond12 (pf.atD 0 (k0_off12 i)) == 1#1) && !(k0_cond13 (pf.atD 0 (k0_off13 i)) == 1#1) && !(k0_cond14 (pf.atD 0 (k0_off14 i)) == 1#1) && !(k0_cond15 (pf.atD 0 (k0_off15 i)) == 1#1) && !(k0_cond16 (pf.atD 0 (k0_off16 i)) == 1#1) && !(k0_cond17 (pf.atD 0 (k0_off17 i)) == 1#1) && !(k0_cond18 (pf.atD 0 (k0_off18 i)) == 1#1) && !(k0_cond19 (pf.atD 0 (k0_off19 i)) == 1#1) && !(k0_cond20 (pf.atD 0 (k0_off20 i)) == 1#1) && !(k0_cond21 (pf.atD 0 (k0_off21 i)) == 1#1) && !(k0_cond22 (pf.atD 0 (k0_off22 i)) == 1#1) && !(k0_cond23 (pf.atD 0 (k0_off23 i)) == 1#1) && !(k0_cond24 (pf.atD 0 (k0_off24 i)) == 1#1) && !(k0_cond25 (pf.atD 0 (k0_off25 i)) == 1#1) && !(k0_cond26 (pf.atD 0 (k0_off26 i)) == 1#1) && !(k0_cond27 (pf.atD 0 (k0_off27 i)) == 1#1) && !(k0_cond28 (pf.atD 0 (k0_off28 i)) == 1#1) && !(k0_cond29 (pf.atD 0 (k0_off29 i)) == 1#1) && !(k0_cond30 (pf.atD 0 (k0_off30 i)) == 1#1) && !(k0_cond31 (pf.atD 0 (k0_off31 i)) == 1#1) && !(k0_cond32 (pf.atD 0 (k0_off32 i)) == 1#1) && !(k0_cond33 (pf.atD 0 (k0_off33 i)) == 1#1) && !(k0_cond34 (pf.atD 0 (k0_off34 i)) == 1#1) && !(k0_cond35 (pf.atD 0 (k0_off35 i)) == 1#1) && !(k0_cond36 (pf.atD 0 (k0_off36 i)) == 1#1) && !(k0_cond37 (pf.atD 0 (k0_off37 i)) == 1#1) && !(k0_cond38 (pf.atD 0 (k0_off38 i)) == 1#1) && !(k0_cond39 (pf.atD 0 (k0_off39 i)) == 1#1) && !(k0_cond40 (pf.atD 0 (k0_off40 i)) == 1#1) && !(k0_cond41 (pf.atD 0 (k0_off41 i)) == 1#1) && !(k0_cond42 (pf.atD 0 (k0_off42 i)) == 1#1) && !(k0_cond43 (pf.atD 0 (k0_off43 i)) == 1#1) && !(k0_cond44 (pf.atD 0 (k0_off44 i)) == 1#1) && !(k0_cond45 (pf.atD 0 (k0_off45 i)) == 1#1) && !(k0_cond46 (pf.atD 0 (k0_off46 i)) == 1#1) && !(k0_cond47 (pf.atD 0 (k0_off47 i)) == 1#1) && !(k0_cond48 (pf.atD 0 (k0_off48 i)) == 1#1) && !(k0_cond49 (pf.atD 0 (k0_off49 i)) == 1#1) && !(k0_cond50 (pf.atD 0 (k0_off50 i)) == 1#1) && !(k0_cond51 (pf.atD 0 (k0_off51 i)) == 1#1) && !(k0_cond52 (pf.atD 0 (k0_off52 i)) == 1#1) && !(k0_cond53 (pf.atD 0 (k0_off53 i)) == 1#1) && !(k0_cond54 (pf.atD 0 (k0_off54 i)) == 1#1) && !(k0_cond55 (pf.atD 0 (k0_off55 i)) == 1#1) && !(k0_cond56 (pf.atD 0 (k0_off56 i)) == 1#1) && !(k0_cond57 (pf.atD 0 (k0_off57 i)) == 1#1) && !(k0_cond58 (pf.atD 0 (k0_off58 i)) == 1#1) && !(k0_cond59 (pf.atD 0 (k0_off59 i)) == 1#1) && !(k0_cond60 (pf.atD 0 (k0_off60 i)) == 1#1) && !(k0_cond61 (pf.atD 0 (k0_off61 i)) == 1#1) && !(k0_cond62 (pf.atD 0 (k0_off62 i)) == 1#1) && !(k0_cond63 (pf.atD 0 (k0_off63 i)) == 1#1) && !(k0_cond64 (pf.atD 0 (k0_off64 i)) == 1#1) && !(k0_cond65 (pf.atD 0 (k0_off65 i)) == 1#1) && !(k0_cond66 (pf.atD 0 (k0_off66 i)) == 1#1) && !(k0_cond67 (pf.atD 0 (k0_off67 i)) == 1#1) && !(k0_cond68 (pf.atD 0 (k0_off68 i)) == 1#1) && !(k0_cond69 (pf.atD 0 (k0_off69 i)) == 1#1) && !(k0_cond70 (pf.atD 0 (k0_off70 i)) == 1#1) && !(k0_cond71 (pf.atD 0 (k0_off71 i)) == 1#1) && !(k0_cond72 (pf.atD 0 (k0_off72 i)) == 1#1) && !(k0_cond73 (pf.atD 0 (k0_off73 i)) == 1#1) && !(k0_cond74 (pf.atD 0 (k0_off74 i)) == 1#1) && !(k0_cond75 (pf.atD 0 (k0_off75 i)) == 1#1) && !(k0_cond76 (pf.atD 0 (k0_off76 i)) == 1#1) && !(k0_cond77 (pf.atD 0 (k0_off77 i)) == 1#1) && !(k0_cond78 (pf.atD 0 (k0_off78 i)) == 1#1) && !(k0_cond79 (pf.atD 0 (k0_off79 i)) == 1#1) && !(k0_cond80 (pf.atD 0 (k0_off80 i)) == 1#1) && !(k0_cond81 (pf.atD 0 (k0_off81 i)) == 1#1) && !(k0_cond82 (pf.atD 0 (k0_off82 i)) == 1#1) && !(k0_cond83 (pf.atD 0 (k0_off83 i)) == 1#1) && !(k0_cond84 (pf.atD 0 (k0_off84 i)) == 1#1) && !(k0_cond85 (pf.atD 0 (k0_off85 i)) == 1#1) && !(k0_cond86 (pf.atD 0 (k0_off86 i)) == 1#1) && !(k0_cond87 (pf.atD 0 (k0_off87 i)) == 1#1) && !(k0_cond88 (pf.atD 0 (k0_off88 i)) == 1#1) && !(k0_cond89 (pf.atD 0 (k0_off89 i)) == 1#1) && !(k0_cond90 (pf.atD 0 (k0_off90 i)) == 1#1) && !(k0_cond91 (pf.atD 0 (k0_off91 i)) == 1#1) && !(k0_cond92 (pf.atD 0 (k0_off92 i)) == 1#1) && !(k0_cond93 (pf.atD 0 (k0_off93 i)) == 1#1) && !(k0_cond94 (pf.atD 0 (k0_off94 i)) == 1#1) && !(k0_cond95 (pf.atD 0 (k0_off95 i)) == 1#1) && !(k0_cond96 (pf.atD 0 (k0_off96 i)) == 1#1) && !(k0_cond97 (pf.atD 0 (k0_off97 i)) == 1#1) && !(k0_cond98 (pf.atD 0 (k0_off98 i)) == 1#1) && !(k0_cond99 (pf.atD 0 (k0_off99 i)) == 1#1) && !(k0_cond100 (pf.atD 0 (k0_off100 i)) == 1#1) && !(k0_cond101 (pf.atD 0 (k0_off101 i)) == 1#1) && !(k0_cond102 (pf.atD 0 (k0_off102 i)) == 1#1) && !(k0_cond103 (pf.atD 0 (k0_off103 i)) == 1#1) && !(k0_cond104 (pf.atD 0 (k0_off104 i)) == 1#1) && !(k0_cond105 (pf.atD 0 (k0_off105 i)) == 1#1) && !(k0_cond106 (pf.atD 0 (k0_off106 i)) == 1#1) && !(k0_cond107 (pf.atD 0 (k0_off107 i)) == 1#1) && !(k0_cond108 (pf.atD 0 (k0_off108 i)) == 1#1) && !(k0_cond109 (pf.atD 0 (k0_off109 i)) == 1#1) && !(k0_cond110 (pf.atD 0 (k0_off110 i)) == 1#1) && !(k0_cond111 (pf.atD 0 (k0_off111 i)) == 1#1) && !(k0_cond112 (pf.atD 0 (k0_off112 i)) == 1#1) && !(k0_cond113 (pf.atD 0 (k0_off113 i)) == 1#1) && !(k0_cond114 (pf.atD 0 (k0_off114 i)) == 1#1) && !(k0_cond115 (pf.atD 0 (k0_off115 i)) == 1#1) && !(k0_cond116 (pf.atD 0 (k0_off116 i)) == 1#1) && !(k0_cond117 (pf.atD 0 (k0_off117 i)) == 1#1) && !(k0_cond118 (pf.atD 0 (k0_off118 i)) == 1#1) && !(k0_cond119 (pf.atD 0 (k0_off119 i)) == 1#1) && !(k0_cond120 (pf.atD 0 (k0_off120 i)) == 1#1) && !(k0_cond121 (pf.atD 0 (k0_off121 i)) == 1#1) && !(k0_cond122 (pf.atD 0 (k0_off122 i)) == 1#1) && !(k0_cond123 (pf.atD 0 (k0_off123 i)) == 1#1) && !(k0_cond124 (pf.atD 0 (k0_off124 i)) == 1#1) && !(k0_cond125 (pf.atD 0 (k0_off125 i)) == 1#1) && !(k0_cond126 (pf.atD 0 (k0_off126 i)) == 1#1) && !(k0_cond127 (pf.atD 0 (k0_off127 i)) == 1#1) && !(k0_cond128 (pf.atD 0 (k0_off128 i)) == 1#1) && !(k0_cond129 (pf.atD 0 (k0_off129 i)) == 1#1) && !(k0_cond130 (pf.atD 0 (k0_off130 i)) == 1#1) && !(k0_cond131 (pf.atD 0 (k0_off131 i)) == 1#1) && !(k0_cond132 (pf.atD 0 (k0_off132 i)) == 1#1) && !(k0_cond133 (pf.atD 0 (k0_off133 i)) == 1#1) && !(k0_cond134 (pf.atD 0 (k0_off134 i)) == 1#1) && !(k0_cond135 (pf.atD 0 (k0_off135 i)) == 1#1) && !(k0_cond136 (pf.atD 0 (k0_off136 i)) == 1#1) && !(k0_cond137 (pf.atD 0 (k0_off137 i)) == 1#1) && !(k0_cond138 (pf.atD 0 (k0_off138 i)) == 1#1) && !(k0_cond139 (pf.atD 0 (k0_off139 i)) == 1#1) && !(k0_cond140 (pf.atD 0 (k0_off140 i)) == 1#1) && !(k0_cond141 (pf.atD 0 (k0_off141 i)) == 1#1) && !(k0_cond142 (pf.atD 0 (k0_off142 i)) == 1#1) && !(k0_cond143 (pf.atD 0 (k0_off143 i)) == 1#1) && !(k0_cond144 (pf.atD 0 (k0_off144 i)) == 1#1) && !(k0_cond145 (pf.atD 0 (k0_off145 i)) == 1#1) && !(k0_cond146 (pf.atD 0 (k0_off146 i)) == 1#1) && !(k0_cond147 (pf.atD 0 (k0_off147 i)) == 1#1) && !(k0_cond148 (pf.atD 0 (k0_off148 i)) == 1#1) && !(k0_cond149 (pf.atD 0 (k0_off149 i)) == 1#1) && !(k0_cond150 (pf.atD 0 (k0_off150 i)) == 1#1) && !(k0_cond151 (pf.atD 0 (k0_off151 i)) == 1#1) && !(k0_cond152 (pf.atD 0 (k0_off152 i)) == 1#1) && !(k0_cond153 (pf.atD 0 (k0_off153 i)) == 1#1) && !(k0_cond154 (pf.atD 0 (k0_off154 i)) == 1#1) && !(k0_cond155 (pf.atD 0 (k0_off155 i)) == 1#1) && !(k0_cond156 (pf.atD 0 (k0_off156 i)) == 1#1) && !(k0_cond157 (pf.atD 0 (k0_off157 i)) == 1#1) && !(k0_cond158 (pf.atD 0 (k0_off158 i)) == 1#1) && !(k0_cond159 (pf.atD 0 (k0_off159 i)) == 1#1) && !(k0_cond160 (pf.atD 0 (k0_off160 i)) == 1#1) && !(k0_cond161 (pf.atD 0 (k0_off161 i)) == 1#1) && !(k0_cond162 (pf.atD 0 (k0_off162 i)) == 1#1) && !(k0_cond163 (pf.atD 0 (k0_off163 i)) == 1#1) && !(k0_cond164 (pf.atD 0 (k0_off164 i)) == 1#1) && !(k0_cond165 (pf.atD 0 (k0_off165 i)) == 1#1) && !(k0_cond166 (pf.atD 0 (k0_off166 i)) == 1#1) && !(k0_cond167 (pf.atD 0 (k0_off167 i)) == 1#1) && !(k0_cond168 (pf.atD 0 (k0_off168 i)) == 1#1) && !(k0_cond169 (pf.atD 0 (k0_off169 i)) == 1#1) && !(k0_cond170 (pf.atD 0 (k0_off170 i)) == 1#1) && !(k0_cond171 (pf.atD 0 (k0_off171 i)) == 1#1) && !(k0_cond172 (pf.atD 0 (k0_off172 i)) == 1#1) && !(k0_cond173 (pf.atD 0 (k0_off173 i)) == 1#1) && !(k0_cond174 (pf.atD 0 (k0_off174 i)) == 1#1) && !(k0_cond175 (pf.atD 0 (k0_off175 i)) == 1#1) && !(k0_cond176 (pf.atD 0 (k0_off176 i)) == 1#1) && !(k0_cond177 (pf.atD 0 (k0_off177 i)) == 1#1) && !(k0_cond178 (pf.atD 0 (k0_off178 i)) == 1#1) && !(k0_cond179 (pf.atD 0 (k0_off179 i)) == 1#1) && !(k0_cond180 (pf.atD 0 (k0_off180 i)) == 1#1) && !(k0_cond181 (pf.atD 0 (k0_off181 i)) == 1#1) && !(k0_cond182 (pf.atD 0 (k0_off182 i)) == 1#1) && !(k0_cond183 (pf.atD 0 (k0_off183 i)) == 1#1) && !(k0_cond184 (pf.atD 0 (k0_off184 i)) == 1#1) && !(k0_cond185 (pf.atD 0 (k0_off185 i)) == 1#1) && !(k0_cond186 (pf.atD 0 (k0_off186 i)) == 1#1) && !(k0_cond187 (pf.atD 0 (k0_off187 i)) == 1#1) && !(k0_cond188 (pf.atD 0 (k0_off188 i)) == 1#1) && !(k0_cond189 (pf.atD 0 (k0_off189 i)) == 1#1) && !(k0_cond190 (pf.atD 0 (k0_off190 i)) == 1#1) && !(k0_cond191 (pf.atD 0 (k0_off191 i)) == 1#1) && !(k0_cond192 (pf.atD 0 (k0_off192 i)) == 1#1) && !(k0_cond193 (pf.atD 0 (k0_off193 i)) == 1#1) && !(k0_cond194 (pf.atD 0 (k0_off194 i)) == 1#1) && !(k0_cond195 (pf.atD 0 (k0_off195 i)) == 1#1) && !(k0_cond196 (pf.atD 0 (k0_off196 i)) == 1#1) && !(k0_cond197 (pf.atD 0 (k0_off197 i)) == 1#1) && !(k0_cond198 (pf.atD 0 (k0_off198 i)) == 1#1) && !(k0_cond199 (pf.atD 0 (k0_off199 i)) == 1#1) && !(k0_cond200 (pf.atD 0 (k0_off200 i)) == 1#1) && !(k0_cond201 (pf.atD 0 (k0_off201 i)) == 1#1) && !(k0_cond202 (pf.atD 0 (k0_off202 i)) == 1#1) && !(k0_cond203 (pf.atD 0 (k0_off203 i)) == 1#1) && !(k0_cond204 (pf.atD 0 (k0_off204 i)) == 1#1) && !(k0_cond205 (pf.atD 0 (k0_off205 i)) == 1#1) && !(k0_cond206 (pf.atD 0 (k0_off206 i)) == 1#1) && !(k0_cond207 (pf.atD 0 (k0_off207 i)) == 1#1) && !(k0_cond208 (pf.atD 0 (k0_off208 i)) == 1#1) && !(k0_cond209 (pf.atD 0 (k0_off209 i)) == 1#1) && !(k0_cond210 (pf.atD 0 (k0_off210 i)) == 1#1) && !(k0_cond211 (pf.atD 0 (k0_off211 i)) == 1#1) && !(k0_cond212 (pf.atD 0 (k0_off212 i)) == 1#1) && !(k0_cond213 (pf.atD 0 (k0_off213 i)) == 1#1) && !(k0_cond214 (pf.atD 0 (k0_off214 i)) == 1#1) && !(k0_cond215 (pf.atD 0 (k0_off215 i)) == 1#1) && !(k0_cond216 (pf.atD 0 (k0_off216 i)) == 1#1) && !(k0_cond217 (pf.atD 0 (k0_off217 i)) == 1#1) && !(k0_cond218 (pf.atD 0 (k0_off218 i)) == 1#1) && !(k0_cond219 (pf.atD 0 (k0_off219 i)) == 1#1) && !(k0_cond220 (pf.atD 0 (k0_off220 i)) == 1#1) && !(k0_cond221 (pf.atD 0 (k0_off221 i)) == 1#1) && !(k0_cond222 (pf.atD 0 (k0_off222 i)) == 1#1) && !(k0_cond223 (pf.atD 0 (k0_off223 i)) == 1#1) && !(k0_cond224 (pf.atD 0 (k0_off224 i)) == 1#1) && !(k0_cond225 (pf.atD 0 (k0_off225 i)) == 1#1) && !(k0_cond226 (pf.atD 0 (k0_off226 i)) == 1#1) && !(k0_cond227 (pf.atD 0 (k0_off227 i)) == 1#1) && !(k0_cond228 (pf.atD 0 (k0_off228 i)) == 1#1) && !(k0_cond229 (pf.atD 0 (k0_off229 i)) == 1#1) && !(k0_cond230 (pf.atD 0 (k0_off230 i)) == 1#1) && !(k0_cond231 (pf.atD 0 (k0_off231 i)) == 1#1) && !(k0_cond232 (pf.atD 0 (k0_off232 i)) == 1#1) && !(k0_cond233 (pf.atD 0 (k0_off233 i)) == 1#1) && !(k0_cond234 (pf.atD 0 (k0_off234 i)) == 1#1) && !(k0_cond235 (pf.atD 0 (k0_off235 i)) == 1#1) && !(k0_cond236 (pf.atD 0 (k0_off236 i)) == 1#1) && !(k0_cond237 (pf.atD 0 (k0_off237 i)) == 1#1) && !(k0_cond238 (pf.atD 0 (k0_off238 i)) == 1#1) && !(k0_cond239 (pf.atD 0 (k0_off239 i)) == 1#1) && !(k0_cond240 (pf.atD 0 (k0_off240 i)) == 1#1) && !(k0_cond241 (pf.atD 0 (k0_off241 i)) == 1#1) && !(k0_cond242 (pf.atD 0 (k0_off242 i)) == 1#1) && !(k0_cond243 (pf.atD 0 (k0_off243 i)) == 1#1) && !(k0_cond244 (pf.atD 0 (k0_off244 i)) == 1#1) && !(k0_cond245 (pf.atD 0 (k0_off245 i)) == 1#1) && !(k0_cond246 (pf.atD 0 (k0_off246 i)) == 1#1) && !(k0_cond247 (pf.atD 0 (k0_off247 i)) == 1#1) && !(k0_cond248 (pf.atD 0 (k0_off248 i)) == 1#1) && !(k0_cond249 (pf.atD 0 (k0_off249 i)) == 1#1) && !(k0_cond250 (pf.atD 0 (k0_off250 i)) == 1#1) && !(k0_cond251 (pf.atD 0 (k0_off251 i)) == 1#1) && !(k0_cond252 (pf.atD 0 (k0_off252 i)) == 1#1) && !(k0_cond253 (pf.atD 0 (k0_off253 i)) == 1#1) && !(k0_cond254 (pf.atD 0 (k0_off254 i)) == 1#1) && !(k0_cond255 (pf.atD 0 (k0_off255 i)) == 1#1) && !(k0_cond256 (pf.atD 0 (k0_off256 i)) == 1#1) | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x128x224x224 : Shape := ⟨4, ![16, 128, 224, 224]⟩
abbrev S16x16 : Shape := ⟨2, ![16, 16]⟩
abbrev S16x128x4x56x4x56 : Shape := ⟨6, ![16, 128, 4, 56, 4, 56]⟩
abbrev S16x4x4x128x56x56 : Shape := ⟨6, ![16, 4, 4, 128, 56, 56]⟩
abbrev S16x16x128x56x56 : Shape := ⟨5, ![16, 16, 128, 56, 56]⟩
abbrev S16x16x1x1x1 : Shape := ⟨5, ![16, 16, 1, 1, 1]⟩
abbrev S_ : Shape := ⟨0, ![]⟩
abbrev S16x16x1 : Shape := ⟨3, ![16, 16, 1]⟩
abbrev S1 : Shape := ⟨1, ![1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x128x224x224, .f32⟩
  | .hbm, ⟨1, _⟩ => ⟨S16x16, .i32⟩
  | .hbm, ⟨2, _⟩ => ⟨S16x128x4x56x4x56, .f32⟩
  | .hbm, ⟨3, _⟩ => ⟨S16x4x4x128x56x56, .f32⟩
  | .hbm, ⟨4, _⟩ => ⟨S16x16x128x56x56, .f32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16x1x1x1, .i32⟩
  | .hbm, ⟨9, _⟩ => ⟨S_, .i32⟩
  | .hbm, ⟨10, _⟩ => ⟨S16x16x1x1x1, .i32⟩
  | .hbm, ⟨11, _⟩ => ⟨S16x16x1x1x1, .i1⟩
  | .hbm, ⟨12, _⟩ => ⟨S_, .i32⟩
  | .hbm, ⟨13, _⟩ => ⟨S16x16x1x1x1, .i32⟩
  | .hbm, ⟨14, _⟩ => ⟨S16x16x1x1x1, .i32⟩
  | .hbm, ⟨15, _⟩ => ⟨S16x16x1x1x1, .i32⟩
  | .hbm, ⟨16, _⟩ => ⟨S16x16x1, .i32⟩
  | .hbm, ⟨17, _⟩ => ⟨S1, .i32⟩
  | .hbm, ⟨18, _⟩ => ⟨S_, .i32⟩
  | .hbm, ⟨19, _⟩ => ⟨S16x16x1, .i32⟩
  | .hbm, ⟨20, _⟩ => ⟨S16x16x1, .i1⟩
  | .hbm, ⟨21, _⟩ => ⟨S1x1x1, .i32⟩
  | .hbm, ⟨22, _⟩ => ⟨S16x16x1, .i32⟩
  | .hbm, ⟨23, _⟩ => ⟨S16x16x1, .i1⟩
  | .hbm, ⟨24, _⟩ => ⟨S16x16x1, .i1⟩
  | .hbm, ⟨25, _⟩ => ⟨S_, .i1⟩
  | .hbm, ⟨26, _⟩ => ⟨S16x16, .i1⟩
  | .hbm, ⟨27, _⟩ => ⟨S16x16x128x56x56, .f32⟩
  | .hbm, ⟨28, _⟩ => ⟨S16x16x128x56x56, .i1⟩
  | .hbm, ⟨29, _⟩ => ⟨S_, .f32⟩
  | .hbm, ⟨30, _⟩ => ⟨S16x16x128x56x56, .f32⟩
  | .hbm, ⟨31, _⟩ => ⟨S16x16x128x56x56, .f32⟩
  | .hbm, ⟨32, _⟩ => ⟨S16x4x4x128x56x56, .f32⟩
  | .hbm, ⟨33, _⟩ => ⟨S16x128x4x56x4x56, .f32⟩
  | .hbm, ⟨34, _⟩ => ⟨S16x128x224x224, .f32⟩
  | _, _ => ⟨S16x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_v4 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  shapeCasts_S16x128x224x224_S16x128x4x56x4x56 : S16x128x224x224.ShapeCasts S16x128x4x56x4x56
  transposes_S16x128x4x56x4x56_S16x4x4x128x56x56_0_2_4_1_3_5 : S16x128x4x56x4x56.Transposes [0, 2, 4, 1, 3, 5] S16x4x4x128x56x56
  shapeCasts_S16x4x4x128x56x56_S16x16x128x56x56 : S16x4x4x128x56x56.ShapeCasts S16x16x128x56x56
  bcast_S16x16_S16x16x1x1x1_0_1 : S16x16.BroadcastsInDim S16x16x1x1x1 (![0, 1] : Fin 2 → Fin S16x16x1x1x1.rank)
  bcast_S_S16x16x1x1x1 : S_.BroadcastsInDim S16x16x1x1x1 (![] : Fin 0 → Fin S16x16x1x1x1.rank)
  shapeCasts_S16x16x1x1x1_S16x16x1 : S16x16x1x1x1.ShapeCasts S16x16x1
  bcast_S_S16x16x1 : S_.BroadcastsInDim S16x16x1 (![] : Fin 0 → Fin S16x16x1.rank)
  bcast_S1_S1x1x1_2 : S1.BroadcastsInDim S1x1x1 (![2] : Fin 1 → Fin S1x1x1.rank)
  bcast_S1x1x1_S16x16x1_0_1_2 : S1x1x1.BroadcastsInDim S16x16x1 (![0, 1, 2] : Fin 3 → Fin S16x16x1.rank)
  reducesTo_S16x16x1_S16x16_d2 : S16x16x1.ReducesTo [2] S16x16
  h_S_ : 0 < S_.numel
  bcast_S16x16_S16x16x128x56x56_0_1 : S16x16.BroadcastsInDim S16x16x128x56x56 (![0, 1] : Fin 2 → Fin S16x16x128x56x56.rank)
  bcast_S_S16x16x128x56x56 : S_.BroadcastsInDim S16x16x128x56x56 (![] : Fin 0 → Fin S16x16x128x56x56.rank)
  shapeCasts_S16x16x128x56x56_S16x4x4x128x56x56 : S16x16x128x56x56.ShapeCasts S16x4x4x128x56x56
  transposes_S16x4x4x128x56x56_S16x128x4x56x4x56_0_3_1_4_2_5 : S16x4x4x128x56x56.Transposes [0, 3, 1, 4, 2, 5] S16x128x4x56x4x56
  shapeCasts_S16x128x4x56x4x56_S16x128x224x224 : S16x128x4x56x4x56.ShapeCasts S16x128x224x224
  gather_S16x16x128x56x56_S16x16x1_S16x16x128x56x56_234_1_0_0_1_2_111285656_wf : GatherDims.WF S16x16x128x56x56 S16x16x1 S16x16x128x56x56 [2, 3, 4] [1] [0] [1] [0] 2 ![1, 1, 128, 56, 56]

variable [Facts₀]

def comparator_i32_i32_d1 : BitVec 32 × BitVec 32 → BitVec 32 × BitVec 32 → BitVec 1 :=
  fun l r =>
    let v2 := IntOp.cmpi .slt l.1 r.1
    v2
def gather_S16x16x128x56x56_S16x16x1_S16x16x128x56x56_234_1_0_0_1_2_111285656 : GatherDims S16x16x128x56x56 S16x16x1 S16x16x128x56x56 where
  offsetDims := [2, 3, 4]
  collapsedSliceDims := [1]
  operandBatchingDims := [0]
  startIndicesBatchingDims := [0]
  startIndexMap := [1]
  indexVectorDim := 2
  sliceSizes := ![1, 1, 128, 56, 56]
  wf := gather_S16x16x128x56x56_S16x16x1_S16x16x128x56x56_234_1_0_0_1_2_111285656_wf

class Facts : Prop extends Facts₀ where

variable [Facts]
-- ==== Proof.K.Kit.lean ====
import proofs.«429720_j40398462386445_2_alg».proof.Proof.Gen.Kernel.Launch
import proofs.«429720_j40398462386445_2_alg».proof.Proof.Gen.Kernel.Skeleton
import Idealize.ShloMosaic.Lib.Pipeline.FrameBody
import Idealize.ShloMosaic.Lib.Pipeline.Kit

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Memory as the region finds it: the launch memory with the sort's three results written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither argument is among the sort's results. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The table's contents at the region's entry (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev tbM : Memref sig .tc .smem S16x16 .i32 := Memref.whole main_v0
abbrev htbM : tbM.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-- The part of window w's array that point t works on, as of the region's entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem flush1 (a : (pcfg0 (F := F)).Adm) : ∀ t : Fin (cfg0 a).N, ((cfg0 a).win 1).flush t = true :=
  (by decide +kernel : ∀ t : Fin grid0.N, Pipeline.Window.flushOf grid0 true cc0_transform_1 t = true)

abbrev ms0 (t : Fin (cfgM m).N) : Memref sig .tc .vmem S1x32x224x224 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x32x224x224 .f32 := spec0_1.stage ((cfgM m).slots t 1)
abbrev hs1 (t : Fin (cfgM m).N) : (ms1 m t).IsWhole := hstage0_1 (((cfgM m).slots t 1).cast nbuf0_1)

abbrev bodyAt (a : (pcfg0 (F := F)).Adm) (t : Fin (cfg0 a).N) : Prog (TpuEff nD τ sig (Elt F) Λ₀ .tc) PUnit :=
  cc0__kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

end Cert.Kernel.Gen

end
-- ==== Proof.Spec.lean ====
import Idealize.ShloMosaic.PureOps
import Idealize.ShloMosaic.Lib.ValueIdx

namespace Cert.BlockShuffle

open Idealize.ShloMosaic Idealize.ShloMosaic.ValueIdx

abbrev SArr : Shape := ⟨4, ![16, 128, 224, 224]⟩
abbrev STab : Shape := ⟨2, ![16, 16]⟩
abbrev SBlk : Shape := ⟨4, ![1, 32, 224, 224]⟩

/-- Same offset r mod 56, inside tile row k / 4 (taken mod 4, so the index is in range whatever k is). -/
def srcRow (k : Nat) (r : Fin 224) : Fin 224 := ⟨(k / 4 % 4) * 56 + r.val % 56, by omega⟩
def srcCol (k : Nat) (s : Fin 224) : Fin 224 := ⟨(k % 4) * 56 + s.val % 56, by omega⟩
/-- The 224 × 224 plane is a 4 × 4 arrangement of 56 × 56 tiles, tile (p, q) numbered 4p + q. -/
def tileOf (r s : Fin 224) : Fin 16 := ⟨r.val / 56 * 4 + s.val / 56, by omega⟩

/-- out[b, c, r, s] = x[b, c, ·, ·] at the same offsets in source tile inv[b, tile of (r, s)]: tiles permuted, plane by plane. -/
def shuffled {α : Type} (x : SArr.Idx → α) (inv : STab.Idx → BitVec 32) : SArr.Idx → α := fun j =>
  x (ix4 (j 0 : Fin 16) (j 1 : Fin 128)
    (srcRow (inv (ix2 (j 0 : Fin 16) (tileOf (j 2) (j 3)))).toNat (j 2))
    (srcCol (inv (ix2 (j 0 : Fin 16) (tileOf (j 2) (j 3)))).toNat (j 3)))

/-- The same formula on a [1, 32, 224, 224] block, with one row of the table. -/
def shuffledBlk {α : Type} (X : SBlk.Idx → α) (row : Fin 16 → BitVec 32) : SBlk.Idx → α := fun y =>
  X (ix4 (y 0 : Fin 1) (y 1 : Fin 32)
    (srcRow (row (tileOf (y 2) (y 3))).toNat (y 2))
    (srcCol (row (tileOf (y 2) (y 3))).toNat (y 3)))

def inTile (d : Nat) (y : SBlk.Idx) : Prop := (tileOf (y 2) (y 3)).val = d

instance (d : Nat) (y : SBlk.Idx) : Decidable (inTile d y) := by unfold inTile; infer_instance

/-- If w = k, tile k of X lands on tile d of Y; otherwise Y stays. -/
def step {α : Type} (d k : Nat) (w : BitVec 32) (X Y : SBlk.Idx → α) : SBlk.Idx → α := fun y =>
  if w = BitVec.ofNat 32 k ∧ inTile d y then X (ix4 (y 0 : Fin 1) (y 1 : Fin 32) (srcRow k (y 2)) (srcCol k (y 3))) else Y y

/-- The pairs (destination d, candidate source k) are numbered n = 16d + k; pair n uses the row's word for d. -/
def stepN {α : Type} (n : Nat) (w : BitVec 32) (X Y : SBlk.Idx → α) : SBlk.Idx → α := step (n / 16) (n % 16) w X Y
def rown (row : Fin 16 → BitVec 32) (n : Nat) : BitVec 32 := row ⟨n / 16 % 16, Nat.mod_lt _ (by decide)⟩

/-- Start from Y and apply pairs 0, …, n − 1 in order. -/
def sweep {α : Type} (row : Fin 16 → BitVec 32) (X Y : SBlk.Idx → α) : Nat → SBlk.Idx → α
  | 0 => Y
  | n + 1 => stepN n (rown row n) X (sweep row X Y n)

theorem sweep_succ {α : Type} (row : Fin 16 → BitVec 32) (X Y : SBlk.Idx → α) (n : Nat) :
    sweep row X Y (n + 1) = stepN n (rown row n) X (sweep row X Y n) := rfl

theorem sweep_one {α : Type} (row : Fin 16 → BitVec 32) (X Y : SBlk.Idx → α) :
    stepN 0 (rown row 0) X Y = sweep row X Y 1 := rfl

/-- Pair 16 d + row d is the only one that writes tile d: once it is passed tile d is final, before it tile d is Y's. -/
theorem sweep_apply {α : Type} (row : Fin 16 → BitVec 32) (hrow : ∀ d, (row d).toNat < 16) (X Y : SBlk.Idx → α) (n : Nat) (y : SBlk.Idx) :
    sweep row X Y n y
      = if (tileOf (y 2) (y 3)).val * 16 + (row (tileOf (y 2) (y 3))).toNat < n then shuffledBlk X row y else Y y := by
  induction n with
  | zero => simp [sweep]
  | succ n ih =>
    rw [sweep_succ]
    unfold stepN rown step
    rw [ih]
    have hd := (tileOf (y 2) (y 3)).isLt
    have hw := hrow (tileOf (y 2) (y 3))
    have hfin (h1 : n / 16 = (tileOf (y 2) (y 3)).val) :
        (⟨n / 16 % 16, Nat.mod_lt _ (by decide)⟩ : Fin 16) = tileOf (y 2) (y 3) := Fin.ext (by simp only; omega)
    by_cases hc : row ⟨n / 16 % 16, Nat.mod_lt _ (by decide)⟩ = BitVec.ofNat 32 (n % 16) ∧ inTile (n / 16) y
    · rw [if_pos hc]
      obtain ⟨hw', ht⟩ := hc
      unfold inTile at ht
      rw [hfin ht.symm] at hw'
      have hk : (row (tileOf (y 2) (y 3))).toNat = n % 16 := by
        rw [hw']; simp only [BitVec.toNat_ofNat]; omega
      rw [if_pos (by omega)]
      unfold shuffledBlk
      rw [hk]
    · rw [if_neg hc]
      by_cases hlt : (tileOf (y 2) (y 3)).val * 16 + (row (tileOf (y 2) (y 3))).toNat < n
      · rw [if_pos hlt, if_pos (by omega)]
      · rw [if_neg hlt, if_neg]
        intro h
        have h1 : n / 16 = (tileOf (y 2) (y 3)).val := by omega
        refine hc ⟨?_, h1.symm⟩
        rw [hfin h1]
        exact BitVec.eq_of_toNat_eq (by simp only [BitVec.toNat_ofNat]; omega)

/-- Every tile's writing pair is below 256, so nothing of Y survives. -/
theorem sweep_all {α : Type} (row : Fin 16 → BitVec 32) (hrow : ∀ d, (row d).toNat < 16) (X Y : SBlk.Idx → α) :
    sweep row X Y 256 = shuffledBlk X row := by
  funext y
  rw [sweep_apply row hrow]
  have hd := (tileOf (y 2) (y 3)).isLt
  have hw := hrow (tileOf (y 2) (y 3))
  rw [if_pos (by omega)]

/-- The sort compares the signed words only; the positions ride along. -/
def ltWords : BitVec 32 × BitVec 32 → BitVec 32 × BitVec 32 → BitVec 1 := fun l r => IntOp.cmpi .slt l.1 r.1

/-- Row by row, the positions 0..15 sorted by their words. -/
def argsortRows (p : STab.Idx → BitVec 32) : STab.Idx → BitVec 32 :=
  (Host.sort2 STab 1 ltWords p (iotaInDim STab 32 1)).2

theorem iota_lt (i : STab.Idx) : (iotaInDim STab 32 1 i).toNat < 16 := by
  unfold iotaInDim
  rw [BitVec.toNat_ofNat]
  exact Nat.lt_of_le_of_lt (Nat.mod_le _ _) (i 1).isLt

/-- The sort only moves each row's positions around, so every entry is below 16. -/
theorem argsortRows_lt (p : STab.Idx → BitVec 32) (j : STab.Idx) : (argsortRows p j).toNat < 16 := by
  unfold argsortRows Host.sort2
  rw [dif_pos (by decide : 1 < STab.rank)]
  exact iota_lt _

end Cert.BlockShuffle
-- ==== Proof.K.Words.lean ====
import proofs.«429720_j40398462386445_2_alg».proof.Proof.K.Kit
import proofs.«429720_j40398462386445_2_alg».proof.Proof.Spec
import Idealize.ShloMosaic.Lib.Pipeline.FrameBody
import Idealize.ShloMosaic.Lib.Pipeline.Frame
import Idealize.ShloMosaic.Lib.ValueIdx

noncomputable section

namespace Cert.Kernel.Gen

open Idealize.ShloMosaic Idealize.ShloMosaic.TcCoe Idealize.ShloMosaic.ValueIdx

variable {F : FTy → Type} [FloatOps F]

/-- Row b of the table, b the grid point's batch coordinate. -/
def rowAt (T : Vec F S16x16 .i32) (i : grid0.Coords) : Fin 16 → BitVec 32 :=
  fun d => T (ValueIdx.ix2 (⟨(i 0).val, (i 0).isLt⟩ : Fin 16) d)

/-- The batch coordinate is below 16, so widening its 32-bit word to an index loses nothing. -/
theorem coord_toNat (i : grid0.Coords) : (Scalar.indexCast (BitVec.ofNat 32 (i 0).val)).toNat = (i 0).val := by
  have h : (i 0).val < 16 := (i 0).isLt
  unfold Scalar.indexCast
  rw [BitVec.toNat_ofNat]
  exact Nat.mod_eq_of_lt (by omega)

/-- The scalar load of pair n = 16 d + k reads the cell (b, d) of the table, b the point's batch coordinate: the row's word at d. -/
theorem word_eq (T : Vec F S16x16 .i32) (i : grid0.Coords) (n : Nat) (v : Elt F .i32)
    {hinb : ∀ a, (![(Scalar.indexCast (BitVec.ofNat 32 (i 0).val)).toNat, n / 16 % 16] : Fin 2 → Nat) a + S1x1.size a ≤ S16x16.size a}
    (hv : v = View.readAt (Elt F) tbM.view (Rect.unit (s := S16x16) ![(Scalar.indexCast (BitVec.ofNat 32 (i 0).val)).toNat, n / 16 % 16] S1x1.size hinb).toLoadRect (htbM.unread T)
        (Shape.Idx.first (numel1_S1x1.symm ▸ Nat.one_pos)) := by rfl) :
    v = Cert.BlockShuffle.rown (rowAt T i) n := by
  subst hv
  rw [View.readAt_eq_ld, Memref.IsWhole.read_unread]
  unfold Cert.BlockShuffle.rown rowAt
  show T _ = T _
  congr 1
  funext a
  refine Fin.ext ?_
  match a with
  | ⟨0, _⟩ =>
    show (Scalar.indexCast (BitVec.ofNat 32 (i 0).val)).toNat + 1 * 0 = (i 0).val
    rw [coord_toNat]; omega
  | ⟨1, _⟩ =>
    show n / 16 % 16 + 1 * 0 = n / 16 % 16
    omega

end Cert.Kernel.Gen

end
-- ==== Proof.Guard.lean ====
import Idealize.ShloMosaic.Lib.WritesUnit
import Idealize.ShloMosaic.Lib.Pipeline.FrameBody
import proofs.«429720_j40398462386445_2_alg».proof.Proof.Spec

namespace Cert.BlockShuffle

open Idealize.ShloMosaic Idealize.ShloMosaic.ValueIdx

/-- A 56 × 56 tile across a block's 32 channels. -/
abbrev STile : Shape := ⟨4, ![1, 32, 56, 56]⟩

variable {sig : RefSig} {F : FTy → Type} [FloatOps F]

/-- Tile number 4·dr + dc is the box of rows 56·dr .. 56·dr + 55 and columns 56·dc .. 56·dc + 55. -/
theorem inTile_iff (dr dc : Nat) (hdc : dc < 4) (y : SBlk.Idx) :
    (∀ ax, (![0, 0, 56 * dr, 56 * dc] : Fin 4 → Nat) ax ≤ (y ax).val ∧ (y ax).val < (![0, 0, 56 * dr, 56 * dc] : Fin 4 → Nat) ax + STile.size ax)
      ↔ inTile (dr * 4 + dc) y := by
  unfold inTile tileOf
  have h0 : (y 0).val < 1 := (y 0).isLt
  have h1 : (y 1).val < 32 := (y 1).isLt
  have h2 : (y 2).val < 224 := (y 2).isLt
  have h3 : (y 3).val < 224 := (y 3).isLt
  constructor
  · intro h
    have e2 : 56 * dr ≤ (y 2).val ∧ (y 2).val < 56 * dr + 56 := h 2
    have e3 : 56 * dc ≤ (y 3).val ∧ (y 3).val < 56 * dc + 56 := h 3
    show (y 2).val / 56 * 4 + (y 3).val / 56 = dr * 4 + dc
    omega
  · intro h
    have h' : (y 2).val / 56 * 4 + (y 3).val / 56 = dr * 4 + dc := h
    intro ax
    match ax with
    | ⟨0, _⟩ => exact ⟨Nat.zero_le _, by show (y 0).val < 0 + 1; omega⟩
    | ⟨1, _⟩ => exact ⟨Nat.zero_le _, by show (y 1).val < 0 + 32; omega⟩
    | ⟨2, _⟩ => exact ⟨by show 56 * dr ≤ (y 2).val; omega, by show (y 2).val < 56 * dr + 56; omega⟩
    | ⟨3, _⟩ => exact ⟨by show 56 * dc ≤ (y 3).val; omega, by show (y 3).val < 56 * dc + 56; omega⟩

/-- One guarded tile copy, read back through the buffer's view, is the specification's step (C: "the word is k"; pay changes nothing). -/
theorem guard_read (C : Prop) [Decidable C]
    {sp3 sp4 : Space} (m3 : Memref sig .tc sp3 SBlk .f32) (h3 : m3.IsWhole) (m4 : Memref sig .tc sp4 SBlk .f32)
    (dr dc kr kc : Nat) (hdc : dc < 4) (hkr : kr < 4) (hkc : kc < 4)
    (hd : ∀ ax, (![0, 0, 56 * dr, 56 * dc] : Fin 4 → Nat) ax + STile.size ax ≤ SBlk.size ax)
    (hs : ∀ ax, (![0, 0, 56 * kr, 56 * kc] : Fin 4 → Nat) ax + STile.size ax ≤ SBlk.size ax)
    (pay : (STile.Idx → Elt F .f32) → (STile.Idx → Elt F .f32)) (hpay : ∀ v, pay v = v)
    (w : BitVec 32) (hC : C ↔ w = BitVec.ofNat 32 (kr * 4 + kc))
    (prev : m4.view.ty.Contents (Elt F)) (X : SBlk.Idx → Elt F .f32) :
    m4.view.read (Elt F) (if _hc : C then m4.view.writes (Elt F) prev
        [⟨Rect.unit (s := SBlk) ![0, 0, 56 * dr, 56 * dc] STile.size hd,
          pay (m3.view.readAt (Elt F) (Rect.unit (s := SBlk) ![0, 0, 56 * kr, 56 * kc] STile.size hs).toLoadRect (h3.unread X))⟩] else prev)
      = step (dr * 4 + dc) (kr * 4 + kc) w X (m4.view.read (Elt F) prev) := by
  funext y
  unfold step
  by_cases hc : C
  · rw [dif_pos hc, View.read_writes_cons_unit (v := m4.view) (f := prev) hd _ [] y rfl]
    by_cases hin : ∀ ax, (![0, 0, 56 * dr, 56 * dc] : Fin 4 → Nat) ax ≤ (y ax).val ∧ (y ax).val < (![0, 0, 56 * dr, 56 * dc] : Fin 4 → Nat) ax + STile.size ax
    · rw [dif_pos hin, if_pos ⟨hC.mp hc, (inTile_iff dr dc hdc y).mp hin⟩, hpay, View.readAt_eq_ld, h3.read_unread]
      have e2 : 56 * dr ≤ (y 2).val ∧ (y 2).val < 56 * dr + 56 := hin 2
      have e3 : 56 * dc ≤ (y 3).val ∧ (y 3).val < 56 * dc + 56 := hin 3
      have h0 : (y 0).val < 1 := (y 0).isLt
      refine congrArg X (funext fun ax => Fin.ext ?_)
      match ax with
      | ⟨0, _⟩ => show 0 + 1 * ((y 0).val - 0) = (y 0).val; omega
      | ⟨1, _⟩ => show 0 + 1 * ((y 1).val - 0) = (y 1).val; omega
      | ⟨2, _⟩ => show 56 * kr + 1 * ((y 2).val - 56 * dr) = (kr * 4 + kc) / 4 % 4 * 56 + (y 2).val % 56; omega
      | ⟨3, _⟩ => show 56 * kc + 1 * ((y 3).val - 56 * dc) = (kr * 4 + kc) % 4 * 56 + (y 3).val % 56; omega
    · rw [dif_neg hin, if_neg (fun h => hin ((inTile_iff dr dc hdc y).mpr h.2)), View.writes_nil]
  · rw [dif_neg hc, if_neg (fun h => hc (hC.mpr h.1))]

/-- The same for pair n = 16 d + k, tiles given by n, as a statement about the whole buffer: it is determined by what is read off it. -/
theorem guard_contents (C : Prop) [Decidable C]
    {sp3 sp4 : Space} (m3 : Memref sig .tc sp3 SBlk .f32) (h3 : m3.IsWhole) (m4 : Memref sig .tc sp4 SBlk .f32) (h4 : m4.IsWhole) (n : Nat)
    (hd : ∀ ax, (![0, 0, 56 * (n / 16 / 4), 56 * (n / 16 % 4)] : Fin 4 → Nat) ax + STile.size ax ≤ SBlk.size ax)
    (hs : ∀ ax, (![0, 0, 56 * (n % 16 / 4), 56 * (n % 16 % 4)] : Fin 4 → Nat) ax + STile.size ax ≤ SBlk.size ax)
    (pay : (STile.Idx → Elt F .f32) → (STile.Idx → Elt F .f32)) (hpay : ∀ v, pay v = v)
    (w : BitVec 32) (hC : C ↔ w = BitVec.ofNat 32 (n % 16))
    (prev : m4.view.ty.Contents (Elt F)) (X : SBlk.Idx → Elt F .f32) :
    (if _hc : C then m4.view.writes (Elt F) prev
        [⟨Rect.unit (s := SBlk) ![0, 0, 56 * (n / 16 / 4), 56 * (n / 16 % 4)] STile.size hd,
          pay (m3.view.readAt (Elt F) (Rect.unit (s := SBlk) ![0, 0, 56 * (n % 16 / 4), 56 * (n % 16 % 4)] STile.size hs).toLoadRect (h3.unread X))⟩] else prev)
      = h4.unread (stepN n w X (m4.view.read (Elt F) prev)) := by
  have ek : n % 16 / 4 * 4 + n % 16 % 4 = n % 16 := by omega
  have e := guard_read C m3 h3 m4 (n / 16 / 4) (n / 16 % 4) (n % 16 / 4) (n % 16 % 4) (Nat.mod_lt _ (by decide)) (by omega)
    (Nat.mod_lt _ (by decide)) hd hs pay hpay w (by rwa [ek]) prev X
  rw [show n / 16 / 4 * 4 + n / 16 % 4 = n / 16 by omega, ek] at e
  exact h4.eq_unread e

end Cert.BlockShuffle
-- ==== Proof.K.Cond.lean ====
import proofs.«429720_j40398462386445_2_alg».proof.Proof.Gen.Kernel.Skeleton
import proofs.«429720_j40398462386445_2_alg».proof.Proof.Guard
import Idealize.ShloMosaic.Lib.Pipeline.Value
import Idealize.ShloMosaic.Lib.ValueIdx
import Idealize.ShloMosaic.Lib.Pipeline.FrameBody

noncomputable section

namespace Cert.Kernel.Gen

open Idealize.ShloMosaic Idealize.ShloMosaic.TcCoe Idealize.ShloMosaic.ValueIdx

variable {F : FTy → Type} [FloatOps F]

/-- The body's test "w = c" (compare, widen the bit to a word, test the word against zero) holds exactly when w = c. -/
theorem cond_iff (w c : BitVec 32) :
    Scalar.cmpi .ne (Scalar.extui (Scalar.cmpi .eq w c) : BitVec 32) 0#32 = 1#1 ↔ w = c := by
  by_cases h : w = c
  · subst h
    simp [Scalar.cmpi, Scalar.extui, IntOp.cmpi]
  · have hb : (w == c) = false := by simp [h]
    simp [Scalar.cmpi, Scalar.extui, IntOp.cmpi, hb, h]

/-- Guarded copy n + 1 of the body (n = 16 d + k) tests "w = k" and stores the loaded tile reshaped and back: the specification's pair n. -/
theorem guard {arg3 arg4 : Memref sig .tc .vmem S1x32x224x224 .f32} (harg3 : arg3.IsWhole) (harg4 : arg4.IsWhole)
    (cond : BitVec 32 → BitVec 1) (pay : Vec F S1x32x56x56 .f32 → FVec F S1x32x56x56 .f32) (n : Nat)
    {hd : ∀ ax, (![0, 0, 56 * (n / 16 / 4), 56 * (n / 16 % 4)] : Fin 4 → Nat) ax + S1x32x56x56.size ax ≤ S1x32x224x224.size ax}
    {hs : ∀ ax, (![0, 0, 56 * (n % 16 / 4), 56 * (n % 16 % 4)] : Fin 4 → Nat) ax + S1x32x56x56.size ax ≤ S1x32x224x224.size ax}
    {w : Elt F .i32} {prev : arg4.view.ty.Contents (Elt F)} {X : Vec F S1x32x224x224 .f32}
    (hcond : cond = fun w => Scalar.cmpi .ne (Scalar.extui (Scalar.cmpi .eq w (BitVec.ofNat 32 (n % 16))) : BitVec 32) 0#32 := by rfl)
    (hpay : pay = fun v => shapeCast S1x32x56x56 (shapeCast S32x56x56 v shapeCasts_S1x32x56x56_S32x56x56) shapeCasts_S32x56x56_S1x32x56x56 := by rfl) :
    (if _hc : cond w = 1#1 then arg4.view.writes (Elt F) prev [⟨Rect.unit (s := S1x32x224x224) ![0, 0, 56 * (n / 16 / 4), 56 * (n / 16 % 4)] S1x32x56x56.size hd, pay (arg3.view.readAt (Elt F) (Rect.unit (s := S1x32x224x224) ![0, 0, 56 * (n % 16 / 4), 56 * (n % 16 % 4)] S1x32x56x56.size hs).toLoadRect (harg3.unread X))⟩] else prev)
      = harg4.unread (Cert.BlockShuffle.stepN n w X (arg4.view.read (Elt F) prev)) := by
  subst hcond hpay
  exact Cert.BlockShuffle.guard_contents _ arg3 harg3 arg4 harg4 n hd hs _ (fun v => shapeCast_shapeCast v _ _) w (cond_iff w _) prev X

end Cert.Kernel.Gen

end
-- ==== Proof.K.Body.lean ====
import proofs.«429720_j40398462386445_2_alg».proof.Proof.K.Kit
import proofs.«429720_j40398462386445_2_alg».proof.Proof.K.Words
import proofs.«429720_j40398462386445_2_alg».proof.Proof.K.Cond
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BlockShuffle (sweep_one sweep_succ sweep_all shuffledBlk)

variable {F : FTy → Type} [FloatOps F]

local notation "𝕄" => MT nD τ sig Unit (Elt F) ℕ (UR sig nD τ) ℕ

set_option maxHeartbeats 0 in
/-- After n of the 256 pairs the output block reads as the sweep at n over what it held: it ends as the shuffled input block. -/
theorem kernel_run (c : Dev nD) (i : grid0.Coords)
    (arg3 : Memref sig .tc .vmem S1x32x224x224 .f32) (harg3 : arg3.IsWhole) (arg4 : Memref sig .tc .vmem S1x32x224x224 .f32) (harg4 : arg4.IsWhole)
    (X : Vec F S1x32x224x224 .f32) (T : Vec F S16x16 .i32) (hT : ∀ j, (T j).toNat < 16)
    (E : Set ℕ) (K : PUnit → sProp 𝕄) :
    iprop(owns (c : Thread nD τ) arg3 fullShare X ∗ (∃ Y, owns (c : Thread nD τ) arg4 fullShare Y) ∗ tbPt c tbM (htbM.unread T)
        ∗ (iprop(owns (c : Thread nD τ) arg3 fullShare X ∗ owns (c : Thread nD τ) arg4 fullShare (shuffledBlk X (rowAt T i)) ∗ tbPt c tbM (htbM.unread T)) -∗ K ⟨⟩))
      ⊢ wp frame (wpE (defs₀ (F := F)) Variants.none c none) E (cc0__kernel i tbM htbM arg3 harg3 arg4 harg4) K := by
  simp only [cc0__kernel_eq_skeleton]; unfold cc0__kernel_skel
  simp only [k0_part39_eq_skeleton]; unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f0, %hf0, H0⟩, ⟨%Y, %f1, %hf1, H1⟩, HT, Hk⟩
  obtain rfl := harg3.eq_unread hf0
  obtain rfl := harg4.eq_unread hf1
  set_option sl_exec.stopBefore "k0_cond9" in sl_exec
  rw [guard harg3 harg4 k0_cond8 k0_pay9 7, guard harg3 harg4 k0_cond7 k0_pay8 6, harg4.read_unread, guard harg3 harg4 k0_cond6 k0_pay7 5, harg4.read_unread, guard harg3 harg4 k0_cond5 k0_pay6 4, harg4.read_unread, guard harg3 harg4 k0_cond4 k0_pay5 3, harg4.read_unread, guard harg3 harg4 k0_cond3 k0_pay4 2, harg4.read_unread, guard harg3 harg4 k0_cond2 k0_pay3 1, harg4.read_unread, guard harg3 harg4 k0_cond1 k0_pay2 0, harg4.read_unread, harg4.read_unread]
  rw [word_eq T i 0 (kernel_run.sl.r i T), word_eq T i 1 (kernel_run.sl.r_1 i T), word_eq T i 2 (kernel_run.sl.r_2 i T), word_eq T i 3 (kernel_run.sl.r_3 i T), word_eq T i 4 (kernel_run.sl.r_4 i T), word_eq T i 5 (kernel_run.sl.r_5 i T), word_eq T i 6 (kernel_run.sl.r_6 i T), word_eq T i 7 (kernel_run.sl.r_7 i T)]
  rw [sweep_one, ← sweep_succ, ← sweep_succ, ← sweep_succ, ← sweep_succ, ← sweep_succ, ← sweep_succ, ← sweep_succ]
  set_option sl_exec.stopBefore "k0_cond17" in sl_exec
  rw [guard harg3 harg4 k0_cond16 k0_pay17 15, guard harg3 harg4 k0_cond15 k0_pay16 14, harg4.read_unread, guard harg3 harg4 k0_cond14 k0_pay15 13, harg4.read_unread, guard harg3 harg4 k0_cond13 k0_pay14 12, harg4.read_unread, guard harg3 harg4 k0_cond12 k0_pay13 11, harg4.read_unread, guard harg3 harg4 k0_cond11 k0_pay12 10, harg4.read_unread, guard harg3 harg4 k0_cond10 k0_pay11 9, harg4.read_unread, guard harg3 harg4 k0_cond9 k0_pay10 8, harg4.read_unread, harg4.read_unread]
  rw [word_eq T i 8 (kernel_run.sl.r_8 i T), word_eq T i 9 (kernel_run.sl.r_9 i T), word_eq T i 10 (kernel_run.sl.r_10 i T), word_eq T i 11 (kernel_run.sl.r_11 i T), word_eq T i 12 (kernel_run.sl.r_12 i T), word_eq T i 13 (kernel_run.sl.r_13 i T), word_eq T i 14 (kernel_run.sl.r_14 i T), word_eq T i 15 (kernel_run.sl.r_15 i T)]
  rw [← sweep_succ, ← sweep_succ, ← sweep_succ, ← sweep_succ, ← sweep_succ, ← sweep_succ, ← sweep_succ, ← sweep_succ]
  set_option sl_exec.stopBefore "k0_cond25" in sl_exec
  rw [guard harg3 harg4 k0_cond24 k0_pay25 23, guard harg3 harg4 k0_cond23 k0_pay24 22, harg4.read_unread, guard harg3 harg4 k0_cond22 k0_pay23 21, harg4.read_unread, guard harg3 harg4 k0_cond21 k0_pay22 20, harg4.read_unread, guard harg3 harg4 k0_cond20 k0_pay21 19, harg4.read_unread, guard harg3 harg4 k0_cond19 k0_pay20 18, harg4.read_unread, guard harg3 harg4 k0_cond18 k0_pay19 17, harg4.read_unread, guard harg3 harg4 k0_cond17 k0_pay18 16, harg4.read_unread, harg4.read_unread]
  rw [word_eq T i 16 (kernel_run.sl.r_16 i T), word_eq T i 17 (kernel_run.sl.r_17 i T), word_eq T i 18 (kernel_run.sl.r_18 i T), word_eq T i 19 (kernel_run.sl.r_19 i T), word_eq T i 20 (kernel_run.sl.r_20 i T), word_eq T i 21 (kernel_run.sl.r_21 i T), word_eq T i 22 (kernel_run.sl.r_22 i T), word_eq T i 23 (kernel_run.sl.r_23 i T)]
  rw [← sweep_succ, ← sweep_succ, ← sweep_succ, ← sweep_succ, ← sweep_succ, ← sweep_succ, ← sweep_succ, ← sweep_succ]
  set_option sl_exec.stopBefore "k0_cond33" in sl_exec
  rw [guard harg3 harg4 k0_cond32 k0_pay33 31, guard harg3 harg4 k0_cond31 k0_pay32 30, harg4.read_unread, guard harg3 harg4 k0_cond30 k0_pay31 29, harg4.read_unread, guard harg3 harg4 k0_cond29 k0_pay30 28, harg4.read_unread, guard harg3 harg4 k0_cond28 k0_pay29 27, harg4.read_unread, guard harg3 harg4 k0_cond27 k0_pay28 26, harg4.read_unread, guard harg3 harg4 k0_cond26 k0_pay27 25, harg4.read_unread, guard harg3 harg4 k0_cond25 k0_pay26 24, harg4.read_unread, harg4.read_unread]
  rw [word_eq T i 24 (kernel_run.sl.r_24 i T), word_eq T i 25 (kernel_run.sl.r_25 i T), word_eq T i 26 (kernel_run.sl.r_26 i T), word_eq T i 27 (kernel_run.sl.r_27 i T), word_eq T i 28 (kernel_run.sl.r_28 i T), word_eq T i 29 (kernel_run.sl.r_29 i T), word_eq T i 30 (kernel_run.sl.r_30 i T), word_eq T i 31 (kernel_run.sl.r_31 i T)]
  rw [← sweep_succ, ← sweep_succ, ← sweep_succ, ← sweep_succ, ← sweep_succ, ← sweep_succ, ← sweep_succ, ← sweep_succ]
  set_option sl_exec.stopBefore "k0_cond41" in sl_exec
  rw [guard harg3 harg4 k0_cond40 k0_pay41 39, guard harg3 harg4 k0_cond39 k0_pay40 38, harg4.read_unread, guard harg3 harg4 k0_cond38 k0_pay39 37, harg4.read_unread, guard harg3 harg4 k0_cond37 k0_pay38 36, harg4.read_unread, guard harg3 harg4 k0_cond36 k0_pay37 35, harg4.read_unread, guard harg3 harg4 k0_cond35 k0_pay36 34, harg4.read_unread, guard harg3 harg4 k0_cond34 k0_pay35 33, harg4.read_unread, guard harg3 harg4 k0_cond33 k0_pay34 32, harg4.read_unread, harg4.read_unread]
  rw [word_eq T i 32 (kernel_run.sl.r_32 i T), word_eq T i 33 (kernel_run.sl.r_33 i T), word_eq T i 34 (kernel_run.sl.r_34 i T), word_eq T i 35 (kernel_run.sl.r_35 i T), word_eq T i 36 (kernel_run.sl.r_36 i T), word_eq T i 37 (kernel_run.sl.r_37 i T), word_eq T i 38 (kernel_run.sl.r_38 i T), word_eq T i 39 (kernel_run.sl.r_39 i T)]
  rw [← sweep_succ, ← sweep_succ, ← sweep_succ, ← sweep_succ, ← sweep_succ, ← sweep_succ, ← sweep_succ, ← sweep_succ]
  set_option sl_exec.stopBefore "k0_cond49" in sl_exec
  rw [guard harg3 harg4 k0_cond48 k0_pay49 47, guard harg3 harg4 k0_cond47 k0_pay48 46, harg4.read_unread, guard harg3 harg4 k0_cond46 k0_pay47 45, harg4.read_unread, guard harg3 harg4 k0_cond45 k0_pay46 44, harg4.read_unread, guard harg3 harg4 k0_cond44 k0_pay45 43, harg4.read_unread, guard harg3 harg4 k0_cond43 k0_pay44 42, harg4.read_unread, guard harg3 harg4 k0_cond42 k0_pay43 41, harg4.read_unread, guard harg3 harg4 k0_cond41 k0_pay42 40, harg4.read_unread, harg4.read_unread]
  rw [word_eq T i 40 (kernel_run.sl.r_40 i T), word_eq T i 41 (kernel_run.sl.r_41 i T), word_eq T i 42 (kernel_run.sl.r_42 i T), word_eq T i 43 (kernel_run.sl.r_43 i T), word_eq T i 44 (kernel_run.sl.r_44 i T), word_eq T i 45 (kernel_run.sl.r_45 i T), word_eq T i 46 (kernel_run.sl.r_46 i T), word_eq T i 47 (kernel_run.sl.r_47 i T)]
  rw [← sweep_succ, ← sweep_succ, ← sweep_succ, ← sweep_succ, ← sweep_succ, ← sweep_succ, ← sweep_succ, ← sweep_succ]
  set_option sl_exec.stopBefore "k0_cond57" in sl_exec
  rw [guard harg3 harg4 k0_cond56 k0_pay57 55, guard harg3 harg4 k0_cond55 k0_pay56 54, harg4.read_unread, guard harg3 harg4 k0_cond54 k0_pay55 53, harg4.read_unread, guard harg3 harg4 k0_cond53 k0_pay54 52, harg4.read_unread, guard harg3 harg4 k0_cond52 k0_pay53 51, harg4.read_unread, guard harg3 harg4 k0_cond51 k0_pay52 50, harg4.read_unread, guard harg3 harg4 k0_cond50 k0_pay51 49, harg4.read_unread, guard harg3 harg4 k0_cond49 k0_pay50 48, harg4.read_unread, harg4.read_unread]
  rw [word_eq T i 48 (kernel_run.sl.r_48 i T), word_eq T i 49 (kernel_run.sl.r_49 i T), word_eq T i 50 (kernel_run.sl.r_50 i T), word_eq T i 51 (kernel_run.sl.r_51 i T), word_eq T i 52 (kernel_run.sl.r_52 i T), word_eq T i 53 (kernel_run.sl.r_53 i T), word_eq T i 54 (kernel_run.sl.r_54 i T), word_eq T i 55 (kernel_run.sl.r_55 i T)]
  rw [← sweep_succ, ← sweep_succ, ← sweep_succ, ← sweep_succ, ← sweep_succ, ← sweep_succ, ← sweep_succ, ← sweep_succ]
  set_option sl_exec.stopBefore "k0_cond65" in sl_exec
  rw [guard harg3 harg4 k0_cond64 k0_pay65 63, guard harg3 harg4 k0_cond63 k0_pay64 62, harg4.read_unread, guard harg3 harg4 k0_cond62 k0_pay63 61, harg4.read_unread, guard harg3 harg4 k0_cond61 k0_pay62 60, harg4.read_unread, guard harg3 harg4 k0_cond60 k0_pay61 59, harg4.read_unread, guard harg3 harg4 k0_cond59 k0_pay60 58, harg4.read_unread, guard harg3 harg4 k0_cond58 k0_pay59 57, harg4.read_unread, guard harg3 harg4 k0_cond57 k0_pay58 56, harg4.read_unread, harg4.read_unread]
  rw [word_eq T i 56 (kernel_run.sl.r_56 i T), word_eq T i 57 (kernel_run.sl.r_57 i T), word_eq T i 58 (kernel_run.sl.r_58 i T), word_eq T i 59 (kernel_run.sl.r_59 i T), word_eq T i 60 (kernel_run.sl.r_60 i T), word_eq T i 61 (kernel_run.sl.r_61 i T), word_eq T i 62 (kernel_run.sl.r_62 i T), word_eq T i 63 (kernel_run.sl.r_63 i T)]
  rw [← sweep_succ, ← sweep_succ, ← sweep_succ, ← sweep_succ, ← sweep_succ, ← sweep_succ, ← sweep_succ, ← sweep_succ]
  set_option sl_exec.stopBefore "k0_cond73" in sl_exec
  rw [guard harg3 harg4 k0_cond72 k0_pay73 71, guard harg3 harg4 k0_cond71 k0_pay72 70, harg4.read_unread, guard harg3 harg4 k0_cond70 k0_pay71 69, harg4.read_unread, guard harg3 harg4 k0_cond69 k0_pay70 68, harg4.read_unread, guard harg3 harg4 k0_cond68 k0_pay69 67, harg4.read_unread, guard harg3 harg4 k0_cond67 k0_pay68 66, harg4.read_unread, guard harg3 harg4 k0_cond66 k0_pay67 65, harg4.read_unread, guard harg3 harg4 k0_cond65 k0_pay66 64, harg4.read_unread, harg4.read_unread]
  rw [word_eq T i 64 (kernel_run.sl.r_64 i T), word_eq T i 65 (kernel_run.sl.r_65 i T), word_eq T i 66 (kernel_run.sl.r_66 i T), word_eq T i 67 (kernel_run.sl.r_67 i T), word_eq T i 68 (kernel_run.sl.r_68 i T), word_eq T i 69 (kernel_run.sl.r_69 i T), word_eq T i 70 (kernel_run.sl.r_70 i T), word_eq T i 71 (kernel_run.sl.r_71 i T)]
  rw [← sweep_succ, ← sweep_succ, ← sweep_succ, ← sweep_succ, ← sweep_succ, ← sweep_succ, ← sweep_succ, ← sweep_succ]
  set_option sl_exec.stopBefore "k0_cond81" in sl_exec
  rw [guard harg3 harg4 k0_cond80 k0_pay81 79, guard harg3 harg4 k0_cond79 k0_pay80 78, harg4.read_unread, guard harg3 harg4 k0_cond78 k0_pay79 77, harg4.read_unread, guard harg3 harg4 k0_cond77 k0_pay78 76, harg4.read_unread, guard harg3 harg4 k0_cond76 k0_pay77 75, harg4.read_unread, guard harg3 harg4 k0_cond75 k0_pay76 74, harg4.read_unread, guard harg3 harg4 k0_cond74 k0_pay75 73, harg4.read_unread, guard harg3 harg4 k0_cond73 k0_pay74 72, harg4.read_unread, harg4.read_unread]
  rw [word_eq T i 72 (kernel_run.sl.r_72 i T), word_eq T i 73 (kernel_run.sl.r_73 i T), word_eq T i 74 (kernel_run.sl.r_74 i T), word_eq T i 75 (kernel_run.sl.r_75 i T), word_eq T i 76 (kernel_run.sl.r_76 i T), word_eq T i 77 (kernel_run.sl.r_77 i T), word_eq T i 78 (kernel_run.sl.r_78 i T), word_eq T i 79 (kernel_run.sl.r_79 i T)]
  rw [← sweep_succ, ← sweep_succ, ← sweep_succ, ← sweep_succ, ← sweep_succ, ← sweep_succ, ← sweep_succ, ← sweep_succ]
  set_option sl_exec.stopBefore "k0_cond89" in sl_exec
  rw [guard harg3 harg4 k0_cond88 k0_pay89 87, guard harg3 harg4 k0_cond87 k0_pay88 86, harg4.read_unread, guard harg3 harg4 k0_cond86 k0_pay87 85, harg4.read_unread, guard harg3 harg4 k0_cond85 k0_pay86 84, harg4.read_unread, guard harg3 harg4 k0_cond84 k0_pay85 83, harg4.read_unread, guard harg3 harg4 k0_cond83 k0_pay84 82, harg4.read_unread, guard harg3 harg4 k0_cond82 k0_pay83 81, harg4.read_unread, guard harg3 harg4 k0_cond81 k0_pay82 80, harg4.read_unread, harg4.read_unread]
  rw [word_eq T i 80 (kernel_run.sl.r_80 i T), word_eq T i 81 (kernel_run.sl.r_81 i T), word_eq T i 82 (kernel_run.sl.r_82 i T), word_eq T i 83 (kernel_run.sl.r_83 i T), word_eq T i 84 (kernel_run.sl.r_84 i T), word_eq T i 85 (kernel_run.sl.r_85 i T), word_eq T i 86 (kernel_run.sl.r_86 i T), word_eq T i 87 (kernel_run.sl.r_87 i T)]
  rw [← sweep_succ, ← sweep_succ, ← sweep_succ, ← sweep_succ, ← sweep_succ, ← sweep_succ, ← sweep_succ, ← sweep_succ]
  set_option sl_exec.stopBefore "k0_cond97" in sl_exec
  rw [guard harg3 harg4 k0_cond96 k0_pay97 95, guard harg3 harg4 k0_cond95 k0_pay96 94, harg4.read_unread, guard harg3 harg4 k0_cond94 k0_pay95 93, harg4.read_unread, guard harg3 harg4 k0_cond93 k0_pay94 92, harg4.read_unread, guard harg3 harg4 k0_cond92 k0_pay93 91, harg4.read_unread, guard harg3 harg4 k0_cond91 k0_pay92 90, harg4.read_unread, guard harg3 harg4 k0_cond90 k0_pay91 89, harg4.read_unread, guard harg3 harg4 k0_cond89 k0_pay90 88, harg4.read_unread, harg4.read_unread]
  rw [word_eq T i 88 (kernel_run.sl.r_88 i T), word_eq T i 89 (kernel_run.sl.r_89 i T), word_eq T i 90 (kernel_run.sl.r_90 i T), word_eq T i 91 (kernel_run.sl.r_91 i T), word_eq T i 92 (kernel_run.sl.r_92 i T), word_eq T i 93 (kernel_run.sl.r_93 i T), word_eq T i 94 (kernel_run.sl.r_94 i T), word_eq T i 95 (kernel_run.sl.r_95 i T)]
  rw [← sweep_succ, ← sweep_succ, ← sweep_succ, ← sweep_succ, ← sweep_succ, ← sweep_succ, ← sweep_succ, ← sweep_succ]
  set_option sl_exec.stopBefore "k0_cond105" in sl_exec
  rw [guard harg3 harg4 k0_cond104 k0_pay105 103, guard harg3 harg4 k0_cond103 k0_pay104 102, harg4.read_unread, guard harg3 harg4 k0_cond102 k0_pay103 101, harg4.read_unread, guard harg3 harg4 k0_cond101 k0_pay102 100, harg4.read_unread, guard harg3 harg4 k0_cond100 k0_pay101 99, harg4.read_unread, guard harg3 harg4 k0_cond99 k0_pay100 98, harg4.read_unread, guard harg3 harg4 k0_cond98 k0_pay99 97, harg4.read_unread, guard harg3 harg4 k0_cond97 k0_pay98 96, harg4.read_unread, harg4.read_unread]
  rw [word_eq T i 96 (kernel_run.sl.r_96 i T), word_eq T i 97 (kernel_run.sl.r_97 i T), word_eq T i 98 (kernel_run.sl.r_98 i T), word_eq T i 99 (kernel_run.sl.r_99 i T), word_eq T i 100 (kernel_run.sl.r_100 i T), word_eq T i 101 (kernel_run.sl.r_101 i T), word_eq T i 102 (kernel_run.sl.r_102 i T), word_eq T i 103 (kernel_run.sl.r_103 i T)]
  rw [← sweep_succ, ← sweep_succ, ← sweep_succ, ← sweep_succ, ← sweep_succ, ← sweep_succ, ← sweep_succ, ← sweep_succ]
  set_option sl_exec.stopBefore "k0_cond113" in sl_exec
  rw [guard harg3 harg4 k0_cond112 k0_pay113 111, guard harg3 harg4 k0_cond111 k0_pay112 110, harg4.read_unread, guard harg3 harg4 k0_cond110 k0_pay111 109, harg4.read_unread, guard harg3 harg4 k0_cond109 k0_pay110 108, harg4.read_unread, guard harg3 harg4 k0_cond108 k0_pay109 107, harg4.read_unread, guard harg3 harg4 k0_cond107 k0_pay108 106, harg4.read_unread, guard harg3 harg4 k0_cond106 k0_pay107 105, harg4.read_unread, guard harg3 harg4 k0_cond105 k0_pay106 104, harg4.read_unread, harg4.read_unread]
  rw [word_eq T i 104 (kernel_run.sl.r_104 i T), word_eq T i 105 (kernel_run.sl.r_105 i T), word_eq T i 106 (kernel_run.sl.r_106 i T), word_eq T i 107 (kernel_run.sl.r_107 i T), word_eq T i 108 (kernel_run.sl.r_108 i T), word_eq T i 109 (kernel_run.sl.r_109 i T), word_eq T i 110 (kernel_run.sl.r_110 i T), word_eq T i 111 (kernel_run.sl.r_111 i T)]
  rw [← sweep_succ, ← sweep_succ, ← sweep_succ, ← sweep_succ, ← sweep_succ, ← sweep_succ, ← sweep_succ, ← sweep_succ]
  set_option sl_exec.stopBefore "k0_cond121" in sl_exec
  rw [guard harg3 harg4 k0_cond120 k0_pay121 119, guard harg3 harg4 k0_cond119 k0_pay120 118, harg4.read_unread, guard harg3 harg4 k0_cond118 k0_pay119 117, harg4.read_unread, guard harg3 harg4 k0_cond117 k0_pay118 116, harg4.read_unread, guard harg3 harg4 k0_cond116 k0_pay117 115, harg4.read_unread, guard harg3 harg4 k0_cond115 k0_pay116 114, harg4.read_unread, guard harg3 harg4 k0_cond114 k0_pay115 113, harg4.read_unread, guard harg3 harg4 k0_cond113 k0_pay114 112, harg4.read_unread, harg4.read_unread]
  rw [word_eq T i 112 (kernel_run.sl.r_112 i T), word_eq T i 113 (kernel_run.sl.r_113 i T), word_eq T i 114 (kernel_run.sl.r_114 i T), word_eq T i 115 (kernel_run.sl.r_115 i T), word_eq T i 116 (kernel_run.sl.r_116 i T), word_eq T i 117 (kernel_run.sl.r_117 i T), word_eq T i 118 (kernel_run.sl.r_118 i T), word_eq T i 119 (kernel_run.sl.r_119 i T)]
  rw [← sweep_succ, ← sweep_succ, ← sweep_succ, ← sweep_succ, ← sweep_succ, ← sweep_succ, ← sweep_succ, ← sweep_succ]
  set_option sl_exec.stopBefore "k0_cond129" in sl_exec
  rw [guard harg3 harg4 k0_cond128 k0_pay129 127, guard harg3 harg4 k0_cond127 k0_pay128 126, harg4.read_unread, guard harg3 harg4 k0_cond126 k0_pay127 125, harg4.read_unread, guard harg3 harg4 k0_cond125 k0_pay126 124, harg4.read_unread, guard harg3 harg4 k0_cond124 k0_pay125 123, harg4.read_unread, guard harg3 harg4 k0_cond123 k0_pay124 122, harg4.read_unread, guard harg3 harg4 k0_cond122 k0_pay123 121, harg4.read_unread, guard harg3 harg4 k0_cond121 k0_pay122 120, harg4.read_unread, harg4.read_unread]
  rw [word_eq T i 120 (kernel_run.sl.r_120 i T), word_eq T i 121 (kernel_run.sl.r_121 i T), word_eq T i 122 (kernel_run.sl.r_122 i T), word_eq T i 123 (kernel_run.sl.r_123 i T), word_eq T i 124 (kernel_run.sl.r_124 i T), word_eq T i 125 (kernel_run.sl.r_125 i T), word_eq T i 126 (kernel_run.sl.r_126 i T), word_eq T i 127 (kernel_run.sl.r_127 i T)]
  rw [← sweep_succ, ← sweep_succ, ← sweep_succ, ← sweep_succ, ← sweep_succ, ← sweep_succ, ← sweep_succ, ← sweep_succ]
  set_option sl_exec.stopBefore "k0_cond137" in sl_exec
  rw [guard harg3 harg4 k0_cond136 k0_pay137 135, guard harg3 harg4 k0_cond135 k0_pay136 134, harg4.read_unread, guard harg3 harg4 k0_cond134 k0_pay135 133, harg4.read_unread, guard harg3 harg4 k0_cond133 k0_pay134 132, harg4.read_unread, guard harg3 harg4 k0_cond132 k0_pay133 131, harg4.read_unread, guard harg3 harg4 k0_cond131 k0_pay132 130, harg4.read_unread, guard harg3 harg4 k0_cond130 k0_pay131 129, harg4.read_unread, guard harg3 harg4 k0_cond129 k0_pay130 128, harg4.read_unread, harg4.read_unread]
  rw [word_eq T i 128 (kernel_run.sl.r_128 i T), word_eq T i 129 (kernel_run.sl.r_129 i T), word_eq T i 130 (kernel_run.sl.r_130 i T), word_eq T i 131 (kernel_run.sl.r_131 i T), word_eq T i 132 (kernel_run.sl.r_132 i T), word_eq T i 133 (kernel_run.sl.r_133 i T), word_eq T i 134 (kernel_run.sl.r_134 i T), word_eq T i 135 (kernel_run.sl.r_135 i T)]
  rw [← sweep_succ, ← sweep_succ, ← sweep_succ, ← sweep_succ, ← sweep_succ, ← sweep_succ, ← sweep_succ, ← sweep_succ]
  set_option sl_exec.stopBefore "k0_cond145" in sl_exec
  rw [guard harg3 harg4 k0_cond144 k0_pay145 143, guard harg3 harg4 k0_cond143 k0_pay144 142, harg4.read_unread, guard harg3 harg4 k0_cond142 k0_pay143 141, harg4.read_unread, guard harg3 harg4 k0_cond141 k0_pay142 140, harg4.read_unread, guard harg3 harg4 k0_cond140 k0_pay141 139, harg4.read_unread, guard harg3 harg4 k0_cond139 k0_pay140 138, harg4.read_unread, guard harg3 harg4 k0_cond138 k0_pay139 137, harg4.read_unread, guard harg3 harg4 k0_cond137 k0_pay138 136, harg4.read_unread, harg4.read_unread]
  rw [word_eq T i 136 (kernel_run.sl.r_136 i T), word_eq T i 137 (kernel_run.sl.r_137 i T), word_eq T i 138 (kernel_run.sl.r_138 i T), word_eq T i 139 (kernel_run.sl.r_139 i T), word_eq T i 140 (kernel_run.sl.r_140 i T), word_eq T i 141 (kernel_run.sl.r_141 i T), word_eq T i 142 (kernel_run.sl.r_142 i T), word_eq T i 143 (kernel_run.sl.r_143 i T)]
  rw [← sweep_succ, ← sweep_succ, ← sweep_succ, ← sweep_succ, ← sweep_succ, ← sweep_succ, ← sweep_succ, ← sweep_succ]
  set_option sl_exec.stopBefore "k0_cond153" in sl_exec
  rw [guard harg3 harg4 k0_cond152 k0_pay153 151, guard harg3 harg4 k0_cond151 k0_pay152 150, harg4.read_unread, guard harg3 harg4 k0_cond150 k0_pay151 149, harg4.read_unread, guard harg3 harg4 k0_cond149 k0_pay150 148, harg4.read_unread, guard harg3 harg4 k0_cond148 k0_pay149 147, harg4.read_unread, guard harg3 harg4 k0_cond147 k0_pay148 146, harg4.read_unread, guard harg3 harg4 k0_cond146 k0_pay147 145, harg4.read_unread, guard harg3 harg4 k0_cond145 k0_pay146 144, harg4.read_unread, harg4.read_unread]
  rw [word_eq T i 144 (kernel_run.sl.r_144 i T), word_eq T i 145 (kernel_run.sl.r_145 i T), word_eq T i 146 (kernel_run.sl.r_146 i T), word_eq T i 147 (kernel_run.sl.r_147 i T), word_eq T i 148 (kernel_run.sl.r_148 i T), word_eq T i 149 (kernel_run.sl.r_149 i T), word_eq T i 150 (kernel_run.sl.r_150 i T), word_eq T i 151 (kernel_run.sl.r_151 i T)]
  rw [← sweep_succ, ← sweep_succ, ← sweep_succ, ← sweep_succ, ← sweep_succ, ← sweep_succ, ← sweep_succ, ← sweep_succ]
  set_option sl_exec.stopBefore "k0_cond161" in sl_exec
  rw [guard harg3 harg4 k0_cond160 k0_pay161 159, guard harg3 harg4 k0_cond159 k0_pay160 158, harg4.read_unread, guard harg3 harg4 k0_cond158 k0_pay159 157, harg4.read_unread, guard harg3 harg4 k0_cond157 k0_pay158 156, harg4.read_unread, guard harg3 harg4 k0_cond156 k0_pay157 155, harg4.read_unread, guard harg3 harg4 k0_cond155 k0_pay156 154, harg4.read_unread, guard harg3 harg4 k0_cond154 k0_pay155 153, harg4.read_unread, guard harg3 harg4 k0_cond153 k0_pay154 152, harg4.read_unread, harg4.read_unread]
  rw [word_eq T i 152 (kernel_run.sl.r_152 i T), word_eq T i 153 (kernel_run.sl.r_153 i T), word_eq T i 154 (kernel_run.sl.r_154 i T), word_eq T i 155 (kernel_run.sl.r_155 i T), word_eq T i 156 (kernel_run.sl.r_156 i T), word_eq T i 157 (kernel_run.sl.r_157 i T), word_eq T i 158 (kernel_run.sl.r_158 i T), word_eq T i 159 (kernel_run.sl.r_159 i T)]
  rw [← sweep_succ, ← sweep_succ, ← sweep_succ, ← sweep_succ, ← sweep_succ, ← sweep_succ, ← sweep_succ, ← sweep_succ]
  set_option sl_exec.stopBefore "k0_cond169" in sl_exec
  rw [guard harg3 harg4 k0_cond168 k0_pay169 167, guard harg3 harg4 k0_cond167 k0_pay168 166, harg4.read_unread, guard harg3 harg4 k0_cond166 k0_pay167 165, harg4.read_unread, guard harg3 harg4 k0_cond165 k0_pay166 164, harg4.read_unread, guard harg3 harg4 k0_cond164 k0_pay165 163, harg4.read_unread, guard harg3 harg4 k0_cond163 k0_pay164 162, harg4.read_unread, guard harg3 harg4 k0_cond162 k0_pay163 161, harg4.read_unread, guard harg3 harg4 k0_cond161 k0_pay162 160, harg4.read_unread, harg4.read_unread]
  rw [word_eq T i 160 (kernel_run.sl.r_160 i T), word_eq T i 161 (kernel_run.sl.r_161 i T), word_eq T i 162 (kernel_run.sl.r_162 i T), word_eq T i 163 (kernel_run.sl.r_163 i T), word_eq T i 164 (kernel_run.sl.r_164 i T), word_eq T i 165 (kernel_run.sl.r_165 i T), word_eq T i 166 (kernel_run.sl.r_166 i T), word_eq T i 167 (kernel_run.sl.r_167 i T)]
  rw [← sweep_succ, ← sweep_succ, ← sweep_succ, ← sweep_succ, ← sweep_succ, ← sweep_succ, ← sweep_succ, ← sweep_succ]
  set_option sl_exec.stopBefore "k0_cond177" in sl_exec
  rw [guard harg3 harg4 k0_cond176 k0_pay177 175, guard harg3 harg4 k0_cond175 k0_pay176 174, harg4.read_unread, guard harg3 harg4 k0_cond174 k0_pay175 173, harg4.read_unread, guard harg3 harg4 k0_cond173 k0_pay174 172, harg4.read_unread, guard harg3 harg4 k0_cond172 k0_pay173 171, harg4.read_unread, guard harg3 harg4 k0_cond171 k0_pay172 170, harg4.read_unread, guard harg3 harg4 k0_cond170 k0_pay171 169, harg4.read_unread, guard harg3 harg4 k0_cond169 k0_pay170 168, harg4.read_unread, harg4.read_unread]
  rw [word_eq T i 168 (kernel_run.sl.r_168 i T), word_eq T i 169 (kernel_run.sl.r_169 i T), word_eq T i 170 (kernel_run.sl.r_170 i T), word_eq T i 171 (kernel_run.sl.r_171 i T), word_eq T i 172 (kernel_run.sl.r_172 i T), word_eq T i 173 (kernel_run.sl.r_173 i T), word_eq T i 174 (kernel_run.sl.r_174 i T), word_eq T i 175 (kernel_run.sl.r_175 i T)]
  rw [← sweep_succ, ← sweep_succ, ← sweep_succ, ← sweep_succ, ← sweep_succ, ← sweep_succ, ← sweep_succ, ← sweep_succ]
  set_option sl_exec.stopBefore "k0_cond185" in sl_exec
  rw [guard harg3 harg4 k0_cond184 k0_pay185 183, guard harg3 harg4 k0_cond183 k0_pay184 182, harg4.read_unread, guard harg3 harg4 k0_cond182 k0_pay183 181, harg4.read_unread, guard harg3 harg4 k0_cond181 k0_pay182 180, harg4.read_unread, guard harg3 harg4 k0_cond180 k0_pay181 179, harg4.read_unread, guard harg3 harg4 k0_cond179 k0_pay180 178, harg4.read_unread, guard harg3 harg4 k0_cond178 k0_pay179 177, harg4.read_unread, guard harg3 harg4 k0_cond177 k0_pay178 176, harg4.read_unread, harg4.read_unread]
  rw [word_eq T i 176 (kernel_run.sl.r_176 i T), word_eq T i 177 (kernel_run.sl.r_177 i T), word_eq T i 178 (kernel_run.sl.r_178 i T), word_eq T i 179 (kernel_run.sl.r_179 i T), word_eq T i 180 (kernel_run.sl.r_180 i T), word_eq T i 181 (kernel_run.sl.r_181 i T), word_eq T i 182 (kernel_run.sl.r_182 i T), word_eq T i 183 (kernel_run.sl.r_183 i T)]
  rw [← sweep_succ, ← sweep_succ, ← sweep_succ, ← sweep_succ, ← sweep_succ, ← sweep_succ, ← sweep_succ, ← sweep_succ]
  set_option sl_exec.stopBefore "k0_cond193" in sl_exec
  rw [guard harg3 harg4 k0_cond192 k0_pay193 191, guard harg3 harg4 k0_cond191 k0_pay192 190, harg4.read_unread, guard harg3 harg4 k0_cond190 k0_pay191 189, harg4.read_unread, guard harg3 harg4 k0_cond189 k0_pay190 188, harg4.read_unread, guard harg3 harg4 k0_cond188 k0_pay189 187, harg4.read_unread, guard harg3 harg4 k0_cond187 k0_pay188 186, harg4.read_unread, guard harg3 harg4 k0_cond186 k0_pay187 185, harg4.read_unread, guard harg3 harg4 k0_cond185 k0_pay186 184, harg4.read_unread, harg4.read_unread]
  rw [word_eq T i 184 (kernel_run.sl.r_184 i T), word_eq T i 185 (kernel_run.sl.r_185 i T), word_eq T i 186 (kernel_run.sl.r_186 i T), word_eq T i 187 (kernel_run.sl.r_187 i T), word_eq T i 188 (kernel_run.sl.r_188 i T), word_eq T i 189 (kernel_run.sl.r_189 i T), word_eq T i 190 (kernel_run.sl.r_190 i T), word_eq T i 191 (kernel_run.sl.r_191 i T)]
  rw [← sweep_succ, ← sweep_succ, ← sweep_succ, ← sweep_succ, ← sweep_succ, ← sweep_succ, ← sweep_succ, ← sweep_succ]
  set_option sl_exec.stopBefore "k0_cond201" in sl_exec
  rw [guard harg3 harg4 k0_cond200 k0_pay201 199, guard harg3 harg4 k0_cond199 k0_pay200 198, harg4.read_unread, guard harg3 harg4 k0_cond198 k0_pay199 197, harg4.read_unread, guard harg3 harg4 k0_cond197 k0_pay198 196, harg4.read_unread, guard harg3 harg4 k0_cond196 k0_pay197 195, harg4.read_unread, guard harg3 harg4 k0_cond195 k0_pay196 194, harg4.read_unread, guard harg3 harg4 k0_cond194 k0_pay195 193, harg4.read_unread, guard harg3 harg4 k0_cond193 k0_pay194 192, harg4.read_unread, harg4.read_unread]
  rw [word_eq T i 192 (kernel_run.sl.r_192 i T), word_eq T i 193 (kernel_run.sl.r_193 i T), word_eq T i 194 (kernel_run.sl.r_194 i T), word_eq T i 195 (kernel_run.sl.r_195 i T), word_eq T i 196 (kernel_run.sl.r_196 i T), word_eq T i 197 (kernel_run.sl.r_197 i T), word_eq T i 198 (kernel_run.sl.r_198 i T), word_eq T i 199 (kernel_run.sl.r_199 i T)]
  rw [← sweep_succ, ← sweep_succ, ← sweep_succ, ← sweep_succ, ← sweep_succ, ← sweep_succ, ← sweep_succ, ← sweep_succ]
  set_option sl_exec.stopBefore "k0_cond209" in sl_exec
  rw [guard harg3 harg4 k0_cond208 k0_pay209 207, guard harg3 harg4 k0_cond207 k0_pay208 206, harg4.read_unread, guard harg3 harg4 k0_cond206 k0_pay207 205, harg4.read_unread, guard harg3 harg4 k0_cond205 k0_pay206 204, harg4.read_unread, guard harg3 harg4 k0_cond204 k0_pay205 203, harg4.read_unread, guard harg3 harg4 k0_cond203 k0_pay204 202, harg4.read_unread, guard harg3 harg4 k0_cond202 k0_pay203 201, harg4.read_unread, guard harg3 harg4 k0_cond201 k0_pay202 200, harg4.read_unread, harg4.read_unread]
  rw [word_eq T i 200 (kernel_run.sl.r_200 i T), word_eq T i 201 (kernel_run.sl.r_201 i T), word_eq T i 202 (kernel_run.sl.r_202 i T), word_eq T i 203 (kernel_run.sl.r_203 i T), word_eq T i 204 (kernel_run.sl.r_204 i T), word_eq T i 205 (kernel_run.sl.r_205 i T), word_eq T i 206 (kernel_run.sl.r_206 i T), word_eq T i 207 (kernel_run.sl.r_207 i T)]
  rw [← sweep_succ, ← sweep_succ, ← sweep_succ, ← sweep_succ, ← sweep_succ, ← sweep_succ, ← sweep_succ, ← sweep_succ]
  set_option sl_exec.stopBefore "k0_cond217" in sl_exec
  rw [guard harg3 harg4 k0_cond216 k0_pay217 215, guard harg3 harg4 k0_cond215 k0_pay216 214, harg4.read_unread, guard harg3 harg4 k0_cond214 k0_pay215 213, harg4.read_unread, guard harg3 harg4 k0_cond213 k0_pay214 212, harg4.read_unread, guard harg3 harg4 k0_cond212 k0_pay213 211, harg4.read_unread, guard harg3 harg4 k0_cond211 k0_pay212 210, harg4.read_unread, guard harg3 harg4 k0_cond210 k0_pay211 209, harg4.read_unread, guard harg3 harg4 k0_cond209 k0_pay210 208, harg4.read_unread, harg4.read_unread]
  rw [word_eq T i 208 (kernel_run.sl.r_208 i T), word_eq T i 209 (kernel_run.sl.r_209 i T), word_eq T i 210 (kernel_run.sl.r_210 i T), word_eq T i 211 (kernel_run.sl.r_211 i T), word_eq T i 212 (kernel_run.sl.r_212 i T), word_eq T i 213 (kernel_run.sl.r_213 i T), word_eq T i 214 (kernel_run.sl.r_214 i T), word_eq T i 215 (kernel_run.sl.r_215 i T)]
  rw [← sweep_succ, ← sweep_succ, ← sweep_succ, ← sweep_succ, ← sweep_succ, ← sweep_succ, ← sweep_succ, ← sweep_succ]
  set_option sl_exec.stopBefore "k0_cond225" in sl_exec
  rw [guard harg3 harg4 k0_cond224 k0_pay225 223, guard harg3 harg4 k0_cond223 k0_pay224 222, harg4.read_unread, guard harg3 harg4 k0_cond222 k0_pay223 221, harg4.read_unread, guard harg3 harg4 k0_cond221 k0_pay222 220, harg4.read_unread, guard harg3 harg4 k0_cond220 k0_pay221 219, harg4.read_unread, guard harg3 harg4 k0_cond219 k0_pay220 218, harg4.read_unread, guard harg3 harg4 k0_cond218 k0_pay219 217, harg4.read_unread, guard harg3 harg4 k0_cond217 k0_pay218 216, harg4.read_unread, harg4.read_unread]
  rw [word_eq T i 216 (kernel_run.sl.r_216 i T), word_eq T i 217 (kernel_run.sl.r_217 i T), word_eq T i 218 (kernel_run.sl.r_218 i T), word_eq T i 219 (kernel_run.sl.r_219 i T), word_eq T i 220 (kernel_run.sl.r_220 i T), word_eq T i 221 (kernel_run.sl.r_221 i T), word_eq T i 222 (kernel_run.sl.r_222 i T), word_eq T i 223 (kernel_run.sl.r_223 i T)]
  rw [← sweep_succ, ← sweep_succ, ← sweep_succ, ← sweep_succ, ← sweep_succ, ← sweep_succ, ← sweep_succ, ← sweep_succ]
  set_option sl_exec.stopBefore "k0_cond233" in sl_exec
  rw [guard harg3 harg4 k0_cond232 k0_pay233 231, guard harg3 harg4 k0_cond231 k0_pay232 230, harg4.read_unread, guard harg3 harg4 k0_cond230 k0_pay231 229, harg4.read_unread, guard harg3 harg4 k0_cond229 k0_pay230 228, harg4.read_unread, guard harg3 harg4 k0_cond228 k0_pay229 227, harg4.read_unread, guard harg3 harg4 k0_cond227 k0_pay228 226, harg4.read_unread, guard harg3 harg4 k0_cond226 k0_pay227 225, harg4.read_unread, guard harg3 harg4 k0_cond225 k0_pay226 224, harg4.read_unread, harg4.read_unread]
  rw [word_eq T i 224 (kernel_run.sl.r_224 i T), word_eq T i 225 (kernel_run.sl.r_225 i T), word_eq T i 226 (kernel_run.sl.r_226 i T), word_eq T i 227 (kernel_run.sl.r_227 i T), word_eq T i 228 (kernel_run.sl.r_228 i T), word_eq T i 229 (kernel_run.sl.r_229 i T), word_eq T i 230 (kernel_run.sl.r_230 i T), word_eq T i 231 (kernel_run.sl.r_231 i T)]
  rw [← sweep_succ, ← sweep_succ, ← sweep_succ, ← sweep_succ, ← sweep_succ, ← sweep_succ, ← sweep_succ, ← sweep_succ]
  set_option sl_exec.stopBefore "k0_cond241" in sl_exec
  rw [guard harg3 harg4 k0_cond240 k0_pay241 239, guard harg3 harg4 k0_cond239 k0_pay240 238, harg4.read_unread, guard harg3 harg4 k0_cond238 k0_pay239 237, harg4.read_unread, guard harg3 harg4 k0_cond237 k0_pay238 236, harg4.read_unread, guard harg3 harg4 k0_cond236 k0_pay237 235, harg4.read_unread, guard harg3 harg4 k0_cond235 k0_pay236 234, harg4.read_unread, guard harg3 harg4 k0_cond234 k0_pay235 233, harg4.read_unread, guard harg3 harg4 k0_cond233 k0_pay234 232, harg4.read_unread, harg4.read_unread]
  rw [word_eq T i 232 (kernel_run.sl.r_232 i T), word_eq T i 233 (kernel_run.sl.r_233 i T), word_eq T i 234 (kernel_run.sl.r_234 i T), word_eq T i 235 (kernel_run.sl.r_235 i T), word_eq T i 236 (kernel_run.sl.r_236 i T), word_eq T i 237 (kernel_run.sl.r_237 i T), word_eq T i 238 (kernel_run.sl.r_238 i T), word_eq T i 239 (kernel_run.sl.r_239 i T)]
  rw [← sweep_succ, ← sweep_succ, ← sweep_succ, ← sweep_succ, ← sweep_succ, ← sweep_succ, ← sweep_succ, ← sweep_succ]
  set_option sl_exec.stopBefore "k0_cond249" in sl_exec
  rw [guard harg3 harg4 k0_cond248 k0_pay249 247, guard harg3 harg4 k0_cond247 k0_pay248 246, harg4.read_unread, guard harg3 harg4 k0_cond246 k0_pay247 245, harg4.read_unread, guard harg3 harg4 k0_cond245 k0_pay246 244, harg4.read_unread, guard harg3 harg4 k0_cond244 k0_pay245 243, harg4.read_unread, guard harg3 harg4 k0_cond243 k0_pay244 242, harg4.read_unread, guard harg3 harg4 k0_cond242 k0_pay243 241, harg4.read_unread, guard harg3 harg4 k0_cond241 k0_pay242 240, harg4.read_unread, harg4.read_unread]
  rw [word_eq T i 240 (kernel_run.sl.r_240 i T), word_eq T i 241 (kernel_run.sl.r_241 i T), word_eq T i 242 (kernel_run.sl.r_242 i T), word_eq T i 243 (kernel_run.sl.r_243 i T), word_eq T i 244 (kernel_run.sl.r_244 i T), word_eq T i 245 (kernel_run.sl.r_245 i T), word_eq T i 246 (kernel_run.sl.r_246 i T), word_eq T i 247 (kernel_run.sl.r_247 i T)]
  rw [← sweep_succ, ← sweep_succ, ← sweep_succ, ← sweep_succ, ← sweep_succ, ← sweep_succ, ← sweep_succ, ← sweep_succ]
  sl_exec
  delta kernel_run.sl.v1280 kernel_run.sl.v1280_1 kernel_run.sl.v1280_2
  rw [guard harg3 harg4 k0_cond256 k0_pay1 255, guard harg3 harg4 k0_cond255 k0_pay256 254, harg4.read_unread, guard harg3 harg4 k0_cond254 k0_pay255 253, harg4.read_unread, guard harg3 harg4 k0_cond253 k0_pay254 252, harg4.read_unread, guard harg3 harg4 k0_cond252 k0_pay253 251, harg4.read_unread, guard harg3 harg4 k0_cond251 k0_pay252 250, harg4.read_unread, guard harg3 harg4 k0_cond250 k0_pay251 249, harg4.read_unread, guard harg3 harg4 k0_cond249 k0_pay250 248, harg4.read_unread, harg4.read_unread]
  rw [word_eq T i 248 (kernel_run.sl.r_248 i T), word_eq T i 249 (kernel_run.sl.r_249 i T), word_eq T i 250 (kernel_run.sl.r_250 i T), word_eq T i 251 (kernel_run.sl.r_251 i T), word_eq T i 252 (kernel_run.sl.r_252 i T), word_eq T i 253 (kernel_run.sl.r_253 i T), word_eq T i 254 (kernel_run.sl.r_254 i T), word_eq T i 255 (kernel_run.sl.r_255 i T)]
  rw [← sweep_succ, ← sweep_succ, ← sweep_succ, ← sweep_succ, ← sweep_succ, ← sweep_succ, ← sweep_succ, ← sweep_succ]
  sl_step
  iapply Hk
  isplitl [H0]
  · iexists _; isplitr
    · ipureintro; exact harg3.read_unread _
    iexact H0
  isplitl [H1]
  · iexists _; isplitr
    swap
    · iexact H1
    ipureintro
    rw [harg4.read_unread]
    exact sweep_all (rowAt T i) (fun d => hT _) X Y
  iexact HT

end Cert.Kernel.Gen

end
-- ==== Proof.K.Table.lean ====
import proofs.«429720_j40398462386445_2_alg».proof.Proof.K.Kit
import proofs.«429720_j40398462386445_2_alg».proof.Proof.Spec
import Idealize.ShloMosaic.Lib.StableHlo.Run
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem comparator_eq : comparator_i32_i32_d1 = Cert.BlockShuffle.ltWords := rfl

/-- The table the region finds is the row-wise argsort of the second argument, -/
theorem V_main_v0 : (V m (0 : Dev nD) main_v0 : S16x16.Idx → BitVec 32) = Cert.BlockShuffle.argsortRows (m (((0 : Dev nD) : Thread nD τ).loc main_arg1)) := by
  dsimp only [V, hostOps0]
  after_results
  rfl

theorem tbl_eq : tbM.view.read (Elt F) (tbl m 0) = Cert.BlockShuffle.argsortRows (m (((0 : Dev nD) : Thread nD τ).loc main_arg1)) :=
  V_main_v0 m

/-- so each of its words, a position of a row, is below 16. -/
theorem tbl_lt (j : S16x16.Idx) : (tbM.view.read (Elt F) (tbl m 0) j).toNat < 16 := by
  rw [tbl_eq]
  exact Cert.BlockShuffle.argsortRows_lt _ j

end Cert.Kernel.Gen

end
-- ==== Proof.K.Frame.lean ====
import proofs.«429720_j40398462386445_2_alg».proof.Proof.K.Body
import proofs.«429720_j40398462386445_2_alg».proof.Proof.K.Table
import Idealize.ShloMosaic.Lib.Pipeline.Frame
import Idealize.ShloMosaic.Lib.Pipeline.FrameBody
import Idealize.ShloMosaic.Lib.Pipeline.Kit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the body at point t the input's buffer is still its block, the output's that block shuffled by the batch element's row. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => Cert.BlockShuffle.shuffledBlk (iblk m c 0 t) (rowAt (tbM.view.read (Elt F) (tbl m 0)) (grid0.coords t))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) :
    (dats m 0 c).after 1 t = Cert.BlockShuffle.shuffledBlk (iblk m c 0 t) (rowAt (tbM.view.read (Elt F) (tbl m 0)) (grid0.coords t)) := by
  dsimp only [dats]; try rfl

theorem before0 (c : Dev nD) (t : Fin (cfgM m).N) (d) : (dats m 0 c).before 0 t d = iblk m c 0 t :=
  before0_of m (dats m 0 c) (A_eq m c 0) (after0 m c) t d

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

theorem tbPt_unread (c : Dev nD) :
    (tbPt c tbM (tbl m 0) : sProp 𝕄) = tbPt c tbM (htbM.unread (tbM.view.read (Elt F) (tbl m 0))) :=
  congrArg (tbPt (F := F) c tbM) (htbM.unread_read (Val := Elt F) (tbl m 0)).symm

/-- The body's run at point t, from the blocks it is given to the blocks it leaves. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before0]
  rw [show (dats m 0 c).Φ t.succ = (dats m 0 c).Φ t.castSucc from rfl,
    show (dats m 0 c).owesAt () t.succ = (dats m 0 c).owesAt () t.castSucc from rfl,
    after0, after1]
  rw [show (dats m 0 c).Φ t.castSucc = iprop(Pipeline.ΦA spec0 c ∗ Pipeline.ΦT pre0 (tbl m) c) from rfl, PhiT_eq, tbPt_unread]
  iintro ⟨⟨HΦ, HT⟩, Ho, ⟨%d0, H0⟩, ⟨%d1, H1⟩⟩
  iapply (kernel_run c (grid0.coords t) _ _ _ _ (iblk m c 0 t) (tbM.view.read (Elt F) (tbl m 0)) (tbl_lt m) Set.univ _)
  isplitl [H0]; · iexact H0
  isplitl [H1]; · iexists _; iexact H1
  isplitl [HT]; · iexact HT
  iintro ⟨H0, H1, HT⟩
  isplitl [HΦ HT]
  · isplitl [HΦ]; · iexact HΦ
    iexact HT
  isplitl [Ho]; · iexact Ho
  isplitl [H0]; · iexact H0
  iexact H1

theorem leaves1 (c : Dev nD) (t : Fin (cfgM m).N) :
    owns (c : Thread nD τ) (ms1 m t) fullShare ((dats m 0 c).after 1 t) ⊢ ((dats m 0 c).leavesExact 1 t : sProp 𝕄) := by
  have hfl : ((cfgM m).win 1).flush t = true := flush1 (adm m) t
  unfold Dat.leavesExact
  rw [hfl]
  cases (cfgM m).idle 1 ((cfgM m).grid.coords t)
  · exact .rfl
  · exact .rfl

theorem body_obligation (c : Dev nD) : BodyObligation (dats (F := F) m 0 c) (defs₀ (F := F)) Variants.none () Set.univ := fun t => by
  rw [bigSep_W0, bigSep_W0]
  exact (sound_body m c t).trans (wp_mono _ _ _ fun _ => sep_mono .rfl (sep_mono .rfl (sep_mono .rfl (leaves1 m c t))))

set_option backward.isDefEq.respectTransparency.types false in

/-- Every weakly fair execution of @main terminates, each array at what the points' blocks say. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- Both arguments end as launched: nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (by decide : main_arg1 ∈ Pipeline.restRefs sig spec0)).trans (V_main_arg1 m c)⟩) (run_main m ρ)

end Cert.Kernel.Gen

end
-- ==== Proof.KI.Kit.lean ====
import proofs.«429720_j40398462386445_2_alg».proof.Proof.Gen.KernelIdeal.Launch
import proofs.«429720_j40398462386445_2_alg».proof.Proof.Gen.KernelIdeal.Skeleton
import Idealize.ShloMosaic.Lib.Pipeline.FrameBody
import Idealize.ShloMosaic.Lib.Pipeline.Kit

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Memory as the region finds it: the launch memory with the sort's three results written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither argument is among the sort's results. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The table's contents at the region's entry (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev tbM : Memref sig .tc .smem S16x16 .i32 := Memref.whole main_v0
abbrev htbM : tbM.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-- The part of window w's array that point t works on, as of the region's entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem flush1 (a : (pcfg0 (F := F)).Adm) : ∀ t : Fin (cfg0 a).N, ((cfg0 a).win 1).flush t = true :=
  (by decide +kernel : ∀ t : Fin grid0.N, Pipeline.Window.flushOf grid0 true cc0_transform_1 t = true)

abbrev ms0 (t : Fin (cfgM m).N) : Memref sig .tc .vmem S1x32x224x224 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x32x224x224 .f32 := spec0_1.stage ((cfgM m).slots t 1)
abbrev hs1 (t : Fin (cfgM m).N) : (ms1 m t).IsWhole := hstage0_1 (((cfgM m).slots t 1).cast nbuf0_1)

abbrev bodyAt (a : (pcfg0 (F := F)).Adm) (t : Fin (cfg0 a).N) : Prog (TpuEff nD τ sig (Elt F) Λ₀ .tc) PUnit :=
  cc0__kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

end Cert.KernelIdeal.Gen

end
-- ==== Proof.KI.Words.lean ====
import proofs.«429720_j40398462386445_2_alg».proof.Proof.KI.Kit
import proofs.«429720_j40398462386445_2_alg».proof.Proof.Spec
import Idealize.ShloMosaic.Lib.Pipeline.FrameBody
import Idealize.ShloMosaic.Lib.Pipeline.Frame
import Idealize.ShloMosaic.Lib.ValueIdx

noncomputable section

namespace Cert.KernelIdeal.Gen

open Idealize.ShloMosaic Idealize.ShloMosaic.TcCoe Idealize.ShloMosaic.ValueIdx

variable {F : FTy → Type} [FloatOps F]

/-- Row b of the table, b the grid point's batch coordinate. -/
def rowAt (T : Vec F S16x16 .i32) (i : grid0.Coords) : Fin 16 → BitVec 32 :=
  fun d => T (ValueIdx.ix2 (⟨(i 0).val, (i 0).isLt⟩ : Fin 16) d)

/-- The batch coordinate is below 16, so widening its 32-bit word to an index loses nothing. -/
theorem coord_toNat (i : grid0.Coords) : (Scalar.indexCast (BitVec.ofNat 32 (i 0).val)).toNat = (i 0).val := by
  have h : (i 0).val < 16 := (i 0).isLt
  unfold Scalar.indexCast
  rw [BitVec.toNat_ofNat]
  exact Nat.mod_eq_of_lt (by omega)

/-- The scalar load of pair n = 16 d + k reads the cell (b, d) of the table, b the point's batch coordinate: the row's word at d. -/
theorem word_eq (T : Vec F S16x16 .i32) (i : grid0.Coords) (n : Nat) (v : Elt F .i32)
    {hinb : ∀ a, (![(Scalar.indexCast (BitVec.ofNat 32 (i 0).val)).toNat, n / 16 % 16] : Fin 2 → Nat) a + S1x1.size a ≤ S16x16.size a}
    (hv : v = View.readAt (Elt F) tbM.view (Rect.unit (s := S16x16) ![(Scalar.indexCast (BitVec.ofNat 32 (i 0).val)).toNat, n / 16 % 16] S1x1.size hinb).toLoadRect (htbM.unread T)
        (Shape.Idx.first (numel1_S1x1.symm ▸ Nat.one_pos)) := by rfl) :
    v = Cert.BlockShuffle.rown (rowAt T i) n := by
  subst hv
  rw [View.readAt_eq_ld, Memref.IsWhole.read_unread]
  unfold Cert.BlockShuffle.rown rowAt
  show T _ = T _
  congr 1
  funext a
  refine Fin.ext ?_
  match a with
  | ⟨0, _⟩ =>
    show (Scalar.indexCast (BitVec.ofNat 32 (i 0).val)).toNat + 1 * 0 = (i 0).val
    rw [coord_toNat]; omega
  | ⟨1, _⟩ =>
    show n / 16 % 16 + 1 * 0 = n / 16 % 16
    omega

end Cert.KernelIdeal.Gen

end
-- ==== Proof.KI.Cond.lean ====
import proofs.«429720_j40398462386445_2_alg».proof.Proof.Gen.KernelIdeal.Skeleton
import proofs.«429720_j40398462386445_2_alg».proof.Proof.Guard
import Idealize.ShloMosaic.Lib.Pipeline.Value
import Idealize.ShloMosaic.Lib.ValueIdx
import Idealize.ShloMosaic.Lib.Pipeline.FrameBody

noncomputable section

namespace Cert.KernelIdeal.Gen

open Idealize.ShloMosaic Idealize.ShloMosaic.TcCoe Idealize.ShloMosaic.ValueIdx

variable {F : FTy → Type} [FloatOps F]

/-- The body's test "w = c" (compare, widen the bit to a word, test the word against zero) holds exactly when w = c. -/
theorem cond_iff (w c : BitVec 32) :
    Scalar.cmpi .ne (Scalar.extui (Scalar.cmpi .eq w c) : BitVec 32) 0#32 = 1#1 ↔ w = c := by
  by_cases h : w = c
  · subst h
    simp [Scalar.cmpi, Scalar.extui, IntOp.cmpi]
  · have hb : (w == c) = false := by simp [h]
    simp [Scalar.cmpi, Scalar.extui, IntOp.cmpi, hb, h]

/-- Guarded copy n + 1 of the body (n = 16 d + k) tests "w = k" and stores the loaded tile reshaped and back: the specification's pair n. -/
theorem guard {arg3 arg4 : Memref sig .tc .vmem S1x32x224x224 .f32} (harg3 : arg3.IsWhole) (harg4 : arg4.IsWhole)
    (cond : BitVec 32 → BitVec 1) (pay : Vec F S1x32x56x56 .f32 → FVec F S1x32x56x56 .f32) (n : Nat)
    {hd : ∀ ax, (![0, 0, 56 * (n / 16 / 4), 56 * (n / 16 % 4)] : Fin 4 → Nat) ax + S1x32x56x56.size ax ≤ S1x32x224x224.size ax}
    {hs : ∀ ax, (![0, 0, 56 * (n % 16 / 4), 56 * (n % 16 % 4)] : Fin 4 → Nat) ax + S1x32x56x56.size ax ≤ S1x32x224x224.size ax}
    {w : Elt F .i32} {prev : arg4.view.ty.Contents (Elt F)} {X : Vec F S1x32x224x224 .f32}
    (hcond : cond = fun w => Scalar.cmpi .ne (Scalar.extui (Scalar.cmpi .eq w (BitVec.ofNat 32 (n % 16))) : BitVec 32) 0#32 := by rfl)
    (hpay : pay = fun v => shapeCast S1x32x56x56 (shapeCast S32x56x56 v shapeCasts_S1x32x56x56_S32x56x56) shapeCasts_S32x56x56_S1x32x56x56 := by rfl) :
    (if _hc : cond w = 1#1 then arg4.view.writes (Elt F) prev [⟨Rect.unit (s := S1x32x224x224) ![0, 0, 56 * (n / 16 / 4), 56 * (n / 16 % 4)] S1x32x56x56.size hd, pay (arg3.view.readAt (Elt F) (Rect.unit (s := S1x32x224x224) ![0, 0, 56 * (n % 16 / 4), 56 * (n % 16 % 4)] S1x32x56x56.size hs).toLoadRect (harg3.unread X))⟩] else prev)
      = harg4.unread (Cert.BlockShuffle.stepN n w X (arg4.view.read (Elt F) prev)) := by
  subst hcond hpay
  exact Cert.BlockShuffle.guard_contents _ arg3 harg3 arg4 harg4 n hd hs _ (fun v => shapeCast_shapeCast v _ _) w (cond_iff w _) prev X

end Cert.KernelIdeal.Gen

end
-- ==== Proof.KI.Body.lean ====
import proofs.«429720_j40398462386445_2_alg».proof.Proof.KI.Kit
import proofs.«429720_j40398462386445_2_alg».proof.Proof.KI.Words
import proofs.«429720_j40398462386445_2_alg».proof.Proof.KI.Cond
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BlockShuffle (sweep_one sweep_succ sweep_all shuffledBlk)

variable {F : FTy → Type} [FloatOps F]

local notation "𝕄" => MT nD τ sig Unit (Elt F) ℕ (UR sig nD τ) ℕ

set_option maxHeartbeats 0 in
/-- After n of the 256 pairs the output block reads as the sweep at n over what it held: it ends as the shuffled input block. -/
theorem kernel_run (c : Dev nD) (i : grid0.Coords)
    (arg3 : Memref sig .tc .vmem S1x32x224x224 .f32) (harg3 : arg3.IsWhole) (arg4 : Memref sig .tc .vmem S1x32x224x224 .f32) (harg4 : arg4.IsWhole)
    (X : Vec F S1x32x224x224 .f32) (T : Vec F S16x16 .i32) (hT : ∀ j, (T j).toNat < 16)
    (E : Set ℕ) (K : PUnit → sProp 𝕄) :
    iprop(owns (c : Thread nD τ) arg3 fullShare X ∗ (∃ Y, owns (c : Thread nD τ) arg4 fullShare Y) ∗ tbPt c tbM (htbM.unread T)
        ∗ (iprop(owns (c : Thread nD τ) arg3 fullShare X ∗ owns (c : Thread nD τ) arg4 fullShare (shuffledBlk X (rowAt T i)) ∗ tbPt c tbM (htbM.unread T)) -∗ K ⟨⟩))
      ⊢ wp frame (wpE (defs₀ (F := F)) Variants.none c none) E (cc0__kernel i tbM htbM arg3 harg3 arg4 harg4) K := by
  simp only [cc0__kernel_eq_skeleton]; unfold cc0__kernel_skel
  simp only [k0_part39_eq_skeleton]; unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f0, %hf0, H0⟩, ⟨%Y, %f1, %hf1, H1⟩, HT, Hk⟩
  obtain rfl := harg3.eq_unread hf0
  obtain rfl := harg4.eq_unread hf1
  set_option sl_exec.stopBefore "k0_cond9" in sl_exec
  rw [guard harg3 harg4 k0_cond8 k0_pay9 7, guard harg3 harg4 k0_cond7 k0_pay8 6, harg4.read_unread, guard harg3 harg4 k0_cond6 k0_pay7 5, harg4.read_unread, guard harg3 harg4 k0_cond5 k0_pay6 4, harg4.read_unread, guard harg3 harg4 k0_cond4 k0_pay5 3, harg4.read_unread, guard harg3 harg4 k0_cond3 k0_pay4 2, harg4.read_unread, guard harg3 harg4 k0_cond2 k0_pay3 1, harg4.read_unread, guard harg3 harg4 k0_cond1 k0_pay2 0, harg4.read_unread, harg4.read_unread]
  rw [word_eq T i 0 (kernel_run.sl.r i T), word_eq T i 1 (kernel_run.sl.r_1 i T), word_eq T i 2 (kernel_run.sl.r_2 i T), word_eq T i 3 (kernel_run.sl.r_3 i T), word_eq T i 4 (kernel_run.sl.r_4 i T), word_eq T i 5 (kernel_run.sl.r_5 i T), word_eq T i 6 (kernel_run.sl.r_6 i T), word_eq T i 7 (kernel_run.sl.r_7 i T)]
  rw [sweep_one, ← sweep_succ, ← sweep_succ, ← sweep_succ, ← sweep_succ, ← sweep_succ, ← sweep_succ, ← sweep_succ]
  set_option sl_exec.stopBefore "k0_cond17" in sl_exec
  rw [guard harg3 harg4 k0_cond16 k0_pay17 15, guard harg3 harg4 k0_cond15 k0_pay16 14, harg4.read_unread, guard harg3 harg4 k0_cond14 k0_pay15 13, harg4.read_unread, guard harg3 harg4 k0_cond13 k0_pay14 12, harg4.read_unread, guard harg3 harg4 k0_cond12 k0_pay13 11, harg4.read_unread, guard harg3 harg4 k0_cond11 k0_pay12 10, harg4.read_unread, guard harg3 harg4 k0_cond10 k0_pay11 9, harg4.read_unread, guard harg3 harg4 k0_cond9 k0_pay10 8, harg4.read_unread, harg4.read_unread]
  rw [word_eq T i 8 (kernel_run.sl.r_8 i T), word_eq T i 9 (kernel_run.sl.r_9 i T), word_eq T i 10 (kernel_run.sl.r_10 i T), word_eq T i 11 (kernel_run.sl.r_11 i T), word_eq T i 12 (kernel_run.sl.r_12 i T), word_eq T i 13 (kernel_run.sl.r_13 i T), word_eq T i 14 (kernel_run.sl.r_14 i T), word_eq T i 15 (kernel_run.sl.r_15 i T)]
  rw [← sweep_succ, ← sweep_succ, ← sweep_succ, ← sweep_succ, ← sweep_succ, ← sweep_succ, ← sweep_succ, ← sweep_succ]
  set_option sl_exec.stopBefore "k0_cond25" in sl_exec
  rw [guard harg3 harg4 k0_cond24 k0_pay25 23, guard harg3 harg4 k0_cond23 k0_pay24 22, harg4.read_unread, guard harg3 harg4 k0_cond22 k0_pay23 21, harg4.read_unread, guard harg3 harg4 k0_cond21 k0_pay22 20, harg4.read_unread, guard harg3 harg4 k0_cond20 k0_pay21 19, harg4.read_unread, guard harg3 harg4 k0_cond19 k0_pay20 18, harg4.read_unread, guard harg3 harg4 k0_cond18 k0_pay19 17, harg4.read_unread, guard harg3 harg4 k0_cond17 k0_pay18 16, harg4.read_unread, harg4.read_unread]
  rw [word_eq T i 16 (kernel_run.sl.r_16 i T), word_eq T i 17 (kernel_run.sl.r_17 i T), word_eq T i 18 (kernel_run.sl.r_18 i T), word_eq T i 19 (kernel_run.sl.r_19 i T), word_eq T i 20 (kernel_run.sl.r_20 i T), word_eq T i 21 (kernel_run.sl.r_21 i T), word_eq T i 22 (kernel_run.sl.r_22 i T), word_eq T i 23 (kernel_run.sl.r_23 i T)]
  rw [← sweep_succ, ← sweep_succ, ← sweep_succ, ← sweep_succ, ← sweep_succ, ← sweep_succ, ← sweep_succ, ← sweep_succ]
  set_option sl_exec.stopBefore "k0_cond33" in sl_exec
  rw [guard harg3 harg4 k0_cond32 k0_pay33 31, guard harg3 harg4 k0_cond31 k0_pay32 30, harg4.read_unread, guard harg3 harg4 k0_cond30 k0_pay31 29, harg4.read_unread, guard harg3 harg4 k0_cond29 k0_pay30 28, harg4.read_unread, guard harg3 harg4 k0_cond28 k0_pay29 27, harg4.read_unread, guard harg3 harg4 k0_cond27 k0_pay28 26, harg4.read_unread, guard harg3 harg4 k0_cond26 k0_pay27 25, harg4.read_unread, guard harg3 harg4 k0_cond25 k0_pay26 24, harg4.read_unread, harg4.read_unread]
  rw [word_eq T i 24 (kernel_run.sl.r_24 i T), word_eq T i 25 (kernel_run.sl.r_25 i T), word_eq T i 26 (kernel_run.sl.r_26 i T), word_eq T i 27 (kernel_run.sl.r_27 i T), word_eq T i 28 (kernel_run.sl.r_28 i T), word_eq T i 29 (kernel_run.sl.r_29 i T), word_eq T i 30 (kernel_run.sl.r_30 i T), word_eq T i 31 (kernel_run.sl.r_31 i T)]
  rw [← sweep_succ, ← sweep_succ, ← sweep_succ, ← sweep_succ, ← sweep_succ, ← sweep_succ, ← sweep_succ, ← sweep_succ]
  set_option sl_exec.stopBefore "k0_cond41" in sl_exec
  rw [guard harg3 harg4 k0_cond40 k0_pay41 39, guard harg3 harg4 k0_cond39 k0_pay40 38, harg4.read_unread, guard harg3 harg4 k0_cond38 k0_pay39 37, harg4.read_unread, guard harg3 harg4 k0_cond37 k0_pay38 36, harg4.read_unread, guard harg3 harg4 k0_cond36 k0_pay37 35, harg4.read_unread, guard harg3 harg4 k0_cond35 k0_pay36 34, harg4.read_unread, guard harg3 harg4 k0_cond34 k0_pay35 33, harg4.read_unread, guard harg3 harg4 k0_cond33 k0_pay34 32, harg4.read_unread, harg4.read_unread]
  rw [word_eq T i 32 (kernel_run.sl.r_32 i T), word_eq T i 33 (kernel_run.sl.r_33 i T), word_eq T i 34 (kernel_run.sl.r_34 i T), word_eq T i 35 (kernel_run.sl.r_35 i T), word_eq T i 36 (kernel_run.sl.r_36 i T), word_eq T i 37 (kernel_run.sl.r_37 i T), word_eq T i 38 (kernel_run.sl.r_38 i T), word_eq T i 39 (kernel_run.sl.r_39 i T)]
  rw [← sweep_succ, ← sweep_succ, ← sweep_succ, ← sweep_succ, ← sweep_succ, ← sweep_succ, ← sweep_succ, ← sweep_succ]
  set_option sl_exec.stopBefore "k0_cond49" in sl_exec
  rw [guard harg3 harg4 k0_cond48 k0_pay49 47, guard harg3 harg4 k0_cond47 k0_pay48 46, harg4.read_unread, guard harg3 harg4 k0_cond46 k0_pay47 45, harg4.read_unread, guard harg3 harg4 k0_cond45 k0_pay46 44, harg4.read_unread, guard harg3 harg4 k0_cond44 k0_pay45 43, harg4.read_unread, guard harg3 harg4 k0_cond43 k0_pay44 42, harg4.read_unread, guard harg3 harg4 k0_cond42 k0_pay43 41, harg4.read_unread, guard harg3 harg4 k0_cond41 k0_pay42 40, harg4.read_unread, harg4.read_unread]
  rw [word_eq T i 40 (kernel_run.sl.r_40 i T), word_eq T i 41 (kernel_run.sl.r_41 i T), word_eq T i 42 (kernel_run.sl.r_42 i T), word_eq T i 43 (kernel_run.sl.r_43 i T), word_eq T i 44 (kernel_run.sl.r_44 i T), word_eq T i 45 (kernel_run.sl.r_45 i T), word_eq T i 46 (kernel_run.sl.r_46 i T), word_eq T i 47 (kernel_run.sl.r_47 i T)]
  rw [← sweep_succ, ← sweep_succ, ← sweep_succ, ← sweep_succ, ← sweep_succ, ← sweep_succ, ← sweep_succ, ← sweep_succ]
  set_option sl_exec.stopBefore "k0_cond57" in sl_exec
  rw [guard harg3 harg4 k0_cond56 k0_pay57 55, guard harg3 harg4 k0_cond55 k0_pay56 54, harg4.read_unread, guard harg3 harg4 k0_cond54 k0_pay55 53, harg4.read_unread, guard harg3 harg4 k0_cond53 k0_pay54 52, harg4.read_unread, guard harg3 harg4 k0_cond52 k0_pay53 51, harg4.read_unread, guard harg3 harg4 k0_cond51 k0_pay52 50, harg4.read_unread, guard harg3 harg4 k0_cond50 k0_pay51 49, harg4.read_unread, guard harg3 harg4 k0_cond49 k0_pay50 48, harg4.read_unread, harg4.read_unread]
  rw [word_eq T i 48 (kernel_run.sl.r_48 i T), word_eq T i 49 (kernel_run.sl.r_49 i T), word_eq T i 50 (kernel_run.sl.r_50 i T), word_eq T i 51 (kernel_run.sl.r_51 i T), word_eq T i 52 (kernel_run.sl.r_52 i T), word_eq T i 53 (kernel_run.sl.r_53 i T), word_eq T i 54 (kernel_run.sl.r_54 i T), word_eq T i 55 (kernel_run.sl.r_55 i T)]
  rw [← sweep_succ, ← sweep_succ, ← sweep_succ, ← sweep_succ, ← sweep_succ, ← sweep_succ, ← sweep_succ, ← sweep_succ]
  set_option sl_exec.stopBefore "k0_cond65" in sl_exec
  rw [guard harg3 harg4 k0_cond64 k0_pay65 63, guard harg3 harg4 k0_cond63 k0_pay64 62, harg4.read_unread, guard harg3 harg4 k0_cond62 k0_pay63 61, harg4.read_unread, guard harg3 harg4 k0_cond61 k0_pay62 60, harg4.read_unread, guard harg3 harg4 k0_cond60 k0_pay61 59, harg4.read_unread, guard harg3 harg4 k0_cond59 k0_pay60 58, harg4.read_unread, guard harg3 harg4 k0_cond58 k0_pay59 57, harg4.read_unread, guard harg3 harg4 k0_cond57 k0_pay58 56, harg4.read_unread, harg4.read_unread]
  rw [word_eq T i 56 (kernel_run.sl.r_56 i T), word_eq T i 57 (kernel_run.sl.r_57 i T), word_eq T i 58 (kernel_run.sl.r_58 i T), word_eq T i 59 (kernel_run.sl.r_59 i T), word_eq T i 60 (kernel_run.sl.r_60 i T), word_eq T i 61 (kernel_run.sl.r_61 i T), word_eq T i 62 (kernel_run.sl.r_62 i T), word_eq T i 63 (kernel_run.sl.r_63 i T)]
  rw [← sweep_succ, ← sweep_succ, ← sweep_succ, ← sweep_succ, ← sweep_succ, ← sweep_succ, ← sweep_succ, ← sweep_succ]
  set_option sl_exec.stopBefore "k0_cond73" in sl_exec
  rw [guard harg3 harg4 k0_cond72 k0_pay73 71, guard harg3 harg4 k0_cond71 k0_pay72 70, harg4.read_unread, guard harg3 harg4 k0_cond70 k0_pay71 69, harg4.read_unread, guard harg3 harg4 k0_cond69 k0_pay70 68, harg4.read_unread, guard harg3 harg4 k0_cond68 k0_pay69 67, harg4.read_unread, guard harg3 harg4 k0_cond67 k0_pay68 66, harg4.read_unread, guard harg3 harg4 k0_cond66 k0_pay67 65, harg4.read_unread, guard harg3 harg4 k0_cond65 k0_pay66 64, harg4.read_unread, harg4.read_unread]
  rw [word_eq T i 64 (kernel_run.sl.r_64 i T), word_eq T i 65 (kernel_run.sl.r_65 i T), word_eq T i 66 (kernel_run.sl.r_66 i T), word_eq T i 67 (kernel_run.sl.r_67 i T), word_eq T i 68 (kernel_run.sl.r_68 i T), word_eq T i 69 (kernel_run.sl.r_69 i T), word_eq T i 70 (kernel_run.sl.r_70 i T), word_eq T i 71 (kernel_run.sl.r_71 i T)]
  rw [← sweep_succ, ← sweep_succ, ← sweep_succ, ← sweep_succ, ← sweep_succ, ← sweep_succ, ← sweep_succ, ← sweep_succ]
  set_option sl_exec.stopBefore "k0_cond81" in sl_exec
  rw [guard harg3 harg4 k0_cond80 k0_pay81 79, guard harg3 harg4 k0_cond79 k0_pay80 78, harg4.read_unread, guard harg3 harg4 k0_cond78 k0_pay79 77, harg4.read_unread, guard harg3 harg4 k0_cond77 k0_pay78 76, harg4.read_unread, guard harg3 harg4 k0_cond76 k0_pay77 75, harg4.read_unread, guard harg3 harg4 k0_cond75 k0_pay76 74, harg4.read_unread, guard harg3 harg4 k0_cond74 k0_pay75 73, harg4.read_unread, guard harg3 harg4 k0_cond73 k0_pay74 72, harg4.read_unread, harg4.read_unread]
  rw [word_eq T i 72 (kernel_run.sl.r_72 i T), word_eq T i 73 (kernel_run.sl.r_73 i T), word_eq T i 74 (kernel_run.sl.r_74 i T), word_eq T i 75 (kernel_run.sl.r_75 i T), word_eq T i 76 (kernel_run.sl.r_76 i T), word_eq T i 77 (kernel_run.sl.r_77 i T), word_eq T i 78 (kernel_run.sl.r_78 i T), word_eq T i 79 (kernel_run.sl.r_79 i T)]
  rw [← sweep_succ, ← sweep_succ, ← sweep_succ, ← sweep_succ, ← sweep_succ, ← sweep_succ, ← sweep_succ, ← sweep_succ]
  set_option sl_exec.stopBefore "k0_cond89" in sl_exec
  rw [guard harg3 harg4 k0_cond88 k0_pay89 87, guard harg3 harg4 k0_cond87 k0_pay88 86, harg4.read_unread, guard harg3 harg4 k0_cond86 k0_pay87 85, harg4.read_unread, guard harg3 harg4 k0_cond85 k0_pay86 84, harg4.read_unread, guard harg3 harg4 k0_cond84 k0_pay85 83, harg4.read_unread, guard harg3 harg4 k0_cond83 k0_pay84 82, harg4.read_unread, guard harg3 harg4 k0_cond82 k0_pay83 81, harg4.read_unread, guard harg3 harg4 k0_cond81 k0_pay82 80, harg4.read_unread, harg4.read_unread]
  rw [word_eq T i 80 (kernel_run.sl.r_80 i T), word_eq T i 81 (kernel_run.sl.r_81 i T), word_eq T i 82 (kernel_run.sl.r_82 i T), word_eq T i 83 (kernel_run.sl.r_83 i T), word_eq T i 84 (kernel_run.sl.r_84 i T), word_eq T i 85 (kernel_run.sl.r_85 i T), word_eq T i 86 (kernel_run.sl.r_86 i T), word_eq T i 87 (kernel_run.sl.r_87 i T)]
  rw [← sweep_succ, ← sweep_succ, ← sweep_succ, ← sweep_succ, ← sweep_succ, ← sweep_succ, ← sweep_succ, ← sweep_succ]
  set_option sl_exec.stopBefore "k0_cond97" in sl_exec
  rw [guard harg3 harg4 k0_cond96 k0_pay97 95, guard harg3 harg4 k0_cond95 k0_pay96 94, harg4.read_unread, guard harg3 harg4 k0_cond94 k0_pay95 93, harg4.read_unread, guard harg3 harg4 k0_cond93 k0_pay94 92, harg4.read_unread, guard harg3 harg4 k0_cond92 k0_pay93 91, harg4.read_unread, guard harg3 harg4 k0_cond91 k0_pay92 90, harg4.read_unread, guard harg3 harg4 k0_cond90 k0_pay91 89, harg4.read_unread, guard harg3 harg4 k0_cond89 k0_pay90 88, harg4.read_unread, harg4.read_unread]
  rw [word_eq T i 88 (kernel_run.sl.r_88 i T), word_eq T i 89 (kernel_run.sl.r_89 i T), word_eq T i 90 (kernel_run.sl.r_90 i T), word_eq T i 91 (kernel_run.sl.r_91 i T), word_eq T i 92 (kernel_run.sl.r_92 i T), word_eq T i 93 (kernel_run.sl.r_93 i T), word_eq T i 94 (kernel_run.sl.r_94 i T), word_eq T i 95 (kernel_run.sl.r_95 i T)]
  rw [← sweep_succ, ← sweep_succ, ← sweep_succ, ← sweep_succ, ← sweep_succ, ← sweep_succ, ← sweep_succ, ← sweep_succ]
  set_option sl_exec.stopBefore "k0_cond105" in sl_exec
  rw [guard harg3 harg4 k0_cond104 k0_pay105 103, guard harg3 harg4 k0_cond103 k0_pay104 102, harg4.read_unread, guard harg3 harg4 k0_cond102 k0_pay103 101, harg4.read_unread, guard harg3 harg4 k0_cond101 k0_pay102 100, harg4.read_unread, guard harg3 harg4 k0_cond100 k0_pay101 99, harg4.read_unread, guard harg3 harg4 k0_cond99 k0_pay100 98, harg4.read_unread, guard harg3 harg4 k0_cond98 k0_pay99 97, harg4.read_unread, guard harg3 harg4 k0_cond97 k0_pay98 96, harg4.read_unread, harg4.read_unread]
  rw [word_eq T i 96 (kernel_run.sl.r_96 i T), word_eq T i 97 (kernel_run.sl.r_97 i T), word_eq T i 98 (kernel_run.sl.r_98 i T), word_eq T i 99 (kernel_run.sl.r_99 i T), word_eq T i 100 (kernel_run.sl.r_100 i T), word_eq T i 101 (kernel_run.sl.r_101 i T), word_eq T i 102 (kernel_run.sl.r_102 i T), word_eq T i 103 (kernel_run.sl.r_103 i T)]
  rw [← sweep_succ, ← sweep_succ, ← sweep_succ, ← sweep_succ, ← sweep_succ, ← sweep_succ, ← sweep_succ, ← sweep_succ]
  set_option sl_exec.stopBefore "k0_cond113" in sl_exec
  rw [guard harg3 harg4 k0_cond112 k0_pay113 111, guard harg3 harg4 k0_cond111 k0_pay112 110, harg4.read_unread, guard harg3 harg4 k0_cond110 k0_pay111 109, harg4.read_unread, guard harg3 harg4 k0_cond109 k0_pay110 108, harg4.read_unread, guard harg3 harg4 k0_cond108 k0_pay109 107, harg4.read_unread, guard harg3 harg4 k0_cond107 k0_pay108 106, harg4.read_unread, guard harg3 harg4 k0_cond106 k0_pay107 105, harg4.read_unread, guard harg3 harg4 k0_cond105 k0_pay106 104, harg4.read_unread, harg4.read_unread]
  rw [word_eq T i 104 (kernel_run.sl.r_104 i T), word_eq T i 105 (kernel_run.sl.r_105 i T), word_eq T i 106 (kernel_run.sl.r_106 i T), word_eq T i 107 (kernel_run.sl.r_107 i T), word_eq T i 108 (kernel_run.sl.r_108 i T), word_eq T i 109 (kernel_run.sl.r_109 i T), word_eq T i 110 (kernel_run.sl.r_110 i T), word_eq T i 111 (kernel_run.sl.r_111 i T)]
  rw [← sweep_succ, ← sweep_succ, ← sweep_succ, ← sweep_succ, ← sweep_succ, ← sweep_succ, ← sweep_succ, ← sweep_succ]
  set_option sl_exec.stopBefore "k0_cond121" in sl_exec
  rw [guard harg3 harg4 k0_cond120 k0_pay121 119, guard harg3 harg4 k0_cond119 k0_pay120 118, harg4.read_unread, guard harg3 harg4 k0_cond118 k0_pay119 117, harg4.read_unread, guard harg3 harg4 k0_cond117 k0_pay118 116, harg4.read_unread, guard harg3 harg4 k0_cond116 k0_pay117 115, harg4.read_unread, guard harg3 harg4 k0_cond115 k0_pay116 114, harg4.read_unread, guard harg3 harg4 k0_cond114 k0_pay115 113, harg4.read_unread, guard harg3 harg4 k0_cond113 k0_pay114 112, harg4.read_unread, harg4.read_unread]
  rw [word_eq T i 112 (kernel_run.sl.r_112 i T), word_eq T i 113 (kernel_run.sl.r_113 i T), word_eq T i 114 (kernel_run.sl.r_114 i T), word_eq T i 115 (kernel_run.sl.r_115 i T), word_eq T i 116 (kernel_run.sl.r_116 i T), word_eq T i 117 (kernel_run.sl.r_117 i T), word_eq T i 118 (kernel_run.sl.r_118 i T), word_eq T i 119 (kernel_run.sl.r_119 i T)]
  rw [← sweep_succ, ← sweep_succ, ← sweep_succ, ← sweep_succ, ← sweep_succ, ← sweep_succ, ← sweep_succ, ← sweep_succ]
  set_option sl_exec.stopBefore "k0_cond129" in sl_exec
  rw [guard harg3 harg4 k0_cond128 k0_pay129 127, guard harg3 harg4 k0_cond127 k0_pay128 126, harg4.read_unread, guard harg3 harg4 k0_cond126 k0_pay127 125, harg4.read_unread, guard harg3 harg4 k0_cond125 k0_pay126 124, harg4.read_unread, guard harg3 harg4 k0_cond124 k0_pay125 123, harg4.read_unread, guard harg3 harg4 k0_cond123 k0_pay124 122, harg4.read_unread, guard harg3 harg4 k0_cond122 k0_pay123 121, harg4.read_unread, guard harg3 harg4 k0_cond121 k0_pay122 120, harg4.read_unread, harg4.read_unread]
  rw [word_eq T i 120 (kernel_run.sl.r_120 i T), word_eq T i 121 (kernel_run.sl.r_121 i T), word_eq T i 122 (kernel_run.sl.r_122 i T), word_eq T i 123 (kernel_run.sl.r_123 i T), word_eq T i 124 (kernel_run.sl.r_124 i T), word_eq T i 125 (kernel_run.sl.r_125 i T), word_eq T i 126 (kernel_run.sl.r_126 i T), word_eq T i 127 (kernel_run.sl.r_127 i T)]
  rw [← sweep_succ, ← sweep_succ, ← sweep_succ, ← sweep_succ, ← sweep_succ, ← sweep_succ, ← sweep_succ, ← sweep_succ]
  set_option sl_exec.stopBefore "k0_cond137" in sl_exec
  rw [guard harg3 harg4 k0_cond136 k0_pay137 135, guard harg3 harg4 k0_cond135 k0_pay136 134, harg4.read_unread, guard harg3 harg4 k0_cond134 k0_pay135 133, harg4.read_unread, guard harg3 harg4 k0_cond133 k0_pay134 132, harg4.read_unread, guard harg3 harg4 k0_cond132 k0_pay133 131, harg4.read_unread, guard harg3 harg4 k0_cond131 k0_pay132 130, harg4.read_unread, guard harg3 harg4 k0_cond130 k0_pay131 129, harg4.read_unread, guard harg3 harg4 k0_cond129 k0_pay130 128, harg4.read_unread, harg4.read_unread]
  rw [word_eq T i 128 (kernel_run.sl.r_128 i T), word_eq T i 129 (kernel_run.sl.r_129 i T), word_eq T i 130 (kernel_run.sl.r_130 i T), word_eq T i 131 (kernel_run.sl.r_131 i T), word_eq T i 132 (kernel_run.sl.r_132 i T), word_eq T i 133 (kernel_run.sl.r_133 i T), word_eq T i 134 (kernel_run.sl.r_134 i T), word_eq T i 135 (kernel_run.sl.r_135 i T)]
  rw [← sweep_succ, ← sweep_succ, ← sweep_succ, ← sweep_succ, ← sweep_succ, ← sweep_succ, ← sweep_succ, ← sweep_succ]
  set_option sl_exec.stopBefore "k0_cond145" in sl_exec
  rw [guard harg3 harg4 k0_cond144 k0_pay145 143, guard harg3 harg4 k0_cond143 k0_pay144 142, harg4.read_unread, guard harg3 harg4 k0_cond142 k0_pay143 141, harg4.read_unread, guard harg3 harg4 k0_cond141 k0_pay142 140, harg4.read_unread, guard harg3 harg4 k0_cond140 k0_pay141 139, harg4.read_unread, guard harg3 harg4 k0_cond139 k0_pay140 138, harg4.read_unread, guard harg3 harg4 k0_cond138 k0_pay139 137, harg4.read_unread, guard harg3 harg4 k0_cond137 k0_pay138 136, harg4.read_unread, harg4.read_unread]
  rw [word_eq T i 136 (kernel_run.sl.r_136 i T), word_eq T i 137 (kernel_run.sl.r_137 i T), word_eq T i 138 (kernel_run.sl.r_138 i T), word_eq T i 139 (kernel_run.sl.r_139 i T), word_eq T i 140 (kernel_run.sl.r_140 i T), word_eq T i 141 (kernel_run.sl.r_141 i T), word_eq T i 142 (kernel_run.sl.r_142 i T), word_eq T i 143 (kernel_run.sl.r_143 i T)]
  rw [← sweep_succ, ← sweep_succ, ← sweep_succ, ← sweep_succ, ← sweep_succ, ← sweep_succ, ← sweep_succ, ← sweep_succ]
  set_option sl_exec.stopBefore "k0_cond153" in sl_exec
  rw [guard harg3 harg4 k0_cond152 k0_pay153 151, guard harg3 harg4 k0_cond151 k0_pay152 150, harg4.read_unread, guard harg3 harg4 k0_cond150 k0_pay151 149, harg4.read_unread, guard harg3 harg4 k0_cond149 k0_pay150 148, harg4.read_unread, guard harg3 harg4 k0_cond148 k0_pay149 147, harg4.read_unread, guard harg3 harg4 k0_cond147 k0_pay148 146, harg4.read_unread, guard harg3 harg4 k0_cond146 k0_pay147 145, harg4.read_unread, guard harg3 harg4 k0_cond145 k0_pay146 144, harg4.read_unread, harg4.read_unread]
  rw [word_eq T i 144 (kernel_run.sl.r_144 i T), word_eq T i 145 (kernel_run.sl.r_145 i T), word_eq T i 146 (kernel_run.sl.r_146 i T), word_eq T i 147 (kernel_run.sl.r_147 i T), word_eq T i 148 (kernel_run.sl.r_148 i T), word_eq T i 149 (kernel_run.sl.r_149 i T), word_eq T i 150 (kernel_run.sl.r_150 i T), word_eq T i 151 (kernel_run.sl.r_151 i T)]
  rw [← sweep_succ, ← sweep_succ, ← sweep_succ, ← sweep_succ, ← sweep_succ, ← sweep_succ, ← sweep_succ, ← sweep_succ]
  set_option sl_exec.stopBefore "k0_cond161" in sl_exec
  rw [guard harg3 harg4 k0_cond160 k0_pay161 159, guard harg3 harg4 k0_cond159 k0_pay160 158, harg4.read_unread, guard harg3 harg4 k0_cond158 k0_pay159 157, harg4.read_unread, guard harg3 harg4 k0_cond157 k0_pay158 156, harg4.read_unread, guard harg3 harg4 k0_cond156 k0_pay157 155, harg4.read_unread, guard harg3 harg4 k0_cond155 k0_pay156 154, harg4.read_unread, guard harg3 harg4 k0_cond154 k0_pay155 153, harg4.read_unread, guard harg3 harg4 k0_cond153 k0_pay154 152, harg4.read_unread, harg4.read_unread]
  rw [word_eq T i 152 (kernel_run.sl.r_152 i T), word_eq T i 153 (kernel_run.sl.r_153 i T), word_eq T i 154 (kernel_run.sl.r_154 i T), word_eq T i 155 (kernel_run.sl.r_155 i T), word_eq T i 156 (kernel_run.sl.r_156 i T), word_eq T i 157 (kernel_run.sl.r_157 i T), word_eq T i 158 (kernel_run.sl.r_158 i T), word_eq T i 159 (kernel_run.sl.r_159 i T)]
  rw [← sweep_succ, ← sweep_succ, ← sweep_succ, ← sweep_succ, ← sweep_succ, ← sweep_succ, ← sweep_succ, ← sweep_succ]
  set_option sl_exec.stopBefore "k0_cond169" in sl_exec
  rw [guard harg3 harg4 k0_cond168 k0_pay169 167, guard harg3 harg4 k0_cond167 k0_pay168 166, harg4.read_unread, guard harg3 harg4 k0_cond166 k0_pay167 165, harg4.read_unread, guard harg3 harg4 k0_cond165 k0_pay166 164, harg4.read_unread, guard harg3 harg4 k0_cond164 k0_pay165 163, harg4.read_unread, guard harg3 harg4 k0_cond163 k0_pay164 162, harg4.read_unread, guard harg3 harg4 k0_cond162 k0_pay163 161, harg4.read_unread, guard harg3 harg4 k0_cond161 k0_pay162 160, harg4.read_unread, harg4.read_unread]
  rw [word_eq T i 160 (kernel_run.sl.r_160 i T), word_eq T i 161 (kernel_run.sl.r_161 i T), word_eq T i 162 (kernel_run.sl.r_162 i T), word_eq T i 163 (kernel_run.sl.r_163 i T), word_eq T i 164 (kernel_run.sl.r_164 i T), word_eq T i 165 (kernel_run.sl.r_165 i T), word_eq T i 166 (kernel_run.sl.r_166 i T), word_eq T i 167 (kernel_run.sl.r_167 i T)]
  rw [← sweep_succ, ← sweep_succ, ← sweep_succ, ← sweep_succ, ← sweep_succ, ← sweep_succ, ← sweep_succ, ← sweep_succ]
  set_option sl_exec.stopBefore "k0_cond177" in sl_exec
  rw [guard harg3 harg4 k0_cond176 k0_pay177 175, guard harg3 harg4 k0_cond175 k0_pay176 174, harg4.read_unread, guard harg3 harg4 k0_cond174 k0_pay175 173, harg4.read_unread, guard harg3 harg4 k0_cond173 k0_pay174 172, harg4.read_unread, guard harg3 harg4 k0_cond172 k0_pay173 171, harg4.read_unread, guard harg3 harg4 k0_cond171 k0_pay172 170, harg4.read_unread, guard harg3 harg4 k0_cond170 k0_pay171 169, harg4.read_unread, guard harg3 harg4 k0_cond169 k0_pay170 168, harg4.read_unread, harg4.read_unread]
  rw [word_eq T i 168 (kernel_run.sl.r_168 i T), word_eq T i 169 (kernel_run.sl.r_169 i T), word_eq T i 170 (kernel_run.sl.r_170 i T), word_eq T i 171 (kernel_run.sl.r_171 i T), word_eq T i 172 (kernel_run.sl.r_172 i T), word_eq T i 173 (kernel_run.sl.r_173 i T), word_eq T i 174 (kernel_run.sl.r_174 i T), word_eq T i 175 (kernel_run.sl.r_175 i T)]
  rw [← sweep_succ, ← sweep_succ, ← sweep_succ, ← sweep_succ, ← sweep_succ, ← sweep_succ, ← sweep_succ, ← sweep_succ]
  set_option sl_exec.stopBefore "k0_cond185" in sl_exec
  rw [guard harg3 harg4 k0_cond184 k0_pay185 183, guard harg3 harg4 k0_cond183 k0_pay184 182, harg4.read_unread, guard harg3 harg4 k0_cond182 k0_pay183 181, harg4.read_unread, guard harg3 harg4 k0_cond181 k0_pay182 180, harg4.read_unread, guard harg3 harg4 k0_cond180 k0_pay181 179, harg4.read_unread, guard harg3 harg4 k0_cond179 k0_pay180 178, harg4.read_unread, guard harg3 harg4 k0_cond178 k0_pay179 177, harg4.read_unread, guard harg3 harg4 k0_cond177 k0_pay178 176, harg4.read_unread, harg4.read_unread]
  rw [word_eq T i 176 (kernel_run.sl.r_176 i T), word_eq T i 177 (kernel_run.sl.r_177 i T), word_eq T i 178 (kernel_run.sl.r_178 i T), word_eq T i 179 (kernel_run.sl.r_179 i T), word_eq T i 180 (kernel_run.sl.r_180 i T), word_eq T i 181 (kernel_run.sl.r_181 i T), word_eq T i 182 (kernel_run.sl.r_182 i T), word_eq T i 183 (kernel_run.sl.r_183 i T)]
  rw [← sweep_succ, ← sweep_succ, ← sweep_succ, ← sweep_succ, ← sweep_succ, ← sweep_succ, ← sweep_succ, ← sweep_succ]
  set_option sl_exec.stopBefore "k0_cond193" in sl_exec
  rw [guard harg3 harg4 k0_cond192 k0_pay193 191, guard harg3 harg4 k0_cond191 k0_pay192 190, harg4.read_unread, guard harg3 harg4 k0_cond190 k0_pay191 189, harg4.read_unread, guard harg3 harg4 k0_cond189 k0_pay190 188, harg4.read_unread, guard harg3 harg4 k0_cond188 k0_pay189 187, harg4.read_unread, guard harg3 harg4 k0_cond187 k0_pay188 186, harg4.read_unread, guard harg3 harg4 k0_cond186 k0_pay187 185, harg4.read_unread, guard harg3 harg4 k0_cond185 k0_pay186 184, harg4.read_unread, harg4.read_unread]
  rw [word_eq T i 184 (kernel_run.sl.r_184 i T), word_eq T i 185 (kernel_run.sl.r_185 i T), word_eq T i 186 (kernel_run.sl.r_186 i T), word_eq T i 187 (kernel_run.sl.r_187 i T), word_eq T i 188 (kernel_run.sl.r_188 i T), word_eq T i 189 (kernel_run.sl.r_189 i T), word_eq T i 190 (kernel_run.sl.r_190 i T), word_eq T i 191 (kernel_run.sl.r_191 i T)]
  rw [← sweep_succ, ← sweep_succ, ← sweep_succ, ← sweep_succ, ← sweep_succ, ← sweep_succ, ← sweep_succ, ← sweep_succ]
  set_option sl_exec.stopBefore "k0_cond201" in sl_exec
  rw [guard harg3 harg4 k0_cond200 k0_pay201 199, guard harg3 harg4 k0_cond199 k0_pay200 198, harg4.read_unread, guard harg3 harg4 k0_cond198 k0_pay199 197, harg4.read_unread, guard harg3 harg4 k0_cond197 k0_pay198 196, harg4.read_unread, guard harg3 harg4 k0_cond196 k0_pay197 195, harg4.read_unread, guard harg3 harg4 k0_cond195 k0_pay196 194, harg4.read_unread, guard harg3 harg4 k0_cond194 k0_pay195 193, harg4.read_unread, guard harg3 harg4 k0_cond193 k0_pay194 192, harg4.read_unread, harg4.read_unread]
  rw [word_eq T i 192 (kernel_run.sl.r_192 i T), word_eq T i 193 (kernel_run.sl.r_193 i T), word_eq T i 194 (kernel_run.sl.r_194 i T), word_eq T i 195 (kernel_run.sl.r_195 i T), word_eq T i 196 (kernel_run.sl.r_196 i T), word_eq T i 197 (kernel_run.sl.r_197 i T), word_eq T i 198 (kernel_run.sl.r_198 i T), word_eq T i 199 (kernel_run.sl.r_199 i T)]
  rw [← sweep_succ, ← sweep_succ, ← sweep_succ, ← sweep_succ, ← sweep_succ, ← sweep_succ, ← sweep_succ, ← sweep_succ]
  set_option sl_exec.stopBefore "k0_cond209" in sl_exec
  rw [guard harg3 harg4 k0_cond208 k0_pay209 207, guard harg3 harg4 k0_cond207 k0_pay208 206, harg4.read_unread, guard harg3 harg4 k0_cond206 k0_pay207 205, harg4.read_unread, guard harg3 harg4 k0_cond205 k0_pay206 204, harg4.read_unread, guard harg3 harg4 k0_cond204 k0_pay205 203, harg4.read_unread, guard harg3 harg4 k0_cond203 k0_pay204 202, harg4.read_unread, guard harg3 harg4 k0_cond202 k0_pay203 201, harg4.read_unread, guard harg3 harg4 k0_cond201 k0_pay202 200, harg4.read_unread, harg4.read_unread]
  rw [word_eq T i 200 (kernel_run.sl.r_200 i T), word_eq T i 201 (kernel_run.sl.r_201 i T), word_eq T i 202 (kernel_run.sl.r_202 i T), word_eq T i 203 (kernel_run.sl.r_203 i T), word_eq T i 204 (kernel_run.sl.r_204 i T), word_eq T i 205 (kernel_run.sl.r_205 i T), word_eq T i 206 (kernel_run.sl.r_206 i T), word_eq T i 207 (kernel_run.sl.r_207 i T)]
  rw [← sweep_succ, ← sweep_succ, ← sweep_succ, ← sweep_succ, ← sweep_succ, ← sweep_succ, ← sweep_succ, ← sweep_succ]
  set_option sl_exec.stopBefore "k0_cond217" in sl_exec
  rw [guard harg3 harg4 k0_cond216 k0_pay217 215, guard harg3 harg4 k0_cond215 k0_pay216 214, harg4.read_unread, guard harg3 harg4 k0_cond214 k0_pay215 213, harg4.read_unread, guard harg3 harg4 k0_cond213 k0_pay214 212, harg4.read_unread, guard harg3 harg4 k0_cond212 k0_pay213 211, harg4.read_unread, guard harg3 harg4 k0_cond211 k0_pay212 210, harg4.read_unread, guard harg3 harg4 k0_cond210 k0_pay211 209, harg4.read_unread, guard harg3 harg4 k0_cond209 k0_pay210 208, harg4.read_unread, harg4.read_unread]
  rw [word_eq T i 208 (kernel_run.sl.r_208 i T), word_eq T i 209 (kernel_run.sl.r_209 i T), word_eq T i 210 (kernel_run.sl.r_210 i T), word_eq T i 211 (kernel_run.sl.r_211 i T), word_eq T i 212 (kernel_run.sl.r_212 i T), word_eq T i 213 (kernel_run.sl.r_213 i T), word_eq T i 214 (kernel_run.sl.r_214 i T), word_eq T i 215 (kernel_run.sl.r_215 i T)]
  rw [← sweep_succ, ← sweep_succ, ← sweep_succ, ← sweep_succ, ← sweep_succ, ← sweep_succ, ← sweep_succ, ← sweep_succ]
  set_option sl_exec.stopBefore "k0_cond225" in sl_exec
  rw [guard harg3 harg4 k0_cond224 k0_pay225 223, guard harg3 harg4 k0_cond223 k0_pay224 222, harg4.read_unread, guard harg3 harg4 k0_cond222 k0_pay223 221, harg4.read_unread, guard harg3 harg4 k0_cond221 k0_pay222 220, harg4.read_unread, guard harg3 harg4 k0_cond220 k0_pay221 219, harg4.read_unread, guard harg3 harg4 k0_cond219 k0_pay220 218, harg4.read_unread, guard harg3 harg4 k0_cond218 k0_pay219 217, harg4.read_unread, guard harg3 harg4 k0_cond217 k0_pay218 216, harg4.read_unread, harg4.read_unread]
  rw [word_eq T i 216 (kernel_run.sl.r_216 i T), word_eq T i 217 (kernel_run.sl.r_217 i T), word_eq T i 218 (kernel_run.sl.r_218 i T), word_eq T i 219 (kernel_run.sl.r_219 i T), word_eq T i 220 (kernel_run.sl.r_220 i T), word_eq T i 221 (kernel_run.sl.r_221 i T), word_eq T i 222 (kernel_run.sl.r_222 i T), word_eq T i 223 (kernel_run.sl.r_223 i T)]
  rw [← sweep_succ, ← sweep_succ, ← sweep_succ, ← sweep_succ, ← sweep_succ, ← sweep_succ, ← sweep_succ, ← sweep_succ]
  set_option sl_exec.stopBefore "k0_cond233" in sl_exec
  rw [guard harg3 harg4 k0_cond232 k0_pay233 231, guard harg3 harg4 k0_cond231 k0_pay232 230, harg4.read_unread, guard harg3 harg4 k0_cond230 k0_pay231 229, harg4.read_unread, guard harg3 harg4 k0_cond229 k0_pay230 228, harg4.read_unread, guard harg3 harg4 k0_cond228 k0_pay229 227, harg4.read_unread, guard harg3 harg4 k0_cond227 k0_pay228 226, harg4.read_unread, guard harg3 harg4 k0_cond226 k0_pay227 225, harg4.read_unread, guard harg3 harg4 k0_cond225 k0_pay226 224, harg4.read_unread, harg4.read_unread]
  rw [word_eq T i 224 (kernel_run.sl.r_224 i T), word_eq T i 225 (kernel_run.sl.r_225 i T), word_eq T i 226 (kernel_run.sl.r_226 i T), word_eq T i 227 (kernel_run.sl.r_227 i T), word_eq T i 228 (kernel_run.sl.r_228 i T), word_eq T i 229 (kernel_run.sl.r_229 i T), word_eq T i 230 (kernel_run.sl.r_230 i T), word_eq T i 231 (kernel_run.sl.r_231 i T)]
  rw [← sweep_succ, ← sweep_succ, ← sweep_succ, ← sweep_succ, ← sweep_succ, ← sweep_succ, ← sweep_succ, ← sweep_succ]
  set_option sl_exec.stopBefore "k0_cond241" in sl_exec
  rw [guard harg3 harg4 k0_cond240 k0_pay241 239, guard harg3 harg4 k0_cond239 k0_pay240 238, harg4.read_unread, guard harg3 harg4 k0_cond238 k0_pay239 237, harg4.read_unread, guard harg3 harg4 k0_cond237 k0_pay238 236, harg4.read_unread, guard harg3 harg4 k0_cond236 k0_pay237 235, harg4.read_unread, guard harg3 harg4 k0_cond235 k0_pay236 234, harg4.read_unread, guard harg3 harg4 k0_cond234 k0_pay235 233, harg4.read_unread, guard harg3 harg4 k0_cond233 k0_pay234 232, harg4.read_unread, harg4.read_unread]
  rw [word_eq T i 232 (kernel_run.sl.r_232 i T), word_eq T i 233 (kernel_run.sl.r_233 i T), word_eq T i 234 (kernel_run.sl.r_234 i T), word_eq T i 235 (kernel_run.sl.r_235 i T), word_eq T i 236 (kernel_run.sl.r_236 i T), word_eq T i 237 (kernel_run.sl.r_237 i T), word_eq T i 238 (kernel_run.sl.r_238 i T), word_eq T i 239 (kernel_run.sl.r_239 i T)]
  rw [← sweep_succ, ← sweep_succ, ← sweep_succ, ← sweep_succ, ← sweep_succ, ← sweep_succ, ← sweep_succ, ← sweep_succ]
  set_option sl_exec.stopBefore "k0_cond249" in sl_exec
  rw [guard harg3 harg4 k0_cond248 k0_pay249 247, guard harg3 harg4 k0_cond247 k0_pay248 246, harg4.read_unread, guard harg3 harg4 k0_cond246 k0_pay247 245, harg4.read_unread, guard harg3 harg4 k0_cond245 k0_pay246 244, harg4.read_unread, guard harg3 harg4 k0_cond244 k0_pay245 243, harg4.read_unread, guard harg3 harg4 k0_cond243 k0_pay244 242, harg4.read_unread, guard harg3 harg4 k0_cond242 k0_pay243 241, harg4.read_unread, guard harg3 harg4 k0_cond241 k0_pay242 240, harg4.read_unread, harg4.read_unread]
  rw [word_eq T i 240 (kernel_run.sl.r_240 i T), word_eq T i 241 (kernel_run.sl.r_241 i T), word_eq T i 242 (kernel_run.sl.r_242 i T), word_eq T i 243 (kernel_run.sl.r_243 i T), word_eq T i 244 (kernel_run.sl.r_244 i T), word_eq T i 245 (kernel_run.sl.r_245 i T), word_eq T i 246 (kernel_run.sl.r_246 i T), word_eq T i 247 (kernel_run.sl.r_247 i T)]
  rw [← sweep_succ, ← sweep_succ, ← sweep_succ, ← sweep_succ, ← sweep_succ, ← sweep_succ, ← sweep_succ, ← sweep_succ]
  sl_exec
  delta kernel_run.sl.v1280 kernel_run.sl.v1280_1 kernel_run.sl.v1280_2
  rw [guard harg3 harg4 k0_cond256 k0_pay1 255, guard harg3 harg4 k0_cond255 k0_pay256 254, harg4.read_unread, guard harg3 harg4 k0_cond254 k0_pay255 253, harg4.read_unread, guard harg3 harg4 k0_cond253 k0_pay254 252, harg4.read_unread, guard harg3 harg4 k0_cond252 k0_pay253 251, harg4.read_unread, guard harg3 harg4 k0_cond251 k0_pay252 250, harg4.read_unread, guard harg3 harg4 k0_cond250 k0_pay251 249, harg4.read_unread, guard harg3 harg4 k0_cond249 k0_pay250 248, harg4.read_unread, harg4.read_unread]
  rw [word_eq T i 248 (kernel_run.sl.r_248 i T), word_eq T i 249 (kernel_run.sl.r_249 i T), word_eq T i 250 (kernel_run.sl.r_250 i T), word_eq T i 251 (kernel_run.sl.r_251 i T), word_eq T i 252 (kernel_run.sl.r_252 i T), word_eq T i 253 (kernel_run.sl.r_253 i T), word_eq T i 254 (kernel_run.sl.r_254 i T), word_eq T i 255 (kernel_run.sl.r_255 i T)]
  rw [← sweep_succ, ← sweep_succ, ← sweep_succ, ← sweep_succ, ← sweep_succ, ← sweep_succ, ← sweep_succ, ← sweep_succ]
  sl_step
  iapply Hk
  isplitl [H0]
  · iexists _; isplitr
    · ipureintro; exact harg3.read_unread _
    iexact H0
  isplitl [H1]
  · iexists _; isplitr
    swap
    · iexact H1
    ipureintro
    rw [harg4.read_unread]
    exact sweep_all (rowAt T i) (fun d => hT _) X Y
  iexact HT

end Cert.KernelIdeal.Gen

end
-- ==== Proof.KI.Table.lean ====
import proofs.«429720_j40398462386445_2_alg».proof.Proof.KI.Kit
import proofs.«429720_j40398462386445_2_alg».proof.Proof.Spec
import Idealize.ShloMosaic.Lib.StableHlo.Run
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem comparator_eq : comparator_i32_i32_d1 = Cert.BlockShuffle.ltWords := rfl

/-- The table the region finds is the row-wise argsort of the second argument, -/
theorem V_main_v0 : (V m (0 : Dev nD) main_v0 : S16x16.Idx → BitVec 32) = Cert.BlockShuffle.argsortRows (m (((0 : Dev nD) : Thread nD τ).loc main_arg1)) := by
  dsimp only [V, hostOps0]
  after_results
  rfl

theorem tbl_eq : tbM.view.read (Elt F) (tbl m 0) = Cert.BlockShuffle.argsortRows (m (((0 : Dev nD) : Thread nD τ).loc main_arg1)) :=
  V_main_v0 m

/-- so each of its words, a position of a row, is below 16. -/
theorem tbl_lt (j : S16x16.Idx) : (tbM.view.read (Elt F) (tbl m 0) j).toNat < 16 := by
  rw [tbl_eq]
  exact Cert.BlockShuffle.argsortRows_lt _ j

end Cert.KernelIdeal.Gen

end
-- ==== Proof.KI.Frame.lean ====
import proofs.«429720_j40398462386445_2_alg».proof.Proof.KI.Body
import proofs.«429720_j40398462386445_2_alg».proof.Proof.KI.Table
import Idealize.ShloMosaic.Lib.Pipeline.Frame
import Idealize.ShloMosaic.Lib.Pipeline.FrameBody
import Idealize.ShloMosaic.Lib.Pipeline.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the body at point t the input's buffer is still its block, the output's that block shuffled by the batch element's row. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => Cert.BlockShuffle.shuffledBlk (iblk m c 0 t) (rowAt (tbM.view.read (Elt F) (tbl m 0)) (grid0.coords t))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) :
    (dats m 0 c).after 1 t = Cert.BlockShuffle.shuffledBlk (iblk m c 0 t) (rowAt (tbM.view.read (Elt F) (tbl m 0)) (grid0.coords t)) := by
  dsimp only [dats]; try rfl

theorem before0 (c : Dev nD) (t : Fin (cfgM m).N) (d) : (dats m 0 c).before 0 t d = iblk m c 0 t :=
  before0_of m (dats m 0 c) (A_eq m c 0) (after0 m c) t d

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

theorem tbPt_unread (c : Dev nD) :
    (tbPt c tbM (tbl m 0) : sProp 𝕄) = tbPt c tbM (htbM.unread (tbM.view.read (Elt F) (tbl m 0))) :=
  congrArg (tbPt (F := F) c tbM) (htbM.unread_read (Val := Elt F) (tbl m 0)).symm

/-- The body's run at point t, from the blocks it is given to the blocks it leaves. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before0]
  rw [show (dats m 0 c).Φ t.succ = (dats m 0 c).Φ t.castSucc from rfl,
    show (dats m 0 c).owesAt () t.succ = (dats m 0 c).owesAt () t.castSucc from rfl,
    after0, after1]
  rw [show (dats m 0 c).Φ t.castSucc = iprop(Pipeline.ΦA spec0 c ∗ Pipeline.ΦT pre0 (tbl m) c) from rfl, PhiT_eq, tbPt_unread]
  iintro ⟨⟨HΦ, HT⟩, Ho, ⟨%d0, H0⟩, ⟨%d1, H1⟩⟩
  iapply (kernel_run c (grid0.coords t) _ _ _ _ (iblk m c 0 t) (tbM.view.read (Elt F) (tbl m 0)) (tbl_lt m) Set.univ _)
  isplitl [H0]; · iexact H0
  isplitl [H1]; · iexists _; iexact H1
  isplitl [HT]; · iexact HT
  iintro ⟨H0, H1, HT⟩
  isplitl [HΦ HT]
  · isplitl [HΦ]; · iexact HΦ
    iexact HT
  isplitl [Ho]; · iexact Ho
  isplitl [H0]; · iexact H0
  iexact H1

theorem leaves1 (c : Dev nD) (t : Fin (cfgM m).N) :
    owns (c : Thread nD τ) (ms1 m t) fullShare ((dats m 0 c).after 1 t) ⊢ ((dats m 0 c).leavesExact 1 t : sProp 𝕄) := by
  have hfl : ((cfgM m).win 1).flush t = true := flush1 (adm m) t
  unfold Dat.leavesExact
  rw [hfl]
  cases (cfgM m).idle 1 ((cfgM m).grid.coords t)
  · exact .rfl
  · exact .rfl

theorem body_obligation (c : Dev nD) : BodyObligation (dats (F := F) m 0 c) (defs₀ (F := F)) Variants.none () Set.univ := fun t => by
  rw [bigSep_W0, bigSep_W0]
  exact (sound_body m c t).trans (wp_mono _ _ _ fun _ => sep_mono .rfl (sep_mono .rfl (sep_mono .rfl (leaves1 m c t))))

set_option backward.isDefEq.respectTransparency.types false in

/-- Every weakly fair execution of @main terminates, each array at what the points' blocks say. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- Both arguments end as launched: nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (by decide : main_arg1 ∈ Pipeline.restRefs sig spec0)).trans (V_main_arg1 m c)⟩) (run_main m ρ)

end Cert.KernelIdeal.Gen

end
-- ==== Proof.KI.Value.lean ====
import proofs.«429720_j40398462386445_2_alg».proof.Proof.KI.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.BlockShuffle Idealize.ShloMosaic.ValueIdx

/-- Position y of block (b, q) sits at (b, 32q + y₁, y₂, y₃) of the array. -/
def blkEmb (b : Fin 16) (q : Fin 4) (y : SBlk.Idx) : SArr.Idx :=
  ix4 b (⟨q.val * 32 + (y 1).val, by have h : (y 1).val < 32 := (y 1).isLt; have := q.isLt; omega⟩ : Fin 128) (y 2 : Fin 224) (y 3 : Fin 224)

/-- The shuffle acts inside each plane and reads only row b of the table: it commutes with taking block (b, q). -/
theorem shuffledBlk_block {α : Type} (A : SArr.Idx → α) (T : STab.Idx → BitVec 32) (b : Fin 16) (q : Fin 4) (y : SBlk.Idx) :
    shuffledBlk (fun z => A (blkEmb b q z)) (fun d => T (ix2 b d)) y = shuffled A T (blkEmb b q y) := rfl

theorem idx_facts : ∀ t : Fin grid0.N,
    cc0_transform_0 (grid0.coords t) (0 : Fin 4) = (grid0.coords t 0).val ∧ cc0_transform_0 (grid0.coords t) (1 : Fin 4) = (grid0.coords t 1).val
    ∧ cc0_transform_0 (grid0.coords t) (2 : Fin 4) = 0 ∧ cc0_transform_0 (grid0.coords t) (3 : Fin 4) = 0
    ∧ cc0_transform_1 (grid0.coords t) (0 : Fin 4) = (grid0.coords t 0).val ∧ cc0_transform_1 (grid0.coords t) (1 : Fin 4) = (grid0.coords t 1).val
    ∧ cc0_transform_1 (grid0.coords t) (2 : Fin 4) = 0 ∧ cc0_transform_1 (grid0.coords t) (3 : Fin 4) = 0 := by
  decide +kernel

theorem idx_onto : ∀ (q0 : Fin 16) (q1 : Fin 4), ∃ t : Fin grid0.N, (grid0.coords t 0).val = q0.val ∧ (grid0.coords t 1).val = q1.val := by
  decide +kernel

abbrev bOf (t : Fin grid0.N) : Fin 16 := ⟨(grid0.coords t 0).val, (grid0.coords t 0).isLt⟩
abbrev qOf (t : Fin grid0.N) : Fin 4 := ⟨(grid0.coords t 1).val, (grid0.coords t 1).isLt⟩

theorem emb0 (a : (pcfg0 (F := F)).Adm) (t : Fin (cfg0 a).N) (y : SBlk.Idx) :
    (((cfg0 a).win 0).blk t).view.emb y = blkEmb (bOf t) (qOf t) y := by
  obtain ⟨e0, e1, e2, e3, -, -, -, -⟩ := idx_facts t
  funext e; apply Fin.ext
  match e with
  | ⟨0, _⟩ =>
    show cc0_transform_0 (grid0.coords t) (0 : Fin 4) * 1 + 1 * (y 0).val = (grid0.coords t 0).val
    have hy : (y 0).val < 1 := (y 0).isLt
    omega
  | ⟨1, _⟩ =>
    show cc0_transform_0 (grid0.coords t) (1 : Fin 4) * 32 + 1 * (y 1).val = (grid0.coords t 1).val * 32 + (y 1).val
    omega
  | ⟨2, _⟩ =>
    show cc0_transform_0 (grid0.coords t) (2 : Fin 4) * 224 + 1 * (y 2).val = (y 2).val
    omega
  | ⟨3, _⟩ =>
    show cc0_transform_0 (grid0.coords t) (3 : Fin 4) * 224 + 1 * (y 3).val = (y 3).val
    omega

theorem emb1 (a : (pcfg0 (F := F)).Adm) (t : Fin (cfg0 a).N) (y : SBlk.Idx) :
    (((cfg0 a).win 1).blk t).view.emb y = blkEmb (bOf t) (qOf t) y := by
  obtain ⟨-, -, -, -, e0, e1, e2, e3⟩ := idx_facts t
  funext e; apply Fin.ext
  match e with
  | ⟨0, _⟩ =>
    show cc0_transform_1 (grid0.coords t) (0 : Fin 4) * 1 + 1 * (y 0).val = (grid0.coords t 0).val
    have hy : (y 0).val < 1 := (y 0).isLt
    omega
  | ⟨1, _⟩ =>
    show cc0_transform_1 (grid0.coords t) (1 : Fin 4) * 32 + 1 * (y 1).val = (grid0.coords t 1).val * 32 + (y 1).val
    omega
  | ⟨2, _⟩ =>
    show cc0_transform_1 (grid0.coords t) (2 : Fin 4) * 224 + 1 * (y 2).val = (y 2).val
    omega
  | ⟨3, _⟩ =>
    show cc0_transform_1 (grid0.coords t) (3 : Fin 4) * 224 + 1 * (y 3).val = (y 3).val
    omega

theorem mem_blk1 (a : (pcfg0 (F := F)).Adm) (t : Fin (cfg0 a).N) (i : SArr.Idx) :
    i ∈ (((cfg0 a).win 1).blk t).view.set ↔ ∀ e : Fin 4, cc0_transform_1 (grid0.coords t) e * S1x32x224x224.size e ≤ (i e).val
      ∧ (i e).val < cc0_transform_1 (grid0.coords t) e * S1x32x224x224.size e + S1x32x224x224.size e := by
  exact (Finset.ext_iff.mp (View.set_slice_whole main_v1 (((cfg0 a).win 1).rect t)) i).trans Rect.mem_set_unit

/-- Covering: (b, c, r, s) belongs to point (b, c / 32). -/
theorem cover1 (a : (pcfg0 (F := F)).Adm) (i : SArr.Idx) :
    ∃ t : Fin (cfg0 a).N, ((cfg0 a).win 1).flush t = true ∧ i ∈ (((cfg0 a).win 1).blk t).view.set := by
  have hi0 : (i 0).val < 16 := (i 0).isLt
  have hi1 : (i 1).val < 128 := (i 1).isLt
  have hi2 : (i 2).val < 224 := (i 2).isLt
  have hi3 : (i 3).val < 224 := (i 3).isLt
  obtain ⟨t, ht0, ht1⟩ := idx_onto ⟨(i 0).val, hi0⟩ ⟨(i 1).val / 32, by omega⟩
  have ht0' : (grid0.coords t 0).val = (i 0).val := ht0
  have ht1' : (grid0.coords t 1).val = (i 1).val / 32 := ht1
  obtain ⟨-, -, -, -, e0, e1, e2, e3⟩ := idx_facts t
  refine ⟨t, flush1 a t, ?_⟩
  rw [mem_blk1]
  intro e
  match e with
  | ⟨0, _⟩ =>
    show cc0_transform_1 (grid0.coords t) (0 : Fin 4) * 1 ≤ (i 0).val ∧ (i 0).val < cc0_transform_1 (grid0.coords t) (0 : Fin 4) * 1 + 1
    omega
  | ⟨1, _⟩ =>
    show cc0_transform_1 (grid0.coords t) (1 : Fin 4) * 32 ≤ (i 1).val ∧ (i 1).val < cc0_transform_1 (grid0.coords t) (1 : Fin 4) * 32 + 32
    omega
  | ⟨2, _⟩ =>
    show cc0_transform_1 (grid0.coords t) (2 : Fin 4) * 224 ≤ (i 2).val ∧ (i 2).val < cc0_transform_1 (grid0.coords t) (2 : Fin 4) * 224 + 224
    omega
  | ⟨3, _⟩ =>
    show cc0_transform_1 (grid0.coords t) (3 : Fin 4) * 224 ≤ (i 3).val ∧ (i 3).val < cc0_transform_1 (grid0.coords t) (3 : Fin 4) * 224 + 224
    omega

def G (c : Dev nD) : SArr.Idx → Elt F .f32 := shuffled (V m c main_arg0) (tbM.view.read (Elt F) (tbl m 0))

theorem iblk0_eq (c : Dev nD) (t : Fin (cfgM m).N) :
    iblk m c 0 t = fun z : SBlk.Idx => (V m c main_arg0 : SArr.Idx → Elt F .f32) (blkEmb (bOf t) (qOf t) z) := by
  funext z
  show (V m c main_arg0 : SArr.Idx → Elt F .f32) ((((cfg0 (adm m)).win 0).blk t).view.emb z) = _
  rw [emb0 (adm m) t z]

theorem flushed_eq (c : Dev nD) (t : Fin (cfgM m).N) :
    (dats m 0 c).flushed 1 t = (((cfgM m).win 1).blk t).view.read (Elt F) (G m c) := by
  show ((cfgM m).win 1).cut ((cfgM m).grid.coords t) ((dats m 0 c).after 1 t) = _
  rw [after1, iblk0_eq]
  funext y
  show shuffledBlk (fun z : SBlk.Idx => (V m c main_arg0 : SArr.Idx → Elt F .f32) (blkEmb (bOf t) (qOf t) z))
      (rowAt (tbM.view.read (Elt F) (tbl m 0)) (grid0.coords t)) y
    = G m c ((((cfg0 (adm m)).win 1).blk t).view.emb y)
  rw [emb1 (adm m) t y]
  exact shuffledBlk_block (V m c main_arg0 : SArr.Idx → Elt F .f32) (tbM.view.read (Elt F) (tbl m 0)) (bOf t) (qOf t) y

/-- The 64 blocks written back tile the result: the first argument shuffled by the row-wise argsort of the second. -/
theorem final (c : Dev nD) : (dats m 0 c).arrAt 1 (cfgM m).N
    = shuffled (m ((c.tc : Thread nD τ).loc main_arg0)) (argsortRows (m ((c.tc : Thread nD τ).loc main_arg1))) := by
  obtain rfl : c = 0 := Subsingleton.elim _ _
  rw [(dats m 0 0).arrAt_eq_of_cover 1 (G m 0) (fun t _ => flushed_eq m 0 t) (cover1 (adm m))]
  unfold G
  rw [V_main_arg0, tbl_eq]

theorem run_shuffled : θ_run defs (onTc (τ := τ) (main (F := F))) ⟨m, fun _ => 0, ρ⟩ (fun r => ∀ c : Dev nD,
      r.2.mem ((c.tc : Thread nD τ).loc main_v1) = shuffled (m ((c.tc : Thread nD τ).loc main_arg0)) (argsortRows (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 1).trans (final m c),
      ((h c).1 0).trans (((dats m 0 c).arrAt_in 0 rfl _).trans ((A_eq m c 0).trans (V_main_arg0 m c))),
      ((h c).2 main_arg1 (by decide : main_arg1 ∈ Pipeline.restRefs sig spec0)).trans (V_main_arg1 m c)⟩) (run_main m ρ)

end Cert.KernelIdeal.Gen

end
-- ==== Proof.RefTiles.lean ====
import Idealize.ShloMosaic.Lib.Pipeline.Value
import Idealize.ShloMosaic.Lib.ValueIdxRank6
import proofs.«429720_j40398462386445_2_alg».proof.Proof.Spec

namespace Cert.ReferenceIdeal.RefValue

open Idealize.ShloMosaic Idealize.ShloMosaic.ValueIdx Cert.BlockShuffle

abbrev TSplit : Shape := ⟨6, ![16, 128, 4, 56, 4, 56]⟩

abbrev TPair : Shape := ⟨6, ![16, 4, 4, 128, 56, 56]⟩

abbrev TTile : Shape := ⟨5, ![16, 16, 128, 56, 56]⟩

def tileRow (k : Fin 16) (r : Fin 56) : Fin 224 := ⟨k.val / 4 * 56 + r.val, by omega⟩

def tileCol (k : Fin 16) (s : Fin 56) : Fin 224 := ⟨k.val % 4 * 56 + s.val, by omega⟩

def offOf (r : Fin 224) : Fin 56 := ⟨r.val % 56, Nat.mod_lt _ (by decide)⟩

/-- Reshape, transpose, reshape: tile k of plane (b, c) at offsets (r, s) is x at (b, c, 56 (k / 4) + r, 56 (k mod 4) + s). -/
theorem toTiles_apply {α : Type} (x : SArr.Idx → α) (h1 : SArr.ShapeCasts TSplit)
    (h2 : TSplit.Transposes [0, 2, 4, 1, 3, 5] TPair) (h3 : TPair.ShapeCasts TTile)
    (b k : Fin 16) (c : Fin 128) (r s : Fin 56) :
    shapeCast TTile (transpose TPair [0, 2, 4, 1, 3, 5] (shapeCast TSplit x h1) h2) h3 (ix5 b k c r s)
      = x (ix4 b c (tileRow k r) (tileCol k s)) := by
  have hb := b.isLt
  have hk := k.isLt
  have hc := c.isLt
  have hr := r.isLt
  have hs := s.isLt

  refine (shapeCast_apply _ h3 (ix5 b k c r s)
    (ix6 b (⟨k.val / 4, by omega⟩ : Fin 4) (⟨k.val % 4, by omega⟩ : Fin 4) c r s)
    (by rw [Shape.rowMajor_val_six, Shape.rowMajor_val_five]
        show ((((b.val * 4 + k.val / 4) * 4 + k.val % 4) * 128 + c.val) * 56 + r.val) * 56 + s.val
          = (((b.val * 16 + k.val) * 128 + c.val) * 56 + r.val) * 56 + s.val
        omega)).trans ?_

  refine (transpose_apply _ _ h2 _
    (ix6 b c (⟨k.val / 4, by omega⟩ : Fin 4) r (⟨k.val % 4, by omega⟩ : Fin 4) s)
    (fun a => match a with
      | ⟨0, _⟩ => rfl | ⟨1, _⟩ => rfl | ⟨2, _⟩ => rfl | ⟨3, _⟩ => rfl | ⟨4, _⟩ => rfl | ⟨5, _⟩ => rfl)).trans ?_

  exact shapeCast_apply x h1 _ (ix4 b c (tileRow k r) (tileCol k s))
    (by rw [Shape.rowMajor_val_four, Shape.rowMajor_val_six]
        show ((b.val * 128 + c.val) * 224 + (k.val / 4 * 56 + r.val)) * 224 + (k.val % 4 * 56 + s.val)
          = ((((b.val * 128 + c.val) * 4 + k.val / 4) * 56 + r.val) * 4 + k.val % 4) * 56 + s.val
        omega)

/-- The inverse arrangement: position (r, s) of plane (b, c) is tile 4 (r / 56) + s / 56 at offsets (r mod 56, s mod 56). -/
theorem fromTiles_apply {α : Type} (y : TTile.Idx → α) (h4 : TTile.ShapeCasts TPair)
    (h5 : TPair.Transposes [0, 3, 1, 4, 2, 5] TSplit) (h6 : TSplit.ShapeCasts SArr)
    (b : Fin 16) (c : Fin 128) (i j : Fin 224) :
    shapeCast SArr (transpose TSplit [0, 3, 1, 4, 2, 5] (shapeCast TPair y h4) h5) h6 (ix4 b c i j)
      = y (ix5 b (tileOf i j) c (offOf i) (offOf j)) := by
  have hb := b.isLt
  have hc := c.isLt
  have hi := i.isLt
  have hj := j.isLt

  refine (shapeCast_apply _ h6 (ix4 b c i j)
    (ix6 b c (⟨i.val / 56, by omega⟩ : Fin 4) (offOf i) (⟨j.val / 56, by omega⟩ : Fin 4) (offOf j))
    (by rw [Shape.rowMajor_val_six, Shape.rowMajor_val_four]
        show ((((b.val * 128 + c.val) * 4 + i.val / 56) * 56 + i.val % 56) * 4 + j.val / 56) * 56 + j.val % 56
          = ((b.val * 128 + c.val) * 224 + i.val) * 224 + j.val
        omega)).trans ?_

  refine (transpose_apply _ _ h5 _
    (ix6 b (⟨i.val / 56, by omega⟩ : Fin 4) (⟨j.val / 56, by omega⟩ : Fin 4) c (offOf i) (offOf j))
    (fun a => match a with
      | ⟨0, _⟩ => rfl | ⟨1, _⟩ => rfl | ⟨2, _⟩ => rfl | ⟨3, _⟩ => rfl | ⟨4, _⟩ => rfl | ⟨5, _⟩ => rfl)).trans ?_

  exact shapeCast_apply y h4 _ _
    (by rw [Shape.rowMajor_val_five, Shape.rowMajor_val_six]
        show (((b.val * 16 + (i.val / 56 * 4 + j.val / 56)) * 128 + c.val) * 56 + i.val % 56) * 56 + j.val % 56
          = ((((b.val * 4 + i.val / 56) * 4 + j.val / 56) * 128 + c.val) * 56 + i.val % 56) * 56 + j.val % 56
        omega)

end Cert.ReferenceIdeal.RefValue
-- ==== Proof.RefGather.lean ====
import Idealize.ShloMosaic.PureOps
import Idealize.ShloMosaic.Lib.ValueIdx

namespace Cert.ReferenceIdeal.RefValue

open Idealize.ShloMosaic Idealize.ShloMosaic.ValueIdx

abbrev GTile : Shape := ⟨5, ![16, 16, 128, 56, 56]⟩
abbrev GIdx : Shape := ⟨3, ![16, 16, 1]⟩

abbrev tileDims (wf : GatherDims.WF GTile GIdx GTile [2, 3, 4] [1] [0] [1] [0] 2 ![1, 1, 128, 56, 56]) :
    GatherDims GTile GIdx GTile where
  offsetDims := [2, 3, 4]
  collapsedSliceDims := [1]
  operandBatchingDims := [0]
  startIndicesBatchingDims := [0]
  startIndexMap := [1]
  indexVectorDim := 2
  sliceSizes := ![1, 1, 128, 56, 56]
  wf := wf

section Axes
variable {w : Nat} (wf : GatherDims.WF GTile GIdx GTile [2, 3, 4] [1] [0] [1] [0] 2 ![1, 1, 128, 56, 56])
  (idx : IVec GIdx w) (b d : Fin 16) (c : Fin 128) (r s : Fin 56)

theorem mem_kept (a : Fin 5) : a ∈ (tileDims wf).sKept ↔ a ∉ [(1 : Fin 5)] ∧ a ∉ [(0 : Fin 5)] :=
  GatherDims.mem_sKept (tileDims wf) a

theorem operand_axis0 :
    (tileDims wf).start (ix5 b d c r s) idx 0 + (tileDims wf).batchCoord (ix5 b d c r s) 0
      + (tileDims wf).offCoord (ix5 b d c r s) 0 = b.val := by
  rw [GatherDims.start_batching (tileDims wf) _ _ _ (List.mem_singleton.mpr rfl),
    GatherDims.offCoord_eq_zero (tileDims wf) _ _ (fun h => ((mem_kept wf _).mp h).2 (List.mem_singleton.mpr rfl))]
  unfold GatherDims.batchCoord
  rw [dif_pos (show (0 : Fin 5) ∈ [(0 : Fin 5)] from List.mem_singleton.mpr rfl)]
  simp only [Nat.zero_add, Nat.add_zero]
  rfl

theorem operand_axis1 :
    (tileDims wf).start (ix5 b d c r s) idx 1 + (tileDims wf).batchCoord (ix5 b d c r s) 1
      + (tileDims wf).offCoord (ix5 b d c r s) 1 = min (idx (ix3 b d (0 : Fin 1))).toInt.toNat 15 := by
  rw [GatherDims.batchCoord_eq_zero (tileDims wf) _ _ (show (1 : Fin 5) ∉ [(0 : Fin 5)] by decide),
    GatherDims.offCoord_eq_zero (tileDims wf) _ _ (fun h => ((mem_kept wf _).mp h).1 (List.mem_singleton.mpr rfl))]
  simp only [Nat.add_zero]
  unfold GatherDims.start
  rw [dif_pos (show (1 : Fin 5) ∈ [(1 : Fin 5)] from List.mem_singleton.mpr rfl)]
  have hsi : (tileDims wf).siIdx (ix5 b d c r s) ⟨List.idxOf (1 : Fin 5) [(1 : Fin 5)],
      List.idxOf_lt_length_iff.2 (List.mem_singleton.mpr rfl)⟩ = ix3 b d (0 : Fin 1) := by
    funext e; refine Fin.ext ?_
    match e with
    | ⟨0, _⟩ => rfl
    | ⟨1, _⟩ => rfl
    | ⟨2, _⟩ => rfl
  rw [hsi]
  rfl

theorem operand_axis2 :
    (tileDims wf).start (ix5 b d c r s) idx 2 + (tileDims wf).batchCoord (ix5 b d c r s) 2
      + (tileDims wf).offCoord (ix5 b d c r s) 2 = c.val := by
  rw [GatherDims.batchCoord_eq_zero (tileDims wf) _ _ (show (2 : Fin 5) ∉ [(0 : Fin 5)] by decide)]
  unfold GatherDims.start GatherDims.offCoord
  rw [dif_neg (show (2 : Fin 5) ∉ [(1 : Fin 5)] by decide), dif_pos ((mem_kept wf 2).mpr ⟨by decide, by decide⟩)]
  simp only [Nat.zero_add, Nat.add_zero]
  rfl

theorem operand_axis3 :
    (tileDims wf).start (ix5 b d c r s) idx 3 + (tileDims wf).batchCoord (ix5 b d c r s) 3
      + (tileDims wf).offCoord (ix5 b d c r s) 3 = r.val := by
  rw [GatherDims.batchCoord_eq_zero (tileDims wf) _ _ (show (3 : Fin 5) ∉ [(0 : Fin 5)] by decide)]
  unfold GatherDims.start GatherDims.offCoord
  rw [dif_neg (show (3 : Fin 5) ∉ [(1 : Fin 5)] by decide), dif_pos ((mem_kept wf 3).mpr ⟨by decide, by decide⟩)]
  simp only [Nat.zero_add, Nat.add_zero]
  rfl

theorem operand_axis4 :
    (tileDims wf).start (ix5 b d c r s) idx 4 + (tileDims wf).batchCoord (ix5 b d c r s) 4
      + (tileDims wf).offCoord (ix5 b d c r s) 4 = s.val := by
  rw [GatherDims.batchCoord_eq_zero (tileDims wf) _ _ (show (4 : Fin 5) ∉ [(0 : Fin 5)] by decide)]
  unfold GatherDims.start GatherDims.offCoord
  rw [dif_neg (show (4 : Fin 5) ∉ [(1 : Fin 5)] by decide), dif_pos ((mem_kept wf 4).mpr ⟨by decide, by decide⟩)]
  simp only [Nat.zero_add, Nat.add_zero]
  rfl

end Axes

/-- The gather takes whole [128, 56, 56] tiles along axis 1: entry (b, d, c, r, s) is the operand's at (b, idx[b, d], c, r, s). -/
theorem gather_tile_apply {α : Type} {w : Nat}
    (wf : GatherDims.WF GTile GIdx GTile [2, 3, 4] [1] [0] [1] [0] 2 ![1, 1, 128, 56, 56])
    (y : GTile.Idx → α) (idx : IVec GIdx w) (b d : Fin 16) (c : Fin 128) (r s : Fin 56) :
    Host.gather (tileDims wf) y idx (ix5 b d c r s)
      = y (ix5 b (⟨min (idx (ix3 b d (0 : Fin 1))).toInt.toNat 15, by omega⟩ : Fin 16) c r s) := by
  unfold Host.gather
  congr 1
  funext a
  refine Fin.ext ?_
  show (tileDims wf).start (ix5 b d c r s) idx a + (tileDims wf).batchCoord (ix5 b d c r s) a
      + (tileDims wf).offCoord (ix5 b d c r s) a = _
  match a with
  | ⟨0, _⟩ => exact operand_axis0 wf idx b d c r s
  | ⟨1, _⟩ => exact operand_axis1 wf idx b d c r s
  | ⟨2, _⟩ => exact operand_axis2 wf idx b d c r s
  | ⟨3, _⟩ => exact operand_axis3 wf idx b d c r s
  | ⟨4, _⟩ => exact operand_axis4 wf idx b d c r s

end Cert.ReferenceIdeal.RefValue
-- ==== Proof.RefTable.lean ====
import Idealize.ShloMosaic.PureOps
import Idealize.ShloMosaic.PureOps.Reduce
import Idealize.ShloMosaic.Lib.Affine
import Idealize.ShloMosaic.Lib.ValueIdx
import Idealize.ShloMosaic.Lib.Pipeline.Value

namespace Cert.ReferenceIdeal.RefValue

open Idealize.ShloMosaic Idealize.ShloMosaic.ValueIdx

abbrev TUnit3 : Shape := ⟨5, ![16, 16, 1, 1, 1]⟩
abbrev TUnit1 : Shape := ⟨3, ![16, 16, 1]⟩
abbrev TTab : Shape := ⟨2, ![16, 16]⟩

theorem toInt_of_lt16 (x : BitVec 32) (hx : x.toNat < 16) : x.toInt = (x.toNat : Int) := by
  rw [BitVec.toInt_eq_toNat_cond, if_pos (by omega)]

theorem wrap_of_lt16 (x : BitVec 32) (hx : x.toNat < 16) :
    Scalar.select (IntOp.cmpi .slt x 0#32) (IntOp.addi x 16#32) x = x := by
  have h : ¬ IntOp.cmpi .slt x 0#32 = 1#1 := by
    rw [IntOp.cmpi_slt, toInt_of_lt16 x hx]
    have : (0#32 : BitVec 32).toInt = 0 := by decide
    omega
  rw [eq_zero_of_ne_one h, select_zero]

theorem inRange_of_lt16 (x : BitVec 32) (hx : x.toNat < 16) :
    IntOp.andi (IntOp.cmpi .sge x 0#32) (IntOp.cmpi .sle x 15#32) = 1#1 := by
  have h0 : (0#32 : BitVec 32).toInt = 0 := by decide
  have h15 : (15#32 : BitVec 32).toInt = 15 := by decide
  refine IntOp.andi_eq_one.mpr ⟨IntOp.cmpi_sge.mpr ?_, IntOp.cmpi_sle.mpr ?_⟩
  · rw [toInt_of_lt16 x hx, h0]; omega
  · rw [toInt_of_lt16 x hx, h15]; omega

theorem clamp_of_lt16 (x : BitVec 32) (hx : x.toNat < 16) : min x.toInt.toNat 15 = x.toNat := by
  rw [toInt_of_lt16 x hx, Int.toNat_natCast]
  omega

theorem bcastTab_apply {α : Type} (tab : TTab.Idx → α) (hb : TTab.BroadcastsInDim TUnit3 ![0, 1]) (b d : Fin 16) (u v w : Fin 1) :
    broadcastInDim TUnit3 ![0, 1] hb tab (ix5 b d u v w) = tab (ix2 b d) :=
  broadcastInDim_apply _ hb tab _ (ix2 b d) (fun a => match a with | ⟨0, _⟩ => rfl | ⟨1, _⟩ => rfl)

theorem dropUnits_apply {α : Type} (v : TUnit3.Idx → α) (hc : TUnit3.ShapeCasts TUnit1) (b d : Fin 16) (u : Fin 1) :
    shapeCast TUnit1 v hc (ix3 b d u) = v (ix5 b d (0 : Fin 1) (0 : Fin 1) (0 : Fin 1)) := by
  have hu := u.isLt
  refine shapeCast_apply v hc _ _ ?_
  rw [Shape.rowMajor_val_five, Shape.rowMajor_val_three]
  show (((b.val * 16 + d.val) * 1 + 0) * 1 + 0) * 1 + 0 = (b.val * 16 + d.val) * 1 + u.val
  omega

/-- A word below 16 is not negative, so adding 16 to negative words changes nothing, -/
theorem wrap_apply {s : Shape} (v zero sixteen : IVec s 32) (hv : ∀ i, (v i).toNat < 16) (hz : ∀ i, zero i = 0#32)
    (h16 : ∀ i, sixteen i = 16#32) (i : s.Idx) : select (cmpi .slt v zero) (addi v sixteen) v i = v i := by
  show Scalar.select (IntOp.cmpi .slt (v i) (zero i)) (IntOp.addi (v i) (sixteen i)) (v i) = v i
  rw [hz, h16]
  exact wrap_of_lt16 _ (hv i)

theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_ones f hf l

/-- and it is in range, so the in-range mask is all ones and the fill is never selected. -/
theorem mask_apply {s t u : Shape} {axes : List (Fin s.rank)} (v zero fifteen : IVec s 32) (init : u.Idx → BitVec 1)
    (hv : ∀ i, (v i).toNat < 16) (hz : ∀ i, zero i = 0#32) (h15 : ∀ i, fifteen i = 15#32) (hi : ∀ i, init i = 1#1)
    (h : s.ReducesTo axes t) (hu : 0 < u.numel) (j : t.Idx) :
    Host.reduce IntOp.andi (andi (cmpi .sge v zero) (cmpi .sle v fifteen)) init h hu j = 1#1 := by
  rw [Host.reduce_eq_foldl, hi]
  refine foldl_andi_ones _ (fun i => ?_) _
  show IntOp.andi (IntOp.cmpi .sge (v i) (zero i)) (IntOp.cmpi .sle (v i) (fifteen i)) = 1#1
  rw [hz, h15]
  exact inRange_of_lt16 _ (hv i)

theorem select_bcast_ones {s t : Shape} {α : Type} (dims : Fin s.rank → Fin t.rank) (hb : s.BroadcastsInDim t dims)
    (m : IVec s 1) (hm : ∀ i, m i = 1#1) (g fill : t.Idx → α) (i : t.Idx) :
    select (broadcastInDim t dims hb m) g fill i = g i := by
  show Scalar.select (broadcastInDim t dims hb m i) (g i) (fill i) = g i
  unfold broadcastInDim
  rw [hm, select_one]

end Cert.ReferenceIdeal.RefValue
-- ==== Proof.RefChain.lean ====
import proofs.«429720_j40398462386445_2_alg».proof.Proof.RefTiles
import proofs.«429720_j40398462386445_2_alg».proof.Proof.RefGather
import proofs.«429720_j40398462386445_2_alg».proof.Proof.RefTable

namespace Cert.ReferenceIdeal.RefValue

open Idealize.ShloMosaic Idealize.ShloMosaic.ValueIdx Cert.BlockShuffle

abbrev TScalar : Shape := ⟨0, ![]⟩
abbrev TOne : Shape := ⟨1, ![1]⟩
abbrev TOnes : Shape := ⟨3, ![1, 1, 1]⟩

section Chain
variable {α : Type}
  (h1 : SArr.ShapeCasts TSplit) (h2 : TSplit.Transposes [0, 2, 4, 1, 3, 5] TPair) (h3 : TPair.ShapeCasts TTile)
  (hb : TTab.BroadcastsInDim TUnit3 ![0, 1]) (hz3 : TScalar.BroadcastsInDim TUnit3 ![]) (hc : TUnit3.ShapeCasts TUnit1)
  (hz1 : TScalar.BroadcastsInDim TUnit1 ![]) (ha : TOne.BroadcastsInDim TOnes ![2])
  (hb15 : TOnes.BroadcastsInDim TUnit1 ![0, 1, 2]) (hr : TUnit1.ReducesTo [2] TTab) (hS : 0 < TScalar.numel)
  (wf : GatherDims.WF GTile GIdx GTile [2, 3, 4] [1] [0] [1] [0] 2 ![1, 1, 128, 56, 56])
  (hm : TTab.BroadcastsInDim TTile ![0, 1]) (hf : TScalar.BroadcastsInDim TTile ![])
  (h4 : TTile.ShapeCasts TPair) (h5 : TPair.Transposes [0, 3, 1, 4, 2, 5] TSplit) (h6 : TSplit.ShapeCasts SArr)

def tabIdx (tab : TTab.Idx → BitVec 32) : IVec TUnit1 32 :=
  shapeCast TUnit1
    (select (cmpi .slt (broadcastInDim TUnit3 ![0, 1] hb tab) (broadcastInDim TUnit3 ![] hz3 (constantI TScalar 32 0#32)))
      (addi (broadcastInDim TUnit3 ![0, 1] hb tab) (broadcastInDim TUnit3 ![] hz3 (constantI TScalar 32 16#32)))
      (broadcastInDim TUnit3 ![0, 1] hb tab)) hc

/-- The reference as one function: cut into tiles, gather along the tile axis by the wrapped, clamped table, reassemble. -/
def refChain (x : SArr.Idx → α) (fill : TScalar.Idx → α) (tab : TTab.Idx → BitVec 32) : SArr.Idx → α :=
  shapeCast SArr (transpose TSplit [0, 3, 1, 4, 2, 5] (shapeCast TPair
    (select
      (broadcastInDim TTile ![0, 1] hm
        (Host.reduce IntOp.andi
          (andi (cmpi .sge (tabIdx hb hz3 hc tab) (broadcastInDim TUnit1 ![] hz1 (constantI TScalar 32 0#32)))
            (cmpi .sle (tabIdx hb hz3 hc tab)
              (broadcastInDim TUnit1 ![0, 1, 2] hb15 (broadcastInDim TOnes ![2] ha (constantI TOne 32 15#32)))))
          (constantI TScalar 1 1#1) hr hS))
      (Host.gather (tileDims wf)
        (shapeCast TTile (transpose TPair [0, 2, 4, 1, 3, 5] (shapeCast TSplit x h1) h2) h3) (tabIdx hb hz3 hc tab))
      (broadcastInDim TTile ![] hf fill)) h4) h5) h6

section Below16
variable (tab : TTab.Idx → BitVec 32) (htab : ∀ j, (tab j).toNat < 16)
include htab

theorem tabIdx_apply (b d : Fin 16) (u : Fin 1) : tabIdx hb hz3 hc tab (ix3 b d u) = tab (ix2 b d) := by
  unfold tabIdx
  rw [dropUnits_apply,
    wrap_apply (broadcastInDim TUnit3 ![0, 1] hb tab) (broadcastInDim TUnit3 ![] hz3 (constantI TScalar 32 0#32))
      (broadcastInDim TUnit3 ![] hz3 (constantI TScalar 32 16#32))
      (fun i => by unfold broadcastInDim; exact htab _) (fun _ => rfl) (fun _ => rfl),
    bcastTab_apply]

theorem tabIdx_lt (i : TUnit1.Idx) : (tabIdx hb hz3 hc tab i).toNat < 16 := by
  obtain ⟨b, d, u, rfl⟩ : ∃ (b d : Fin 16) (u : Fin 1), i = ix3 b d u := ⟨i 0, i 1, i 2, eq_ix3 i⟩
  rw [tabIdx_apply hb hz3 hc tab htab]
  exact htab _

theorem tileRow_eq (K : Fin 16) (k : Nat) (hk : K.val = k) (r : Fin 224) : tileRow K (offOf r) = srcRow k r := by
  have := K.isLt
  subst hk
  refine Fin.ext ?_
  show K.val / 4 * 56 + r.val % 56 = K.val / 4 % 4 * 56 + r.val % 56
  omega
omit htab in

theorem tileCol_eq (K : Fin 16) (k : Nat) (hk : K.val = k) (s : Fin 224) : tileCol K (offOf s) = srcCol k s := by
  subst hk
  rfl

/-- With every word of the table below 16 the wrap and the clamp do nothing, and the chain is the shuffle. -/
theorem refChain_eq (x : SArr.Idx → α) (fill : TScalar.Idx → α) :
    refChain h1 h2 h3 hb hz3 hc hz1 ha hb15 hr hS wf hm hf h4 h5 h6 x fill tab = shuffled x tab := by
  funext j
  obtain ⟨b, c, i, k, rfl⟩ : ∃ (b : Fin 16) (c : Fin 128) (i k : Fin 224), j = ix4 b c i k :=
    ⟨j 0, j 1, j 2, j 3, eq_ix4 j⟩
  unfold refChain
  have hmask : ∀ i, Host.reduce IntOp.andi
      (andi (cmpi .sge (tabIdx hb hz3 hc tab) (broadcastInDim TUnit1 ![] hz1 (constantI TScalar 32 0#32)))
        (cmpi .sle (tabIdx hb hz3 hc tab)
          (broadcastInDim TUnit1 ![0, 1, 2] hb15 (broadcastInDim TOnes ![2] ha (constantI TOne 32 15#32)))))
      (constantI TScalar 1 1#1) hr hS i = 1#1 :=
    fun i => mask_apply _ _ _ _ (tabIdx_lt hb hz3 hc tab htab) (fun _ => rfl) (fun _ => rfl) (fun _ => rfl) hr hS i
  rw [fromTiles_apply, select_bcast_ones _ hm _ hmask, gather_tile_apply, toTiles_apply]
  have hK : min (tabIdx hb hz3 hc tab (ix3 b (tileOf i k) (0 : Fin 1))).toInt.toNat 15
      = (tab (ix2 b (tileOf i k))).toNat := by
    rw [tabIdx_apply hb hz3 hc tab htab]
    exact clamp_of_lt16 _ (htab _)
  rw [tileRow_eq tab htab _ _ hK, tileCol_eq _ _ hK]
  rfl

end Below16

end Chain

end Cert.ReferenceIdeal.RefValue
-- ==== Proof.RefValue.lean ====
import proofs.«429720_j40398462386445_2_alg».proof.Proof.RefRunP
import proofs.«429720_j40398462386445_2_alg».proof.Proof.RefChain

noncomputable section

namespace Cert.ReferenceIdeal.RefValue

open Cert.ReferenceIdeal Idealize.ShloMosaic Idealize.ShloMosaic.TcCoe Idealize.SL.Sem Idealize.ShloMosaic.StableHlo
  Cert.BlockShuffle

abbrev chainOf (x0 : SArr.Idx → Elt Ideal .f32) (tab : STab.Idx → BitVec 32) : SArr.Idx → Elt Ideal .f32 :=
  refChain Gen.shapeCasts_S16x128x224x224_S16x128x4x56x4x56
    Gen.transposes_S16x128x4x56x4x56_S16x4x4x128x56x56_0_2_4_1_3_5
    Gen.shapeCasts_S16x4x4x128x56x56_S16x16x128x56x56
    Gen.bcast_S16x16_S16x16x1x1x1_0_1 Gen.bcast_S_S16x16x1x1x1 Gen.shapeCasts_S16x16x1x1x1_S16x16x1
    Gen.bcast_S_S16x16x1 Gen.bcast_S1_S1x1x1_2 Gen.bcast_S1x1x1_S16x16x1_0_1_2
    Gen.reducesTo_S16x16x1_S16x16_d2 Gen.h_S_
    Gen.gather_S16x16x128x56x56_S16x16x1_S16x16x128x56x56_234_1_0_0_1_2_111285656_wf
    Gen.bcast_S16x16_S16x16x128x56x56_0_1 Gen.bcast_S_S16x16x128x56x56
    Gen.shapeCasts_S16x16x128x56x56_S16x4x4x128x56x56
    Gen.transposes_S16x4x4x128x56x56_S16x128x4x56x4x56_0_3_1_4_2_5
    Gen.shapeCasts_S16x128x4x56x4x56_S16x128x224x224
    x0 (constant (F := Ideal) TScalar .f32 0x7FC00000#32) tab

/-- The reference's composed term is the shuffle by the row-wise argsort. -/
theorem chain_shuffled (x0 : SArr.Idx → Elt Ideal .f32) (x1 : STab.Idx → BitVec 32) :
    chainOf x0 (argsortRows x1) = shuffled x0 (argsortRows x1) :=
  refChain_eq _ _ _ _ _ _ _ _ _ _ _ _ _ _ _ _ _ (argsortRows x1) (argsortRows_lt x1) x0 _

/-- The reference runs to the end, its result the shuffled first argument, its arguments unchanged. -/
theorem run_shuffled (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v8)
          = Cert.BlockShuffle.shuffled
              (m ((c.tc : Thread Cert.ReferenceIdeal.nD Cert.ReferenceIdeal.τ).loc Cert.ReferenceIdeal.main_arg0))
              (Cert.BlockShuffle.argsortRows
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨(h c).1.trans
        (chain_shuffled
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))),
      (h c).2⟩)
    (Cert.ReferenceIdeal.Value.run (F := Ideal) m ρ)

end Cert.ReferenceIdeal.RefValue

end
-- ==== Proof.lean ====
import proofs.«429720_j40398462386445_2_alg».proof.Defs
import proofs.«429720_j40398462386445_2_alg».proof.Proof.Gen.Kernel
import proofs.«429720_j40398462386445_2_alg».proof.Proof.Gen.Kernel.Skeleton
import proofs.«429720_j40398462386445_2_alg».proof.Proof.Gen.Kernel.Launch
import proofs.«429720_j40398462386445_2_alg».proof.Proof.Gen.Kernel.Flash
import proofs.«429720_j40398462386445_2_alg».proof.Proof.Gen.KernelIdeal
import proofs.«429720_j40398462386445_2_alg».proof.Proof.Gen.KernelIdeal.Skeleton
import proofs.«429720_j40398462386445_2_alg».proof.Proof.Gen.KernelIdeal.Launch
import proofs.«429720_j40398462386445_2_alg».proof.Proof.Gen.KernelIdeal.Flash
import proofs.«429720_j40398462386445_2_alg».proof.Proof.Gen.ReferenceIdeal
import proofs.«429720_j40398462386445_2_alg».proof.Proof.Gen.Pre_finite_inputs
import proofs.«429720_j40398462386445_2_alg».proof.Proof.K.Frame
import proofs.«429720_j40398462386445_2_alg».proof.Proof.KI.Value
import proofs.«429720_j40398462386445_2_alg».proof.Proof.RefValue
import Idealize.ShloMosaic.Adequacy
import Idealize.ShloMosaic.Init

noncomputable section

namespace Cert.Proof

open Idealize.ShloMosaic Idealize.ShloMosaic.TcCoe Idealize.SL.Sem

/-- Each program runs to the end from any memory and leaves both arguments as they were. -/
theorem frame_k : Cert.frame_Kernel := fun m ρ _ => Cert.Kernel.Gen.frame (F := Bits) m ρ

theorem frame_ki : Cert.frame_KernelIdeal := fun m ρ _ => Cert.KernelIdeal.Gen.frame (F := Ideal) m ρ

theorem frame_ri : Cert.frame_ReferenceIdeal := fun m ρ _ =>
  (θ_run Cert.ReferenceIdeal.defs _ _).mono (fun _ h c => (h c).2) (Cert.ReferenceIdeal.RefValue.run_shuffled m ρ)

/-- The idealization changed nothing in the kernel's text, so there is nothing to preserve. -/
theorem preserves : Cert.preserves_Kernel_KernelIdeal := trivial

/-- Both results are the first argument with each plane's 4 × 4 tiles permuted by the row-wise argsort of the second. -/
theorem algebraic : Cert.algebraic_KernelIdeal_ReferenceIdeal := by
  intro m ρ m' ρ' _ hagree
  refine ⟨fun c => Cert.BlockShuffle.shuffled
      (m ((c.tc : Thread Cert.KernelIdeal.nD Cert.KernelIdeal.τ).loc Cert.KernelIdeal.main_arg0))
      (Cert.BlockShuffle.argsortRows (m ((c.tc : Thread Cert.KernelIdeal.nD Cert.KernelIdeal.τ).loc Cert.KernelIdeal.main_arg1))),
    Cert.KernelIdeal.Gen.run_shuffled (F := Ideal) m ρ, ?_⟩
  refine (θ_run Cert.ReferenceIdeal.defs _ _).mono (fun _ h c => ⟨?_, (h c).2⟩)
    (Cert.ReferenceIdeal.RefValue.run_shuffled m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
